-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S2x800000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S100000x128 : Shape := ⟨2, ![100000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 135
  | .vmem => 66
  | .smem => 0
  | _ => 0

abbrev hbmTy0_0 (i : Nat) : BufTy := match i % 128 with
  | 0 => ⟨S100000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S100000x128, .f32⟩
  | 23 => ⟨S800000x1, .i32⟩
  | 24 => ⟨S100000x128, .f32⟩
  | 25 => ⟨S1x128x128, .f32⟩
  | 26 => ⟨S128x128, .f32⟩
  | 27 => ⟨S1x128, .f32⟩
  | 28 => ⟨S128, .f32⟩
  | 29 => ⟨S1x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S100000x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S100000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S100000x128, .f32⟩
  | 64 => ⟨S800000x1, .i32⟩
  | 65 => ⟨S100000x128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S100000x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S100000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S_, .f32⟩
  | 104 => ⟨S100000x128, .f32⟩
  | 105 => ⟨S800000x1, .i32⟩
  | 106 => ⟨S100000x128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S100000x128, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S128, .f32⟩
  | 5 => ⟨S1x128, .f32⟩
  | 6 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_3 : Ref sig .tc := ⟨.hbm, 53, rfl⟩
abbrev main_v38 : Ref sig .tc := ⟨.hbm, 54, rfl⟩
abbrev main_v39 : Ref sig .tc := ⟨.hbm, 55, rfl⟩
abbrev main_c_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58_0 : Ref sig .tc := ⟨.hbm, 76, rfl⟩
abbrev main_v58_1 : Ref sig .tc := ⟨.hbm, 77, rfl⟩
abbrev main_v58_2 : Ref sig .tc := ⟨.hbm, 78, rfl⟩
abbrev main_cst_6 : Ref sig .tc := ⟨.hbm, 79, rfl⟩
abbrev main_v59 : Ref sig .tc := ⟨.hbm, 80, rfl⟩
abbrev main_v60 : Ref sig .tc := ⟨.hbm, 81, rfl⟩
abbrev main_cst_7 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_8 : Ref sig .tc := ⟨.hbm, 94, rfl⟩
abbrev main_v72 : Ref sig .tc := ⟨.hbm, 95, rfl⟩
abbrev main_v73 : Ref sig .tc := ⟨.hbm, 96, rfl⟩
abbrev main_c_9 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92_0 : Ref sig .tc := ⟨.hbm, 117, rfl⟩
abbrev main_v92_1 : Ref sig .tc := ⟨.hbm, 118, rfl⟩
abbrev main_v92_2 : Ref sig .tc := ⟨.hbm, 119, rfl⟩
abbrev main_cst_11 : Ref sig .tc := ⟨.hbm, 120, rfl⟩
abbrev main_v93 : Ref sig .tc := ⟨.hbm, 121, rfl⟩
abbrev main_v94 : Ref sig .tc := ⟨.hbm, 122, rfl⟩
abbrev main_cst_12 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v43 : BitVec 1 := Scalar.cmpi .eq arg0 c49_i32
  let v44 : BitVec 32 := Scalar.extui v43
  let c0_i32_26 : BitVec 32 := 0#32
  let v45 : BitVec 1 := Scalar.cmpi .ne v44 c0_i32_26
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_26 : BitVec 32 := 0#32
  let v46 : BitVec 1 := Scalar.cmpi .ne v45 c0_i32_26
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_26 : BitVec 32 := 0#32
  let v46 : BitVec 1 := Scalar.cmpi .ne v45 c0_i32_26
  v46

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  reduces_S2000x128_S128 : S2000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v24_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v58_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v58_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v92_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v92_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v92_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v92_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 264
  | .vmem => 0
  | .smem => 0
  | _ => 0

abbrev hbmTy0_0 (i : Nat) : BufTy := match i % 128 with
  | 0 => ⟨S100000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S100000x128, .f32⟩
  | 23 => ⟨S800000x1, .i32⟩
  | 24 => ⟨S100000x128, .f32⟩
  | 25 => ⟨S100000x128, .f32⟩
  | 26 => ⟨S1x128x128, .f32⟩
  | 27 => ⟨S128x128, .f32⟩
  | 28 => ⟨S100000x128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S1x128x128, .f32⟩
  | 38 => ⟨S128x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S_, .f32⟩
  | 106 => ⟨S100000x128, .f32⟩
  | 107 => ⟨S800000x1, .i32⟩
  | 108 => ⟨S100000x128, .f32⟩
  | 109 => ⟨S100000x128, .f32⟩
  | 110 => ⟨S1x128x128, .f32⟩
  | 111 => ⟨S128x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S1x128x128, .f32⟩
  | 122 => ⟨S128x128, .f32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S100000x128, .f32⟩
  | 14 => ⟨S100000x128, .f32⟩
  | 15 => ⟨S100000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S100000x128, .f32⟩
  | 63 => ⟨S800000x1, .i32⟩
  | 64 => ⟨S100000x128, .f32⟩
  | 65 => ⟨S100000x128, .f32⟩
  | 66 => ⟨S1x128x128, .f32⟩
  | 67 => ⟨S128x128, .f32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S1x128x128, .f32⟩
  | 78 => ⟨S128x128, .f32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S100000x128, .f32⟩
  | 98 => ⟨S100000x128, .f32⟩
  | 99 => ⟨S100000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S128, .f32⟩
  | 123 => ⟨S128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_2 (i : Nat) : BufTy := match i % 128 with
  | 0 => ⟨S1x128, .f32⟩
  | 1 => ⟨S128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_5 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_6 : Ref sig .tc := ⟨.hbm, 93, rfl⟩
abbrev main_v56 : Ref sig .tc := ⟨.hbm, 94, rfl⟩
abbrev main_v57 : Ref sig .tc := ⟨.hbm, 95, rfl⟩
abbrev main_c_7 : Ref sig .tc := ⟨.hbm, 96, rfl⟩
abbrev main_v58 : Ref sig .tc := ⟨.hbm, 97, rfl⟩
abbrev main_v59 : Ref sig .tc := ⟨.hbm, 98, rfl⟩
abbrev main_c_8 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_9 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_10 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_11 : Ref sig .tc := ⟨.hbm, 129, rfl⟩
abbrev main_v87 : Ref sig .tc := ⟨.hbm, 130, rfl⟩
abbrev main_cst_12 : Ref sig .tc := ⟨.hbm, 131, rfl⟩
abbrev main_v88 : Ref sig .tc := ⟨.hbm, 132, rfl⟩
abbrev main_v89 : Ref sig .tc := ⟨.hbm, 133, rfl⟩
abbrev main_c_13 : Ref sig .tc := ⟨.hbm, 134, rfl⟩
abbrev main_call1_cst : Ref sig .tc := ⟨.hbm, 135, rfl⟩
abbrev main_call1_v0 : Ref sig .tc := ⟨.hbm, 136, rfl⟩
abbrev main_call1_v1 : Ref sig .tc := ⟨.hbm, 137, rfl⟩
abbrev main_call1_cst_0 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_v6 : Ref sig .tc := ⟨.hbm, 143, rfl⟩
abbrev main_call1_v7 : Ref sig .tc := ⟨.hbm, 144, rfl⟩
abbrev main_call1_cst_1 : Ref sig .tc := ⟨.hbm, 145, rfl⟩
abbrev main_call1_v8 : Ref sig .tc := ⟨.hbm, 146, rfl⟩
abbrev main_call1_cst_2 : Ref sig .tc := ⟨.hbm, 147, rfl⟩
abbrev main_call1_v9 : Ref sig .tc := ⟨.hbm, 148, rfl⟩
abbrev main_call1_v10 : Ref sig .tc := ⟨.hbm, 149, rfl⟩
abbrev main_call1_v11 : Ref sig .tc := ⟨.hbm, 150, rfl⟩
abbrev main_call1_cst_3 : Ref sig .tc := ⟨.hbm, 151, rfl⟩
abbrev main_call1_v12 : Ref sig .tc := ⟨.hbm, 152, rfl⟩
abbrev main_call1_cst_4 : Ref sig .tc := ⟨.hbm, 153, rfl⟩
abbrev main_call1_call0_v0 : Ref sig .tc := ⟨.hbm, 154, rfl⟩
abbrev main_call1_call0_v1 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_cst_14 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_cst_15 : Ref sig .tc := ⟨.hbm, 177, rfl⟩
abbrev main_v110 : Ref sig .tc := ⟨.hbm, 178, rfl⟩
abbrev main_v111 : Ref sig .tc := ⟨.hbm, 179, rfl⟩
abbrev main_c_16 : Ref sig .tc := ⟨.hbm, 180, rfl⟩
abbrev main_v112 : Ref sig .tc := ⟨.hbm, 181, rfl⟩
abbrev main_v113 : Ref sig .tc := ⟨.hbm, 182, rfl⟩
abbrev main_c_17 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_cst_18 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_cst_19 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_cst_20 : Ref sig .tc := ⟨.hbm, 213, rfl⟩
abbrev main_v141 : Ref sig .tc := ⟨.hbm, 214, rfl⟩
abbrev main_cst_21 : Ref sig .tc := ⟨.hbm, 215, rfl⟩
abbrev main_v142 : Ref sig .tc := ⟨.hbm, 216, rfl⟩
abbrev main_v143 : Ref sig .tc := ⟨.hbm, 217, rfl⟩
abbrev main_c_22 : Ref sig .tc := ⟨.hbm, 218, rfl⟩
abbrev main_call2_cst : Ref sig .tc := ⟨.hbm, 219, rfl⟩
abbrev main_call2_v0 : Ref sig .tc := ⟨.hbm, 220, rfl⟩
abbrev main_call2_v1 : Ref sig .tc := ⟨.hbm, 221, rfl⟩
abbrev main_call2_cst_0 : Ref sig .tc := ⟨.hbm, 222, rfl⟩
abbrev main_call2_v2 : Ref sig .tc := ⟨.hbm, 223, rfl⟩
abbrev main_call2_v3 : Ref sig .tc := ⟨.hbm, 224, rfl⟩
abbrev main_call2_v4 : Ref sig .tc := ⟨.hbm, 225, rfl⟩
abbrev main_call2_v5 : Ref sig .tc := ⟨.hbm, 226, rfl⟩
abbrev main_call2_v6 : Ref sig .tc := ⟨.hbm, 227, rfl⟩
abbrev main_call2_v7 : Ref sig .tc := ⟨.hbm, 228, rfl⟩
abbrev main_call2_cst_1 : Ref sig .tc := ⟨.hbm, 229, rfl⟩
abbrev main_call2_v8 : Ref sig .tc := ⟨.hbm, 230, rfl⟩
abbrev main_call2_cst_2 : Ref sig .tc := ⟨.hbm, 231, rfl⟩
abbrev main_call2_v9 : Ref sig .tc := ⟨.hbm, 232, rfl⟩
abbrev main_call2_v10 : Ref sig .tc := ⟨.hbm, 233, rfl⟩
abbrev main_call2_v11 : Ref sig .tc := ⟨.hbm, 234, rfl⟩
abbrev main_call2_cst_3 : Ref sig .tc := ⟨.hbm, 235, rfl⟩
abbrev main_call2_v12 : Ref sig .tc := ⟨.hbm, 236, rfl⟩
abbrev main_call2_cst_4 : Ref sig .tc := ⟨.hbm, 237, rfl⟩
abbrev main_call2_call0_v0 : Ref sig .tc := ⟨.hbm, 238, rfl⟩
abbrev main_call2_call0_v1 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_cst_23 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_cst_24 : Ref sig .tc := ⟨.hbm, 261, rfl⟩
abbrev main_v164 : Ref sig .tc := ⟨.hbm, 262, rfl⟩
abbrev main_v165 : Ref sig .tc := ⟨.hbm, 263, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.Stats0Runs.lean ====
import proofs.«137621_j4303557230930_1_alg».proof.Proof.Gen.Kernel.Launch
import proofs.«137621_j4303557230930_1_alg».proof.Proof.Gen.Kernel.Skeleton
import proofs.«137621_j4303557230930_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable {c : Dev nD} (dat : Dat τ (Elt F) Unit ℕ (UR sig nD τ) ℕ cfg0 c)

-- When the data's array is `V`'s, its block at every point is the block read off `V`.
variable {V dat} in
theorem iblkEq0 {w : Fin cfg0.W} (hA : dat.A w = V c (Pipeline.arrRef spec0 w)) : iblk0 V c w = dat.blockOf w :=
  funext fun t => by unfold Dat.blockOf iblk0; rw [hA]

theorem held0_0 (hA : dat.A 0 = V c (Pipeline.arrRef spec0 0)) (hafter : ∀ t, dat.after 0 t = iblk0 V c 0 t)
    (t : Fin cfg0.N) (d) : dat.before 0 t d = iblk0 V c 0 t :=
  iblkEq0 hA ▸ dat.before_in_eq_fetched 0 rfl (fun _ => rfl) (fun _ _ _ => rfl) (iblkEq0 hA ▸ hafter) t d

theorem held0_1 (hA : dat.A 1 = V c (Pipeline.arrRef spec0 1)) (hafter : ∀ t, dat.after 1 t = iblk0 V c 1 t)
    (t : Fin cfg0.N) (d) : dat.before 1 t d = iblk0 V c 1 t :=
  iblkEq0 hA ▸ dat.before_in_eq_fetched 1 rfl (fun _ => rfl) (fun _ _ _ => rfl) (iblkEq0 hA ▸ hafter) t d

theorem held0_2 (hA : dat.A 2 = V c (Pipeline.arrRef spec0 2)) (hafter : ∀ t, dat.after 2 t = iblk0 V c 2 t)
    (t : Fin cfg0.N) (d) : dat.before 2 t d = iblk0 V c 2 t :=
  iblkEq0 hA ▸ dat.before_in_eq_fetched 2 rfl (fun _ => rfl) (fun _ _ _ => rfl) (iblkEq0 hA ▸ hafter) t d

theorem held0_3 (hA : dat.A 3 = V c (Pipeline.arrRef spec0 3)) (hafter : ∀ t, dat.after 3 t = iblk0 V c 3 t)
    (t : Fin cfg0.N) (d) : dat.before 3 t d = iblk0 V c 3 t :=
  iblkEq0 hA ▸ dat.before_in_eq_fetched 3 rfl (fun _ => rfl) (fun _ _ _ => rfl) (iblkEq0 hA ▸ hafter) t d

theorem held0_4 (hA : dat.A 4 = V c (Pipeline.arrRef spec0 4)) (hafter : ∀ t, dat.after 4 t = iblk0 V c 4 t)
    (t : Fin cfg0.N) (d) : dat.before 4 t d = iblk0 V c 4 t :=
  iblkEq0 hA ▸ dat.before_in_eq_fetched 4 rfl (fun _ => rfl) (fun _ _ _ => rfl) (iblkEq0 hA ▸ hafter) t d

theorem held0_5 (hA : dat.A 5 = V c (Pipeline.arrRef spec0 5)) (hafter : ∀ t, dat.after 5 t = iblk0 V c 5 t)
    (t : Fin cfg0.N) (d) : dat.before 5 t d = iblk0 V c 5 t :=
  iblkEq0 hA ▸ dat.before_in_eq_fetched 5 rfl (fun _ => rfl) (fun _ _ _ => rfl) (iblkEq0 hA ▸ hafter) t d

end Blocks

abbrev atFirst0 (i : grid0.Coords) : Prop :=
  (Scalar.cmpi .ne (Scalar.extui (Scalar.cmpi .eq (BitVec.ofNat 32 (i 0).val) 0#32)) 0#32) = 1#1

abbrev atLast0 (i : grid0.Coords) : Prop := k0_cond2 i = 1#1

theorem atFirst0_iff : ∀ t : Fin cfg0.N, atFirst0 (grid0.coords t) ↔ t.val = 0 :=
  by decide +kernel

theorem atLast0_iff : ∀ t : Fin cfg0.N, atLast0 (grid0.coords t) ↔ t.val = 49 :=
  by decide +kernel

theorem idle0_7 : ∀ t : Fin cfg0.N, ¬atLast0 (grid0.coords t) → cfg0.idle 7 (grid0.coords t) = true := by decide +kernel
theorem keep0_7 : ∀ t : Fin cfg0.N, ¬atLast0 (grid0.coords t) → (cfg0.win 7).flush t = false := by decide +kernel
theorem live0_7 : ∀ t : Fin cfg0.N, atLast0 (grid0.coords t) → cfg0.idle 7 (grid0.coords t) = false := by decide +kernel
theorem idle0_8 : ∀ t : Fin cfg0.N, ¬atLast0 (grid0.coords t) → cfg0.idle 8 (grid0.coords t) = true := by decide +kernel
theorem keep0_8 : ∀ t : Fin cfg0.N, ¬atLast0 (grid0.coords t) → (cfg0.win 8).flush t = false := by decide +kernel
theorem live0_8 : ∀ t : Fin cfg0.N, atLast0 (grid0.coords t) → cfg0.idle 8 (grid0.coords t) = false := by decide +kernel

abbrev sumRef0 : Memref sig .tc .vmem S1x128 .f32 := Memref.whole cc0_scratch0
abbrev sqRef0 : Memref sig .tc .vmem S1x128 .f32 := Memref.whole cc0_scratch1

theorem ownsUnread0 (c : Dev nD) {sp sh e} {m : Memref sig .tc sp sh e} (h : m.IsWhole) (q X) :
    (owns (c : Thread nD τ) m q X : sProp 𝕄) = (m.view.loc (c : Thread nD τ) ↦[m.view.set]{q} h.unread X) :=
  BI.equiv_iff.mp ⟨by show (_ : sProp 𝕄) ⊢ _; unfold owns; iintro ⟨%f, %hf, H⟩; rw [h.eq_unread hf]; iexact H,
    by show (_ : sProp 𝕄) ⊢ _; simpa only [h.read_unread] using owns_intro (c : Thread nD τ) m q (h.unread X)⟩

theorem PhiA0_split (c : Dev nD) :
    (Pipeline.ΦA spec0 c : sProp 𝕄)
      = iprop(iprop(iprop((∃ d, owns (c : Thread nD τ) sumRef0 fullShare d) ∗ (∃ d, owns (c : Thread nD τ) sqRef0 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [sumRef0, sqRef0, owns_whole]; try rfl

end Cert.Kernel.Hand

end
-- ==== Proof.K.Stats0RunA.lean ====
import proofs.«137621_j4303557230930_1_alg».proof.Proof.K.Stats0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runFirst0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : atFirst0 i) (hlast : ¬atLast0 i) (x1 : Vec F S2000x128 .f32) (x2 : Vec F S2000x128 .f32) (x3 : Vec F S128x128 .f32) (x4 : Vec F S1x128 .f32) (x5 : Vec F S128x128 .f32) (x6 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc0__mlp_stats_kernel_eq_skeleton, cc0__mlp_stats_kernel_skel]
    simp (disch := assumption) only [k0_part1_eq_skeleton, ownsUnread0]
    iintro ⟨H1, H2, H3, H4, H5, H6, ⟨%d7, H7⟩, H8, H9, ⟨%d10, H10⟩, ⟨%d11, H11⟩, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.Kernel.Hand

end
-- ==== Proof.K.Stats0RunB.lean ====
import proofs.«137621_j4303557230930_1_alg».proof.Proof.K.Stats0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runMid0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst0 i) (hlast : ¬atLast0 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc0__mlp_stats_kernel_eq_skeleton, cc0__mlp_stats_kernel_skel]
    simp (disch := assumption) only [k0_part1_eq_skeleton, ownsUnread0]
    iintro ⟨H1, H2, H3, H4, H5, H6, ⟨%d7, H7⟩, H8, H9, H10, H11, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.Kernel.Hand

end
-- ==== Proof.K.Stats0RunC.lean ====
import proofs.«137621_j4303557230930_1_alg».proof.Proof.K.Stats0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runLast0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst0 i) (hlast : atLast0 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsumo : List (View.Piece (Elt F) S1x128 .f32)) (Lsqo : List (View.Piece (Elt F) S1x128 .f32)) (Lsum : List (View.Piece (Elt F) S1x128 .f32)), { Lsq : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ (∃ f, arg8.view.loc (c : Thread nD τ) ↦[arg8.view.set]{fullShare} arg8.view.writes (Elt F) f Lsumo) ∗ (∃ f, arg9.view.loc (c : Thread nD τ) ↦[arg9.view.set]{fullShare} arg9.view.writes (Elt F) f Lsqo)
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    rw [cc0__mlp_stats_kernel_eq_skeleton, cc0__mlp_stats_kernel_skel]
    simp (disch := assumption) only [k0_part1_eq_skeleton, ownsUnread0]
    iintro ⟨H1, H2, H3, H4, H5, H6, ⟨%d7, H7⟩, ⟨%d8, H8⟩, ⟨%d9, H9⟩, H10, H11, Hk⟩
    sl_exec (disch := first | exact hfirst | exact hlast)
    sl_step
    iapply Hk
    iframe H1 H2 H3 H4 H5 H6
    isplitl [H7]; iexists _; iexact H7
    isplitl [H8]; iexists _; iexact H8
    isplitl [H9]; iexists _; iexact H9
    isplitl [H10]; iexists _; iexact H10
    iexists _; iexact H11

end Cert.Kernel.Hand

end
-- ==== Proof.K.Stats0.lean ====
import proofs.«137621_j4303557230930_1_alg».proof.Proof.K.Stats0RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

abbrev firstAt0 (c : Dev nD) (t : Fin cfg0.N) (hf : atFirst0 (grid0.coords t)) (hl : ¬atLast0 (grid0.coords t)) :=
  runFirst0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sumRef0 (Memref.isWhole_whole _) sqRef0 (Memref.isWhole_whole _) hf hl (iblk0 V c 0 t) (iblk0 V c 1 t) (iblk0 V c 2 t) (iblk0 V c 3 t) (iblk0 V c 4 t) (iblk0 V c 5 t)

abbrev midAt0 (c : Dev nD) (t : Fin cfg0.N) (hf : ¬atFirst0 (grid0.coords t)) (hl : ¬atLast0 (grid0.coords t)) (s10 s11 : Vec F S1x128 .f32) :=
  runMid0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sumRef0 (Memref.isWhole_whole _) sqRef0 (Memref.isWhole_whole _) hf hl (iblk0 V c 0 t) (iblk0 V c 1 t) (iblk0 V c 2 t) (iblk0 V c 3 t) (iblk0 V c 4 t) (iblk0 V c 5 t) s10 s11

abbrev lastAt0 (c : Dev nD) (t : Fin cfg0.N) (hf : ¬atFirst0 (grid0.coords t)) (hl : atLast0 (grid0.coords t)) (s10 s11 : Vec F S1x128 .f32) :=
  runLast0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sumRef0 (Memref.isWhole_whole _) sqRef0 (Memref.isWhole_whole _) hf hl (iblk0 V c 0 t) (iblk0 V c 1 t) (iblk0 V c 2 t) (iblk0 V c 3 t) (iblk0 V c 4 t) (iblk0 V c 5 t) s10 s11

/-- Writes whose pieces tile the shape read back as their canonical contents, whatever was there before. -/
theorem owns_of_stores0 {sh : Shape} (c : Dev nD) (m : Memref sig .tc .vmem sh .f32) (L : List (View.Piece (Elt F) sh .f32))
    (h : View.Piece.tiledL L sh.size = true) :
    (iprop(∃ f, m.view.loc (c : Thread nD τ) ↦[m.view.set]{fullShare} m.view.writes (Elt F) f L) : sProp 𝕄)
      ⊢ owns (c : Thread nD τ) m fullShare (View.canon L) := by
  unfold owns
  iintro ⟨%f, H⟩
  iexists _; isplitr
  swap; · iexact H
  ipureintro; exact View.read_writes_eq_canon _ _ _ (View.cover_of_tiledL _ _ h)

def idleRow0 : Vec F S1x128 .f32 := View.canon []

def firstOuts0 (c : Dev nD) (t : Fin cfg0.N) (hf : atFirst0 (grid0.coords t)) (hl : ¬atLast0 (grid0.coords t)) : Vec F S2000x128 .f32 × Vec F S1x128 .f32 × Vec F S1x128 .f32 × Vec F S1x128 .f32 × Vec F S1x128 .f32 :=
  (View.canon (firstAt0 V c t hf hl).1, idleRow0, idleRow0, View.canon (firstAt0 V c t hf hl).2.1, View.canon (firstAt0 V c t hf hl).2.2.1)

def midOuts0 (c : Dev nD) (t : Fin cfg0.N) (hf : ¬atFirst0 (grid0.coords t)) (hl : ¬atLast0 (grid0.coords t)) (s10 s11 : Vec F S1x128 .f32) : Vec F S2000x128 .f32 × Vec F S1x128 .f32 × Vec F S1x128 .f32 × Vec F S1x128 .f32 × Vec F S1x128 .f32 :=
  (View.canon (midAt0 V c t hf hl s10 s11).1, idleRow0, idleRow0, View.canon (midAt0 V c t hf hl s10 s11).2.1, View.canon (midAt0 V c t hf hl s10 s11).2.2.1)

def lastOuts0 (c : Dev nD) (t : Fin cfg0.N) (hf : ¬atFirst0 (grid0.coords t)) (hl : atLast0 (grid0.coords t)) (s10 s11 : Vec F S1x128 .f32) : Vec F S2000x128 .f32 × Vec F S1x128 .f32 × Vec F S1x128 .f32 × Vec F S1x128 .f32 × Vec F S1x128 .f32 :=
  (View.canon (lastAt0 V c t hf hl s10 s11).1, View.canon (lastAt0 V c t hf hl s10 s11).2.1, View.canon (lastAt0 V c t hf hl s10 s11).2.2.1,
    View.canon (lastAt0 V c t hf hl s10 s11).2.2.2.1, View.canon (lastAt0 V c t hf hl s10 s11).2.2.2.2.1)

def outsAt0 (c : Dev nD) : (n : ℕ) → n < cfg0.N → Vec F S2000x128 .f32 × Vec F S1x128 .f32 × Vec F S1x128 .f32 × Vec F S1x128 .f32 × Vec F S1x128 .f32
  | 0, hn => firstOuts0 V c ⟨0, hn⟩ ((atFirst0_iff ⟨0, hn⟩).mpr rfl) (fun h => absurd ((atLast0_iff ⟨0, hn⟩).mp h) (show ¬(0 : ℕ) = 49 by decide))
  | n + 1, hn =>
    if h : n + 1 = 49 then
      lastOuts0 V c ⟨n + 1, hn⟩ (fun h' => Nat.succ_ne_zero n ((atFirst0_iff ⟨n + 1, hn⟩).mp h')) ((atLast0_iff ⟨n + 1, hn⟩).mpr h)
        (outsAt0 c n (Nat.lt_of_succ_lt hn)).2.2.2.1 (outsAt0 c n (Nat.lt_of_succ_lt hn)).2.2.2.2
    else
      midOuts0 V c ⟨n + 1, hn⟩ (fun h' => Nat.succ_ne_zero n ((atFirst0_iff ⟨n + 1, hn⟩).mp h')) (fun h' => h ((atLast0_iff ⟨n + 1, hn⟩).mp h'))
        (outsAt0 c n (Nat.lt_of_succ_lt hn)).2.2.2.1 (outsAt0 c n (Nat.lt_of_succ_lt hn)).2.2.2.2

theorem outsAt0_first (c : Dev nD) (t : Fin cfg0.N) (h : t.val = 0) :
    outsAt0 V c t.val t.isLt = firstOuts0 V c t ((atFirst0_iff t).mpr h) (fun h' => by have := (atLast0_iff t).mp h'; omega) := by
  obtain ⟨n, hn⟩ := t
  cases n with
  | zero => rfl
  | succ n => exact absurd h (Nat.succ_ne_zero n)

theorem outsAt0_mid (c : Dev nD) (t : Fin cfg0.N) (h0 : 0 < t.val) (h49 : t.val < 49) :
    outsAt0 V c t.val t.isLt = midOuts0 V c t (fun h' => by have := (atFirst0_iff t).mp h'; omega) (fun h' => by have := (atLast0_iff t).mp h'; omega)
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd h0 (Nat.lt_irrefl 0)
  | succ n => exact (dif_neg (fun e : n + 1 = 49 => by have : n + 1 < 49 := h49; omega)).trans rfl

theorem outsAt0_last (c : Dev nD) (t : Fin cfg0.N) (h : t.val = 49) :
    outsAt0 V c t.val t.isLt = lastOuts0 V c t (fun h' => by have := (atFirst0_iff t).mp h'; omega) ((atLast0_iff t).mpr h)
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd h (show ¬(0 : ℕ) = 49 by decide)
  | succ n => exact (dif_pos (show n + 1 = 49 from h)).trans rfl

abbrev restBut0 (c : Dev nD) : sProp 𝕄 :=
  Pipeline.scopedRestBut (Ix := Unit) (Name := ℕ) (U := UR sig nD τ) (Lvl := ℕ) (Val := Elt F) spec0 c [cc0_scratch0, cc0_scratch1]

def inv0 (c : Dev nD) : (n : ℕ) → n ≤ cfg0.N → sProp 𝕄
  | 0, _ => Pipeline.ΦA spec0 c
  | n + 1, hn => iprop(iprop(iprop(owns (c : Thread nD τ) sumRef0 fullShare (outsAt0 V c n hn).2.2.2.1
      ∗ owns (c : Thread nD τ) sqRef0 fullShare (outsAt0 V c n hn).2.2.2.2) ∗ restBut0 c) ∗ (∃ r, prngReg c r))

theorem inv0_zero (c : Dev nD) (n : ℕ) (h : n ≤ cfg0.N) (hz : n = 0) : inv0 V c n h = Pipeline.ΦA spec0 c := by
  subst hz; rfl

theorem inv0_pos (c : Dev nD) (n : ℕ) (h : n ≤ cfg0.N) (hz : n ≠ 0) :
    inv0 V c n h = iprop(iprop(iprop(owns (c : Thread nD τ) sumRef0 fullShare (outsAt0 V c (n - 1) (by omega)).2.2.2.1
      ∗ owns (c : Thread nD τ) sqRef0 fullShare (outsAt0 V c (n - 1) (by omega)).2.2.2.2) ∗ restBut0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).q w = fullShare := by
  dsimp only [dat0]

theorem owed0 (c : Dev nD) (t : Fin (cfg0.N + 1)) : (dat0 V c).owed t = 0 := by
  dsimp only [dat0]

theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

/-- The frame rule around a run: what the run leaves alone is carried across, what it returns is weakened piece by piece. -/
theorem frame_run0 {T0 T1 T2 T3 T4 T5 T6 T7 T8 : Type} {A0 A1 A2 A3 A4 A5 X6 PS PQ R G O W6 WS WQ B6 B7 B8 BS BQ : sProp 𝕄}
    {A6 : T6 → sProp 𝕄} {A7 X7 Y7 : T7 → sProp 𝕄} {A8 X8 Y8 : T8 → sProp 𝕄} {c : Dev nD} {p : Prog (TpuEff nD τ sig (Elt F) Λ₀ .tc) PUnit}
    (run : ∀ d7 d8 (K : PUnit → sProp 𝕄), iprop(A0 ∗ A1 ∗ A2 ∗ A3 ∗ A4 ∗ A5 ∗ X6 ∗ X7 d7 ∗ X8 d8 ∗ PS ∗ PQ
      ∗ (iprop(A0 ∗ A1 ∗ A2 ∗ A3 ∗ A4 ∗ A5 ∗ W6 ∗ Y7 d7 ∗ Y8 d8 ∗ WS ∗ WQ) -∗ K ⟨⟩))
        ⊢ wp frame (wpE (defs₀ (F := F)) Variants.none c none) Set.univ p K)
    (h6 : ∀ d, A6 d ⊢ X6) (h7 : ∀ d, A7 d ⊢ X7 d) (h8 : ∀ d, A8 d ⊢ X8 d)
    (k6 : W6 ⊢ B6) (k7 : ∀ d, Y7 d ⊢ B7) (k8 : ∀ d, Y8 d ⊢ B8) (kS : WS ⊢ BS) (kQ : WQ ⊢ BQ) :
    iprop(iprop(iprop(iprop(PS ∗ PQ) ∗ R) ∗ G) ∗ O ∗ (∃ _ : T0, A0) ∗ (∃ _ : T1, A1) ∗ (∃ _ : T2, A2) ∗ (∃ _ : T3, A3) ∗ (∃ _ : T4, A4)
        ∗ (∃ _ : T5, A5) ∗ (∃ d, A6 d) ∗ (∃ d, A7 d) ∗ (∃ d, A8 d))
      ⊢ wp frame (wpE (defs₀ (F := F)) Variants.none c none) Set.univ p fun _ =>
        iprop(iprop(iprop(iprop(BS ∗ BQ) ∗ R) ∗ G) ∗ O ∗ A0 ∗ A1 ∗ A2 ∗ A3 ∗ A4 ∗ A5 ∗ B6 ∗ B7 ∗ B8) := by
  iintro ⟨⟨⟨⟨HS, HQ⟩, HR⟩, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run d7 d8 _)
  iframe H0 H1 H2 H3 H4 H5 HS HQ
  isplitl [H6]; · iapply (h6 d6); iexact H6
  isplitl [H7]; · iapply (h7 d7); iexact H7
  isplitl [H8]; · iapply (h8 d8); iexact H8
  iintro ⟨H0, H1, H2, H3, H4, H5, W6, W7, W8, WS, WQ⟩
  iframe H0 H1 H2 H3 H4 H5 HR HG HO
  isplitl [WS WQ]
  · isplitl [WS]
    · iapply kS; iexact WS
    · iapply kQ; iexact WQ
  isplitl [W6]; · iapply k6; iexact W6
  isplitl [W7]; · iapply (k7 d7); iexact W7
  iapply (k8 d8); iexact W8

set_option maxHeartbeats 3200000 in
/-- The body at any point is the run of that point's control case, framed. -/
theorem body_at0 (c : Dev nD) (t : Fin cfg0.N) :
    iprop(inv0 V c t.val (Nat.le_of_lt t.isLt) ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d))
      ∗ (∃ d, owns (c : Thread nD τ) (win0_2.stage (cfg0.slots t 2)) fullShare ((dat0 V c).before 2 t d))
      ∗ (∃ d, owns (c : Thread nD τ) (win0_3.stage (cfg0.slots t 3)) fullShare ((dat0 V c).before 3 t d))
      ∗ (∃ d, owns (c : Thread nD τ) (win0_4.stage (cfg0.slots t 4)) fullShare ((dat0 V c).before 4 t d))
      ∗ (∃ d, owns (c : Thread nD τ) (win0_5.stage (cfg0.slots t 5)) fullShare ((dat0 V c).before 5 t d))
      ∗ (∃ d, owns (c : Thread nD τ) (win0_6.stage (cfg0.slots t 6)) fullShare ((dat0 V c).before 6 t d))
      ∗ (∃ d, owns (c : Thread nD τ) (win0_7.stage (cfg0.slots t 7)) fullShare ((dat0 V c).before 7 t d))
      ∗ (∃ d, owns (c : Thread nD τ) (win0_8.stage (cfg0.slots t 8)) fullShare ((dat0 V c).before 8 t d)))
    ⊢ wp frame (wpE (defs₀ (F := F)) Variants.none c none) Set.univ (bodyAt0 t) fun _ =>
      iprop(iprop(iprop(iprop(owns (c : Thread nD τ) sumRef0 fullShare (outsAt0 V c t.val t.isLt).2.2.2.1
          ∗ owns (c : Thread nD τ) sqRef0 fullShare (outsAt0 V c t.val t.isLt).2.2.2.2) ∗ restBut0 c) ∗ (∃ r, prngReg c r))
        ∗ (dat0 V c).owesAt () t.castSucc
        ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t
        ∗ owns (c : Thread nD τ) (win0_6.stage (cfg0.slots t 6)) fullShare (outsAt0 V c t.val t.isLt).1
        ∗ (dat0 V c).leavesExact 7 t ∗ (dat0 V c).leavesExact 8 t) := by
  have hN : t.val < 50 := lt_of_lt_of_eq t.isLt N_0
  unfold bodyAt0
  simp only [held0_0 V (dat0 V c) (A_eq0 V c 0) (fun _ => rfl), held0_1 V (dat0 V c) (A_eq0 V c 1) (fun _ => rfl),
    held0_2 V (dat0 V c) (A_eq0 V c 2) (fun _ => rfl), held0_3 V (dat0 V c) (A_eq0 V c 3) (fun _ => rfl),
    held0_4 V (dat0 V c) (A_eq0 V c 4) (fun _ => rfl), held0_5 V (dat0 V c) (A_eq0 V c 5) (fun _ => rfl)]
  by_cases h0 : t.val = 0
  · have hf := (atFirst0_iff t).mpr h0
    have hl : ¬atLast0 (grid0.coords t) := fun h' => by have := (atLast0_iff t).mp h'; omega
    rw [inv0_zero V c _ _ h0, PhiA0_split, Dat.leavesExact_idle (dat0 V c) 7 t (idle0_7 t hl) (keep0_7 t hl),
      Dat.leavesExact_idle (dat0 V c) 8 t (idle0_8 t hl) (keep0_8 t hl), outsAt0_first V c t h0]
    unfold firstOuts0; dsimp only
    exact frame_run0 (fun d7 d8 K => (firstAt0 V c t hf hl).2.2.2 ((dat0 V c).before 7 t d7) ((dat0 V c).before 8 t d8) Set.univ K)
      (fun _ => by iintro H; iexists _; iexact H) (fun _ => by iintro H; iexact H) (fun _ => by iintro H; iexact H) (owns_of_stores0 c _ _ (by sl_kernel_rfl)) (fun _ => by iintro H; iexists _; iexact H) (fun _ => by iintro H; iexists _; iexact H) (owns_of_stores0 c _ _ (by sl_kernel_rfl)) (owns_of_stores0 c _ _ (by sl_kernel_rfl))
  have hf : ¬atFirst0 (grid0.coords t) := fun h' => h0 ((atFirst0_iff t).mp h')
  rw [inv0_pos V c _ _ h0]
  by_cases h49 : t.val = 49
  · have hl := (atLast0_iff t).mpr h49
    rw [show (dat0 V c).leavesExact 7 t = owns (c : Thread nD τ) (win0_7.stage (cfg0.slots t 7)) fullShare ((dat0 V c).after 7 t) from by
        unfold Dat.leavesExact; rw [live0_7 t hl], after0_7,
      show (dat0 V c).leavesExact 8 t = owns (c : Thread nD τ) (win0_8.stage (cfg0.slots t 8)) fullShare ((dat0 V c).after 8 t) from by
        unfold Dat.leavesExact; rw [live0_8 t hl], after0_8, outsAt0_last V c t h49]
    unfold lastOuts0; dsimp only
    exact frame_run0 (fun _ _ K => (lastAt0 V c t hf hl _ _).2.2.2.2.2 Set.univ K)
      (fun _ => by iintro H; iexists _; iexact H) (fun _ => by iintro H; iexists _; iexact H) (fun _ => by iintro H; iexists _; iexact H) (owns_of_stores0 c _ _ (by sl_kernel_rfl)) (fun _ => owns_of_stores0 c _ _ (by sl_kernel_rfl)) (fun _ => owns_of_stores0 c _ _ (by sl_kernel_rfl)) (owns_of_stores0 c _ _ (by sl_kernel_rfl)) (owns_of_stores0 c _ _ (by sl_kernel_rfl))
  have hl : ¬atLast0 (grid0.coords t) := fun h' => h49 ((atLast0_iff t).mp h')
  rw [Dat.leavesExact_idle (dat0 V c) 7 t (idle0_7 t hl) (keep0_7 t hl), Dat.leavesExact_idle (dat0 V c) 8 t (idle0_8 t hl) (keep0_8 t hl),
    outsAt0_mid V c t (Nat.pos_of_ne_zero h0) (by omega)]
  unfold midOuts0; dsimp only
  exact frame_run0 (fun d7 d8 K => (midAt0 V c t hf hl _ _).2.2.2 ((dat0 V c).before 7 t d7) ((dat0 V c).before 8 t d8) Set.univ K)
    (fun _ => by iintro H; iexists _; iexact H) (fun _ => by iintro H; iexact H) (fun _ => by iintro H; iexact H) (owns_of_stores0 c _ _ (by sl_kernel_rfl)) (fun _ => by iintro H; iexists _; iexact H) (fun _ => by iintro H; iexists _; iexact H) (owns_of_stores0 c _ _ (by sl_kernel_rfl)) (owns_of_stores0 c _ _ (by sl_kernel_rfl))

theorem body_obligation0 (c : Dev nD) : BodyObligation (dat0 (F := F) V c) (defs₀ (F := F)) Variants.none () Set.univ := fun t => by
  rw [bigSep_W0, bigSep_W0]
  exact body_at0 V c t

theorem Phi0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- Every later invariant weakens to the entry one by forgetting what the accumulators hold. -/
theorem Phi0_back (c : Dev nD) (t : Fin (cfg0.N + 1)) (ht : t.val ≠ 0) : (dat0 V c).Φ t ⊢ Pipeline.ΦA spec0 c := by
  rw [show (dat0 V c).Φ t = inv0 V c t.val (Nat.le_of_lt_succ t.isLt) from rfl, inv0_pos V c _ _ ht, PhiA0_split]
  iintro ⟨⟨⟨HS, HQ⟩, HR⟩, Hg⟩
  isplitl [HS HQ HR]
  · isplitl [HS HQ]
    · isplitl [HS]
      · iexists _; iexact HS
      · iexists _; iexact HQ
    · iexact HR
  · iexact Hg

theorem Phi0_out (c : Dev nD) : (dat0 V c).Φ (Fin.last cfg0.N) ⊢ Pipeline.ΦA spec0 c :=
  Phi0_back V c _ (by rw [Fin.val_last]; have : cfg0.N = 50 := N_0; omega)

end Region

end Cert.Kernel.Hand

end
-- ==== Proof.K.Chain0.lean ====
import proofs.«137621_j4303557230930_1_alg».proof.Proof.K.Stats0
import Idealize.ShloMosaic.Lib.Pipeline.FrameSuffix

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

abbrev launchVal (c : Dev nD) : Valuation τ sig (Elt F) := fun b => m (c, b)
abbrev entryVal0 (c : Dev nD) : Valuation τ sig (Elt F) := StableHlo.after hostOps0 (launchVal m c)
abbrev entry0 : (c : Dev nD) → (b : Ref sig .tc) → Buf (Elt F) ((c : Thread nD τ).loc b) := fun c b => entryVal0 m c b
def exitVal0 (c : Dev nD) : Valuation τ sig (Elt F) :=
  Pipeline.withArrays spec0 c (entryVal0 m c) fun w => (dat0 (entry0 m) c).arrAt w cfg0.N
theorem exitVal0_arr (c : Dev nD) (w : Fin cfg0.W) :
    exitVal0 m c (Proc.devRef .tc (Pipeline.arrRef spec0 w)) = (dat0 (entry0 m) c).arrAt w cfg0.N :=
  Pipeline.withArrays_arr spec0 launch0.win.arr_inj c _ _ w

end Cert.Kernel.Hand

end
-- ==== Proof.K.Bn1.lean ====
import proofs.«137621_j4303557230930_1_alg».proof.Proof.Gen.Kernel.Launch
import proofs.«137621_j4303557230930_1_alg».proof.Proof.Gen.Kernel.Skeleton
import proofs.«137621_j4303557230930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev wholeBlk1 : Rect S2000x128 := Rect.unit (s := S2000x128) ![0, 0] S2000x128.size inb_S2000x128_S2000x128_0_0
abbrev wholeRow1 : Rect S1x128 := Rect.unit (s := S1x128) ![0, 0] S1x128.size inb_S1x128_S1x128_0_0

theorem zero_off1 : (![0, 0] : Fin 2 → Nat) = fun _ => 0 :=
  funext fun a => by fin_cases a <;> rfl

def oblk1 (xz : Vec F S2000x128 .f32) (xm xv xg xb : Vec F S1x128 .f32) : Vec F S2000x128 .f32 :=
  View.canon [⟨wholeBlk1, k1_pay1 (View.ld xz wholeBlk1) (View.ld xv wholeRow1) (View.ld xg wholeRow1) (View.ld xm wholeRow1) (View.ld xb wholeRow1)⟩]

set_option maxHeartbeats 1000000 in
theorem cc1_triple (c : Dev nD) (E : Set ℕ) {i : grid1.Coords} {az ao : Memref sig .tc .vmem S2000x128 .f32}
    {am av ag ab : Memref sig .tc .vmem S1x128 .f32} {haz : az.IsWhole} {ham : am.IsWhole} {hav : av.IsWhole}
    {hag : ag.IsWhole} {hab : ab.IsWhole} {hao : ao.IsWhole}
    (xz d : Vec F S2000x128 .f32) (xm xv xg xb : Vec F S1x128 .f32) (K : PUnit → sProp 𝕄) :
    iprop(ownsTc c az fullShare xz ∗ ownsTc c am fullShare xm ∗ ownsTc c av fullShare xv
        ∗ ownsTc c ag fullShare xg ∗ ownsTc c ab fullShare xb ∗ ownsTc c ao fullShare d
        ∗ (iprop(ownsTc c az fullShare xz ∗ ownsTc c am fullShare xm ∗ ownsTc c av fullShare xv
            ∗ ownsTc c ag fullShare xg ∗ ownsTc c ab fullShare xb ∗ ownsTc c ao fullShare (oblk1 xz xm xv xg xb)) -∗ K ⟨⟩))
      ⊢ wp frame (wpE (defs₀ (F := F)) Variants.none c none) E (cc1__bn_relu_kernel i az haz am ham av hav ag hag ab hab ao hao) K := by
  simp only [cc1__bn_relu_kernel_eq_skeleton]; unfold cc1__bn_relu_kernel_skel
  unfold ownsTc owns
  iintro ⟨⟨%fz, %hfz, Hz⟩, ⟨%fm, %hfm, Hm⟩, ⟨%fv, %hfv, Hv⟩, ⟨%fg, %hfg, Hg⟩, ⟨%fb, %hfb, Hb⟩, ⟨%fo, -, Ho⟩, Hk⟩
  subst hfz hfm hfv hfg hfb
  sl_exec
  sl_step
  iapply Hk
  isplitl [Hz]
  · iexists fz; isplitr
    · ipureintro; rfl
    · iexact Hz
  isplitl [Hm]
  · iexists fm; isplitr
    · ipureintro; rfl
    · iexact Hm
  isplitl [Hv]
  · iexists fv; isplitr
    · ipureintro; rfl
    · iexact Hv
  isplitl [Hg]
  · iexists fg; isplitr
    · ipureintro; rfl
    · iexact Hg
  isplitl [Hb]
  · iexists fb; isplitr
    · ipureintro; rfl
    · iexact Hb
  iexists _; isplitr
  swap
  · iexact Ho
  · ipureintro
    exact View.read_writes_eq_canon _ _ _ fun y => ⟨_, List.mem_singleton_self _, View.mem_set_unit_zero zero_off1 inb_S2000x128_S2000x128_0_0 y⟩

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oblk1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem Phi1_in (c : Dev nD) : Pipeline.ΦA spec1 c ⊢ (dat1 V c).Φ 0 := .rfl
theorem Phi1_out (c : Dev nD) : (dat1 V c).Φ (Fin.last cfg1.N) ⊢ Pipeline.ΦA spec1 c := .rfl

theorem share1 (c : Dev nD) (w : Fin cfg1.W) : (dat1 V c).q w = fullShare := rfl

theorem owed1 (c : Dev nD) (t : Fin (cfg1.N + 1)) : (dat1 V c).owed t = 0 := rfl

theorem before1_in (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) := by
  refine ⟨?_, ?_, ?_, ?_, ?_⟩ <;> exact fun d =>
    ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1_in V c t]
  show _ ⊢ wp _ _ _ (bodyAt1 t) _
  iintro ⟨HΦ, Hw, ⟨%_, Hz⟩, ⟨%_, Hm⟩, ⟨%_, Hv⟩, ⟨%_, Hg⟩, ⟨%_, Hb⟩, ⟨%d, Ho⟩⟩
  iapply (cc1_triple c Set.univ (iblk1 V c 0 t) ((dat1 V c).before 5 t d) (iblk1 V c 1 t) (iblk1 V c 2 t) (iblk1 V c 3 t)
    (iblk1 V c 4 t) _)
  iframe Hz Hm Hv Hg Hb Ho
  iintro ⟨Hz, Hm, Hv, Hg, Hb, Ho⟩
  dsimp only [dat1]
  isplitl [HΦ]; · iexact HΦ
  isplitl [Hw]; · iexact Hw
  iframe

end Cert.Kernel.Hand
-- ==== Proof.K.Chain1.lean ====
import proofs.«137621_j4303557230930_1_alg».proof.Proof.K.Chain0
import proofs.«137621_j4303557230930_1_alg».proof.Proof.K.Bn1

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

abbrev entryVal1 (c : Dev nD) : Valuation τ sig (Elt F) := StableHlo.after hostOps1 (exitVal0 m c)
abbrev entry1 : (c : Dev nD) → (b : Ref sig .tc) → Buf (Elt F) ((c : Thread nD τ).loc b) := fun c b => entryVal1 m c b
def exitVal1 (c : Dev nD) : Valuation τ sig (Elt F) :=
  Pipeline.withArrays spec1 c (entryVal1 m c) fun w => (dat1 (entry1 m) c).arrAt w cfg1.N
theorem exitVal1_arr (c : Dev nD) (w : Fin cfg1.W) :
    exitVal1 m c (Proc.devRef .tc (Pipeline.arrRef spec1 w)) = (dat1 (entry1 m) c).arrAt w cfg1.N :=
  Pipeline.withArrays_arr spec1 launch1.win.arr_inj c _ _ w

end Cert.Kernel.Hand

end
-- ==== Proof.K.Stats2Runs.lean ====
import proofs.«137621_j4303557230930_1_alg».proof.Proof.Gen.Kernel.Launch
import proofs.«137621_j4303557230930_1_alg».proof.Proof.Gen.Kernel.Skeleton
import proofs.«137621_j4303557230930_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable {c : Dev nD} (dat : Dat τ (Elt F) Unit ℕ (UR sig nD τ) ℕ cfg2 c)

-- When the data's array is `V`'s, its block at every point is the block read off `V`.
variable {V dat} in
theorem iblkEq2 {w : Fin cfg2.W} (hA : dat.A w = V c (Pipeline.arrRef spec2 w)) : iblk2 V c w = dat.blockOf w :=
  funext fun t => by unfold Dat.blockOf iblk2; rw [hA]

theorem held2_0 (hA : dat.A 0 = V c (Pipeline.arrRef spec2 0)) (hafter : ∀ t, dat.after 0 t = iblk2 V c 0 t)
    (t : Fin cfg2.N) (d) : dat.before 0 t d = iblk2 V c 0 t :=
  iblkEq2 hA ▸ dat.before_in_eq_fetched 0 rfl (fun _ => rfl) (fun _ _ _ => rfl) (iblkEq2 hA ▸ hafter) t d

theorem held2_1 (hA : dat.A 1 = V c (Pipeline.arrRef spec2 1)) (hafter : ∀ t, dat.after 1 t = iblk2 V c 1 t)
    (t : Fin cfg2.N) (d) : dat.before 1 t d = iblk2 V c 1 t :=
  iblkEq2 hA ▸ dat.before_in_eq_fetched 1 rfl (fun _ => rfl) (fun _ _ _ => rfl) (iblkEq2 hA ▸ hafter) t d

theorem held2_2 (hA : dat.A 2 = V c (Pipeline.arrRef spec2 2)) (hafter : ∀ t, dat.after 2 t = iblk2 V c 2 t)
    (t : Fin cfg2.N) (d) : dat.before 2 t d = iblk2 V c 2 t :=
  iblkEq2 hA ▸ dat.before_in_eq_fetched 2 rfl (fun _ => rfl) (fun _ _ _ => rfl) (iblkEq2 hA ▸ hafter) t d

theorem held2_3 (hA : dat.A 3 = V c (Pipeline.arrRef spec2 3)) (hafter : ∀ t, dat.after 3 t = iblk2 V c 3 t)
    (t : Fin cfg2.N) (d) : dat.before 3 t d = iblk2 V c 3 t :=
  iblkEq2 hA ▸ dat.before_in_eq_fetched 3 rfl (fun _ => rfl) (fun _ _ _ => rfl) (iblkEq2 hA ▸ hafter) t d

theorem held2_4 (hA : dat.A 4 = V c (Pipeline.arrRef spec2 4)) (hafter : ∀ t, dat.after 4 t = iblk2 V c 4 t)
    (t : Fin cfg2.N) (d) : dat.before 4 t d = iblk2 V c 4 t :=
  iblkEq2 hA ▸ dat.before_in_eq_fetched 4 rfl (fun _ => rfl) (fun _ _ _ => rfl) (iblkEq2 hA ▸ hafter) t d

theorem held2_5 (hA : dat.A 5 = V c (Pipeline.arrRef spec2 5)) (hafter : ∀ t, dat.after 5 t = iblk2 V c 5 t)
    (t : Fin cfg2.N) (d) : dat.before 5 t d = iblk2 V c 5 t :=
  iblkEq2 hA ▸ dat.before_in_eq_fetched 5 rfl (fun _ => rfl) (fun _ _ _ => rfl) (iblkEq2 hA ▸ hafter) t d

end Blocks

abbrev atFirst2 (i : grid2.Coords) : Prop :=
  (Scalar.cmpi .ne (Scalar.extui (Scalar.cmpi .eq (BitVec.ofNat 32 (i 0).val) 0#32)) 0#32) = 1#1

abbrev atLast2 (i : grid2.Coords) : Prop := k2_cond2 i = 1#1

theorem atFirst2_iff : ∀ t : Fin cfg2.N, atFirst2 (grid2.coords t) ↔ t.val = 0 :=
  by decide +kernel

theorem atLast2_iff : ∀ t : Fin cfg2.N, atLast2 (grid2.coords t) ↔ t.val = 49 :=
  by decide +kernel

theorem idle2_7 : ∀ t : Fin cfg2.N, ¬atLast2 (grid2.coords t) → cfg2.idle 7 (grid2.coords t) = true := by decide +kernel
theorem keep2_7 : ∀ t : Fin cfg2.N, ¬atLast2 (grid2.coords t) → (cfg2.win 7).flush t = false := by decide +kernel
theorem live2_7 : ∀ t : Fin cfg2.N, atLast2 (grid2.coords t) → cfg2.idle 7 (grid2.coords t) = false := by decide +kernel
theorem idle2_8 : ∀ t : Fin cfg2.N, ¬atLast2 (grid2.coords t) → cfg2.idle 8 (grid2.coords t) = true := by decide +kernel
theorem keep2_8 : ∀ t : Fin cfg2.N, ¬atLast2 (grid2.coords t) → (cfg2.win 8).flush t = false := by decide +kernel
theorem live2_8 : ∀ t : Fin cfg2.N, atLast2 (grid2.coords t) → cfg2.idle 8 (grid2.coords t) = false := by decide +kernel

abbrev sumRef2 : Memref sig .tc .vmem S1x128 .f32 := Memref.whole cc2_scratch0
abbrev sqRef2 : Memref sig .tc .vmem S1x128 .f32 := Memref.whole cc2_scratch1

theorem ownsUnread2 (c : Dev nD) {sp sh e} {m : Memref sig .tc sp sh e} (h : m.IsWhole) (q X) :
    (owns (c : Thread nD τ) m q X : sProp 𝕄) = (m.view.loc (c : Thread nD τ) ↦[m.view.set]{q} h.unread X) :=
  BI.equiv_iff.mp ⟨by show (_ : sProp 𝕄) ⊢ _; unfold owns; iintro ⟨%f, %hf, H⟩; rw [h.eq_unread hf]; iexact H,
    by show (_ : sProp 𝕄) ⊢ _; simpa only [h.read_unread] using owns_intro (c : Thread nD τ) m q (h.unread X)⟩

theorem PhiA2_split (c : Dev nD) :
    (Pipeline.ΦA spec2 c : sProp 𝕄)
      = iprop(iprop(iprop((∃ d, owns (c : Thread nD τ) sumRef2 fullShare d) ∗ (∃ d, owns (c : Thread nD τ) sqRef2 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [sumRef2, sqRef2, owns_whole]; try rfl

end Cert.Kernel.Hand

end
-- ==== Proof.K.Stats2RunA.lean ====
import proofs.«137621_j4303557230930_1_alg».proof.Proof.K.Stats2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runFirst2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : atFirst2 i) (hlast : ¬atLast2 i) (x1 : Vec F S2000x128 .f32) (x2 : Vec F S2000x128 .f32) (x3 : Vec F S128x128 .f32) (x4 : Vec F S1x128 .f32) (x5 : Vec F S128x128 .f32) (x6 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc2__mlp_stats_kernel_eq_skeleton, cc2__mlp_stats_kernel_skel]
    simp (disch := assumption) only [k2_part1_eq_skeleton, ownsUnread2]
    iintro ⟨H1, H2, H3, H4, H5, H6, ⟨%d7, H7⟩, H8, H9, ⟨%d10, H10⟩, ⟨%d11, H11⟩, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.Kernel.Hand

end
-- ==== Proof.K.Stats2RunB.lean ====
import proofs.«137621_j4303557230930_1_alg».proof.Proof.K.Stats2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runMid2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst2 i) (hlast : ¬atLast2 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc2__mlp_stats_kernel_eq_skeleton, cc2__mlp_stats_kernel_skel]
    simp (disch := assumption) only [k2_part1_eq_skeleton, ownsUnread2]
    iintro ⟨H1, H2, H3, H4, H5, H6, ⟨%d7, H7⟩, H8, H9, H10, H11, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.Kernel.Hand

end
-- ==== Proof.K.Stats2RunC.lean ====
import proofs.«137621_j4303557230930_1_alg».proof.Proof.K.Stats2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runLast2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst2 i) (hlast : atLast2 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsumo : List (View.Piece (Elt F) S1x128 .f32)) (Lsqo : List (View.Piece (Elt F) S1x128 .f32)) (Lsum : List (View.Piece (Elt F) S1x128 .f32)), { Lsq : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ (∃ f, arg8.view.loc (c : Thread nD τ) ↦[arg8.view.set]{fullShare} arg8.view.writes (Elt F) f Lsumo) ∗ (∃ f, arg9.view.loc (c : Thread nD τ) ↦[arg9.view.set]{fullShare} arg9.view.writes (Elt F) f Lsqo)
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    rw [cc2__mlp_stats_kernel_eq_skeleton, cc2__mlp_stats_kernel_skel]
    simp (disch := assumption) only [k2_part1_eq_skeleton, ownsUnread2]
    iintro ⟨H1, H2, H3, H4, H5, H6, ⟨%d7, H7⟩, ⟨%d8, H8⟩, ⟨%d9, H9⟩, H10, H11, Hk⟩
    sl_exec (disch := first | exact hfirst | exact hlast)
    sl_step
    iapply Hk
    iframe H1 H2 H3 H4 H5 H6
    isplitl [H7]; iexists _; iexact H7
    isplitl [H8]; iexists _; iexact H8
    isplitl [H9]; iexists _; iexact H9
    isplitl [H10]; iexists _; iexact H10
    iexists _; iexact H11

end Cert.Kernel.Hand

end
-- ==== Proof.K.Stats2.lean ====
import proofs.«137621_j4303557230930_1_alg».proof.Proof.K.Stats2RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

abbrev firstAt2 (c : Dev nD) (t : Fin cfg2.N) (hf : atFirst2 (grid2.coords t)) (hl : ¬atLast2 (grid2.coords t)) :=
  runFirst2 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) sumRef2 (Memref.isWhole_whole _) sqRef2 (Memref.isWhole_whole _) hf hl (iblk2 V c 0 t) (iblk2 V c 1 t) (iblk2 V c 2 t) (iblk2 V c 3 t) (iblk2 V c 4 t) (iblk2 V c 5 t)

abbrev midAt2 (c : Dev nD) (t : Fin cfg2.N) (hf : ¬atFirst2 (grid2.coords t)) (hl : ¬atLast2 (grid2.coords t)) (s10 s11 : Vec F S1x128 .f32) :=
  runMid2 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) sumRef2 (Memref.isWhole_whole _) sqRef2 (Memref.isWhole_whole _) hf hl (iblk2 V c 0 t) (iblk2 V c 1 t) (iblk2 V c 2 t) (iblk2 V c 3 t) (iblk2 V c 4 t) (iblk2 V c 5 t) s10 s11

abbrev lastAt2 (c : Dev nD) (t : Fin cfg2.N) (hf : ¬atFirst2 (grid2.coords t)) (hl : atLast2 (grid2.coords t)) (s10 s11 : Vec F S1x128 .f32) :=
  runLast2 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) sumRef2 (Memref.isWhole_whole _) sqRef2 (Memref.isWhole_whole _) hf hl (iblk2 V c 0 t) (iblk2 V c 1 t) (iblk2 V c 2 t) (iblk2 V c 3 t) (iblk2 V c 4 t) (iblk2 V c 5 t) s10 s11

/-- Writes whose pieces tile the shape read back as their canonical contents, whatever was there before. -/
theorem owns_of_stores2 {sh : Shape} (c : Dev nD) (m : Memref sig .tc .vmem sh .f32) (L : List (View.Piece (Elt F) sh .f32))
    (h : View.Piece.tiledL L sh.size = true) :
    (iprop(∃ f, m.view.loc (c : Thread nD τ) ↦[m.view.set]{fullShare} m.view.writes (Elt F) f L) : sProp 𝕄)
      ⊢ owns (c : Thread nD τ) m fullShare (View.canon L) := by
  unfold owns
  iintro ⟨%f, H⟩
  iexists _; isplitr
  swap; · iexact H
  ipureintro; exact View.read_writes_eq_canon _ _ _ (View.cover_of_tiledL _ _ h)

def idleRow2 : Vec F S1x128 .f32 := View.canon []

def firstOuts2 (c : Dev nD) (t : Fin cfg2.N) (hf : atFirst2 (grid2.coords t)) (hl : ¬atLast2 (grid2.coords t)) : Vec F S2000x128 .f32 × Vec F S1x128 .f32 × Vec F S1x128 .f32 × Vec F S1x128 .f32 × Vec F S1x128 .f32 :=
  (View.canon (firstAt2 V c t hf hl).1, idleRow2, idleRow2, View.canon (firstAt2 V c t hf hl).2.1, View.canon (firstAt2 V c t hf hl).2.2.1)

def midOuts2 (c : Dev nD) (t : Fin cfg2.N) (hf : ¬atFirst2 (grid2.coords t)) (hl : ¬atLast2 (grid2.coords t)) (s10 s11 : Vec F S1x128 .f32) : Vec F S2000x128 .f32 × Vec F S1x128 .f32 × Vec F S1x128 .f32 × Vec F S1x128 .f32 × Vec F S1x128 .f32 :=
  (View.canon (midAt2 V c t hf hl s10 s11).1, idleRow2, idleRow2, View.canon (midAt2 V c t hf hl s10 s11).2.1, View.canon (midAt2 V c t hf hl s10 s11).2.2.1)

def lastOuts2 (c : Dev nD) (t : Fin cfg2.N) (hf : ¬atFirst2 (grid2.coords t)) (hl : atLast2 (grid2.coords t)) (s10 s11 : Vec F S1x128 .f32) : Vec F S2000x128 .f32 × Vec F S1x128 .f32 × Vec F S1x128 .f32 × Vec F S1x128 .f32 × Vec F S1x128 .f32 :=
  (View.canon (lastAt2 V c t hf hl s10 s11).1, View.canon (lastAt2 V c t hf hl s10 s11).2.1, View.canon (lastAt2 V c t hf hl s10 s11).2.2.1,
    View.canon (lastAt2 V c t hf hl s10 s11).2.2.2.1, View.canon (lastAt2 V c t hf hl s10 s11).2.2.2.2.1)

def outsAt2 (c : Dev nD) : (n : ℕ) → n < cfg2.N → Vec F S2000x128 .f32 × Vec F S1x128 .f32 × Vec F S1x128 .f32 × Vec F S1x128 .f32 × Vec F S1x128 .f32
  | 0, hn => firstOuts2 V c ⟨0, hn⟩ ((atFirst2_iff ⟨0, hn⟩).mpr rfl) (fun h => absurd ((atLast2_iff ⟨0, hn⟩).mp h) (show ¬(0 : ℕ) = 49 by decide))
  | n + 1, hn =>
    if h : n + 1 = 49 then
      lastOuts2 V c ⟨n + 1, hn⟩ (fun h' => Nat.succ_ne_zero n ((atFirst2_iff ⟨n + 1, hn⟩).mp h')) ((atLast2_iff ⟨n + 1, hn⟩).mpr h)
        (outsAt2 c n (Nat.lt_of_succ_lt hn)).2.2.2.1 (outsAt2 c n (Nat.lt_of_succ_lt hn)).2.2.2.2
    else
      midOuts2 V c ⟨n + 1, hn⟩ (fun h' => Nat.succ_ne_zero n ((atFirst2_iff ⟨n + 1, hn⟩).mp h')) (fun h' => h ((atLast2_iff ⟨n + 1, hn⟩).mp h'))
        (outsAt2 c n (Nat.lt_of_succ_lt hn)).2.2.2.1 (outsAt2 c n (Nat.lt_of_succ_lt hn)).2.2.2.2

theorem outsAt2_first (c : Dev nD) (t : Fin cfg2.N) (h : t.val = 0) :
    outsAt2 V c t.val t.isLt = firstOuts2 V c t ((atFirst2_iff t).mpr h) (fun h' => by have := (atLast2_iff t).mp h'; omega) := by
  obtain ⟨n, hn⟩ := t
  cases n with
  | zero => rfl
  | succ n => exact absurd h (Nat.succ_ne_zero n)

theorem outsAt2_mid (c : Dev nD) (t : Fin cfg2.N) (h0 : 0 < t.val) (h49 : t.val < 49) :
    outsAt2 V c t.val t.isLt = midOuts2 V c t (fun h' => by have := (atFirst2_iff t).mp h'; omega) (fun h' => by have := (atLast2_iff t).mp h'; omega)
      (outsAt2 V c (t.val - 1) (Nat.lt_of_le_of_lt (Nat.sub_le _ _) t.isLt)).2.2.2.1
      (outsAt2 V c (t.val - 1) (Nat.lt_of_le_of_lt (Nat.sub_le _ _) t.isLt)).2.2.2.2 := by
  obtain ⟨n, hn⟩ := t
  cases n with
  | zero => exact absurd h0 (Nat.lt_irrefl 0)
  | succ n => exact (dif_neg (fun e : n + 1 = 49 => by have : n + 1 < 49 := h49; omega)).trans rfl

theorem outsAt2_last (c : Dev nD) (t : Fin cfg2.N) (h : t.val = 49) :
    outsAt2 V c t.val t.isLt = lastOuts2 V c t (fun h' => by have := (atFirst2_iff t).mp h'; omega) ((atLast2_iff t).mpr h)
      (outsAt2 V c (t.val - 1) (Nat.lt_of_le_of_lt (Nat.sub_le _ _) t.isLt)).2.2.2.1
      (outsAt2 V c (t.val - 1) (Nat.lt_of_le_of_lt (Nat.sub_le _ _) t.isLt)).2.2.2.2 := by
  obtain ⟨n, hn⟩ := t
  cases n with
  | zero => exact absurd h (show ¬(0 : ℕ) = 49 by decide)
  | succ n => exact (dif_pos (show n + 1 = 49 from h)).trans rfl

abbrev restBut2 (c : Dev nD) : sProp 𝕄 :=
  Pipeline.scopedRestBut (Ix := Unit) (Name := ℕ) (U := UR sig nD τ) (Lvl := ℕ) (Val := Elt F) spec2 c [cc2_scratch0, cc2_scratch1]

def inv2 (c : Dev nD) : (n : ℕ) → n ≤ cfg2.N → sProp 𝕄
  | 0, _ => Pipeline.ΦA spec2 c
  | n + 1, hn => iprop(iprop(iprop(owns (c : Thread nD τ) sumRef2 fullShare (outsAt2 V c n hn).2.2.2.1
      ∗ owns (c : Thread nD τ) sqRef2 fullShare (outsAt2 V c n hn).2.2.2.2) ∗ restBut2 c) ∗ (∃ r, prngReg c r))

theorem inv2_zero (c : Dev nD) (n : ℕ) (h : n ≤ cfg2.N) (hz : n = 0) : inv2 V c n h = Pipeline.ΦA spec2 c := by
  subst hz; rfl

theorem inv2_pos (c : Dev nD) (n : ℕ) (h : n ≤ cfg2.N) (hz : n ≠ 0) :
    inv2 V c n h = iprop(iprop(iprop(owns (c : Thread nD τ) sumRef2 fullShare (outsAt2 V c (n - 1) (by omega)).2.2.2.1
      ∗ owns (c : Thread nD τ) sqRef2 fullShare (outsAt2 V c (n - 1) (by omega)).2.2.2.2) ∗ restBut2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem share2 (c : Dev nD) (w : Fin cfg2.W) : (dat2 V c).q w = fullShare := by
  dsimp only [dat2]

theorem owed2 (c : Dev nD) (t : Fin (cfg2.N + 1)) : (dat2 V c).owed t = 0 := by
  dsimp only [dat2]

theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

/-- The frame rule around a run: what the run leaves alone is carried across, what it returns is weakened piece by piece. -/
theorem frame_run2 {T0 T1 T2 T3 T4 T5 T6 T7 T8 : Type} {A0 A1 A2 A3 A4 A5 X6 PS PQ R G O W6 WS WQ B6 B7 B8 BS BQ : sProp 𝕄}
    {A6 : T6 → sProp 𝕄} {A7 X7 Y7 : T7 → sProp 𝕄} {A8 X8 Y8 : T8 → sProp 𝕄} {c : Dev nD} {p : Prog (TpuEff nD τ sig (Elt F) Λ₀ .tc) PUnit}
    (run : ∀ d7 d8 (K : PUnit → sProp 𝕄), iprop(A0 ∗ A1 ∗ A2 ∗ A3 ∗ A4 ∗ A5 ∗ X6 ∗ X7 d7 ∗ X8 d8 ∗ PS ∗ PQ
      ∗ (iprop(A0 ∗ A1 ∗ A2 ∗ A3 ∗ A4 ∗ A5 ∗ W6 ∗ Y7 d7 ∗ Y8 d8 ∗ WS ∗ WQ) -∗ K ⟨⟩))
        ⊢ wp frame (wpE (defs₀ (F := F)) Variants.none c none) Set.univ p K)
    (h6 : ∀ d, A6 d ⊢ X6) (h7 : ∀ d, A7 d ⊢ X7 d) (h8 : ∀ d, A8 d ⊢ X8 d)
    (k6 : W6 ⊢ B6) (k7 : ∀ d, Y7 d ⊢ B7) (k8 : ∀ d, Y8 d ⊢ B8) (kS : WS ⊢ BS) (kQ : WQ ⊢ BQ) :
    iprop(iprop(iprop(iprop(PS ∗ PQ) ∗ R) ∗ G) ∗ O ∗ (∃ _ : T0, A0) ∗ (∃ _ : T1, A1) ∗ (∃ _ : T2, A2) ∗ (∃ _ : T3, A3) ∗ (∃ _ : T4, A4)
        ∗ (∃ _ : T5, A5) ∗ (∃ d, A6 d) ∗ (∃ d, A7 d) ∗ (∃ d, A8 d))
      ⊢ wp frame (wpE (defs₀ (F := F)) Variants.none c none) Set.univ p fun _ =>
        iprop(iprop(iprop(iprop(BS ∗ BQ) ∗ R) ∗ G) ∗ O ∗ A0 ∗ A1 ∗ A2 ∗ A3 ∗ A4 ∗ A5 ∗ B6 ∗ B7 ∗ B8) := by
  iintro ⟨⟨⟨⟨HS, HQ⟩, HR⟩, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run d7 d8 _)
  iframe H0 H1 H2 H3 H4 H5 HS HQ
  isplitl [H6]; · iapply (h6 d6); iexact H6
  isplitl [H7]; · iapply (h7 d7); iexact H7
  isplitl [H8]; · iapply (h8 d8); iexact H8
  iintro ⟨H0, H1, H2, H3, H4, H5, W6, W7, W8, WS, WQ⟩
  iframe H0 H1 H2 H3 H4 H5 HR HG HO
  isplitl [WS WQ]
  · isplitl [WS]
    · iapply kS; iexact WS
    · iapply kQ; iexact WQ
  isplitl [W6]; · iapply k6; iexact W6
  isplitl [W7]; · iapply (k7 d7); iexact W7
  iapply (k8 d8); iexact W8

set_option maxHeartbeats 3200000 in
/-- The body at any point is the run of that point's control case, framed. -/
theorem body_at2 (c : Dev nD) (t : Fin cfg2.N) :
    iprop(inv2 V c t.val (Nat.le_of_lt t.isLt) ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare ((dat2 V c).before 3 t d))
      ∗ (∃ d, owns (c : Thread nD τ) (win2_4.stage (cfg2.slots t 4)) fullShare ((dat2 V c).before 4 t d))
      ∗ (∃ d, owns (c : Thread nD τ) (win2_5.stage (cfg2.slots t 5)) fullShare ((dat2 V c).before 5 t d))
      ∗ (∃ d, owns (c : Thread nD τ) (win2_6.stage (cfg2.slots t 6)) fullShare ((dat2 V c).before 6 t d))
      ∗ (∃ d, owns (c : Thread nD τ) (win2_7.stage (cfg2.slots t 7)) fullShare ((dat2 V c).before 7 t d))
      ∗ (∃ d, owns (c : Thread nD τ) (win2_8.stage (cfg2.slots t 8)) fullShare ((dat2 V c).before 8 t d)))
    ⊢ wp frame (wpE (defs₀ (F := F)) Variants.none c none) Set.univ (bodyAt2 t) fun _ =>
      iprop(iprop(iprop(iprop(owns (c : Thread nD τ) sumRef2 fullShare (outsAt2 V c t.val t.isLt).2.2.2.1
          ∗ owns (c : Thread nD τ) sqRef2 fullShare (outsAt2 V c t.val t.isLt).2.2.2.2) ∗ restBut2 c) ∗ (∃ r, prngReg c r))
        ∗ (dat2 V c).owesAt () t.castSucc
        ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t
        ∗ owns (c : Thread nD τ) (win2_6.stage (cfg2.slots t 6)) fullShare (outsAt2 V c t.val t.isLt).1
        ∗ (dat2 V c).leavesExact 7 t ∗ (dat2 V c).leavesExact 8 t) := by
  have hN : t.val < 50 := lt_of_lt_of_eq t.isLt N_2
  unfold bodyAt2
  simp only [held2_0 V (dat2 V c) (A_eq2 V c 0) (fun _ => rfl), held2_1 V (dat2 V c) (A_eq2 V c 1) (fun _ => rfl),
    held2_2 V (dat2 V c) (A_eq2 V c 2) (fun _ => rfl), held2_3 V (dat2 V c) (A_eq2 V c 3) (fun _ => rfl),
    held2_4 V (dat2 V c) (A_eq2 V c 4) (fun _ => rfl), held2_5 V (dat2 V c) (A_eq2 V c 5) (fun _ => rfl)]
  by_cases h0 : t.val = 0
  · have hf := (atFirst2_iff t).mpr h0
    have hl : ¬atLast2 (grid2.coords t) := fun h' => by have := (atLast2_iff t).mp h'; omega
    rw [inv2_zero V c _ _ h0, PhiA2_split, Dat.leavesExact_idle (dat2 V c) 7 t (idle2_7 t hl) (keep2_7 t hl),
      Dat.leavesExact_idle (dat2 V c) 8 t (idle2_8 t hl) (keep2_8 t hl), outsAt2_first V c t h0]
    unfold firstOuts2; dsimp only
    exact frame_run2 (fun d7 d8 K => (firstAt2 V c t hf hl).2.2.2 ((dat2 V c).before 7 t d7) ((dat2 V c).before 8 t d8) Set.univ K)
      (fun _ => by iintro H; iexists _; iexact H) (fun _ => by iintro H; iexact H) (fun _ => by iintro H; iexact H) (owns_of_stores2 c _ _ (by sl_kernel_rfl)) (fun _ => by iintro H; iexists _; iexact H) (fun _ => by iintro H; iexists _; iexact H) (owns_of_stores2 c _ _ (by sl_kernel_rfl)) (owns_of_stores2 c _ _ (by sl_kernel_rfl))
  have hf : ¬atFirst2 (grid2.coords t) := fun h' => h0 ((atFirst2_iff t).mp h')
  rw [inv2_pos V c _ _ h0]
  by_cases h49 : t.val = 49
  · have hl := (atLast2_iff t).mpr h49
    rw [show (dat2 V c).leavesExact 7 t = owns (c : Thread nD τ) (win2_7.stage (cfg2.slots t 7)) fullShare ((dat2 V c).after 7 t) from by
        unfold Dat.leavesExact; rw [live2_7 t hl], after2_7,
      show (dat2 V c).leavesExact 8 t = owns (c : Thread nD τ) (win2_8.stage (cfg2.slots t 8)) fullShare ((dat2 V c).after 8 t) from by
        unfold Dat.leavesExact; rw [live2_8 t hl], after2_8, outsAt2_last V c t h49]
    unfold lastOuts2; dsimp only
    exact frame_run2 (fun _ _ K => (lastAt2 V c t hf hl _ _).2.2.2.2.2 Set.univ K)
      (fun _ => by iintro H; iexists _; iexact H) (fun _ => by iintro H; iexists _; iexact H) (fun _ => by iintro H; iexists _; iexact H) (owns_of_stores2 c _ _ (by sl_kernel_rfl)) (fun _ => owns_of_stores2 c _ _ (by sl_kernel_rfl)) (fun _ => owns_of_stores2 c _ _ (by sl_kernel_rfl)) (owns_of_stores2 c _ _ (by sl_kernel_rfl)) (owns_of_stores2 c _ _ (by sl_kernel_rfl))
  have hl : ¬atLast2 (grid2.coords t) := fun h' => h49 ((atLast2_iff t).mp h')
  rw [Dat.leavesExact_idle (dat2 V c) 7 t (idle2_7 t hl) (keep2_7 t hl), Dat.leavesExact_idle (dat2 V c) 8 t (idle2_8 t hl) (keep2_8 t hl),
    outsAt2_mid V c t (Nat.pos_of_ne_zero h0) (by omega)]
  unfold midOuts2; dsimp only
  exact frame_run2 (fun d7 d8 K => (midAt2 V c t hf hl _ _).2.2.2 ((dat2 V c).before 7 t d7) ((dat2 V c).before 8 t d8) Set.univ K)
    (fun _ => by iintro H; iexists _; iexact H) (fun _ => by iintro H; iexact H) (fun _ => by iintro H; iexact H) (owns_of_stores2 c _ _ (by sl_kernel_rfl)) (fun _ => by iintro H; iexists _; iexact H) (fun _ => by iintro H; iexists _; iexact H) (owns_of_stores2 c _ _ (by sl_kernel_rfl)) (owns_of_stores2 c _ _ (by sl_kernel_rfl))

theorem body_obligation2 (c : Dev nD) : BodyObligation (dat2 (F := F) V c) (defs₀ (F := F)) Variants.none () Set.univ := fun t => by
  rw [bigSep_W2, bigSep_W2]
  exact body_at2 V c t

theorem Phi2_in (c : Dev nD) : Pipeline.ΦA spec2 c ⊢ (dat2 V c).Φ 0 := by
  rw [show (dat2 V c).Φ 0 = inv2 V c 0 (Nat.zero_le _) from rfl, inv2_zero V c 0 _ rfl]
  try exact Idealize.SL.BI.Entails.refl _

/-- Every later invariant weakens to the entry one by forgetting what the accumulators hold. -/
theorem Phi2_back (c : Dev nD) (t : Fin (cfg2.N + 1)) (ht : t.val ≠ 0) : (dat2 V c).Φ t ⊢ Pipeline.ΦA spec2 c := by
  rw [show (dat2 V c).Φ t = inv2 V c t.val (Nat.le_of_lt_succ t.isLt) from rfl, inv2_pos V c _ _ ht, PhiA2_split]
  iintro ⟨⟨⟨HS, HQ⟩, HR⟩, Hg⟩
  isplitl [HS HQ HR]
  · isplitl [HS HQ]
    · isplitl [HS]
      · iexists _; iexact HS
      · iexists _; iexact HQ
    · iexact HR
  · iexact Hg

theorem Phi2_out (c : Dev nD) : (dat2 V c).Φ (Fin.last cfg2.N) ⊢ Pipeline.ΦA spec2 c :=
  Phi2_back V c _ (by rw [Fin.val_last]; have : cfg2.N = 50 := N_2; omega)

end Region

end Cert.Kernel.Hand

end
-- ==== Proof.K.Chain2.lean ====
import proofs.«137621_j4303557230930_1_alg».proof.Proof.K.Chain1
import proofs.«137621_j4303557230930_1_alg».proof.Proof.K.Stats2

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

abbrev entryVal2 (c : Dev nD) : Valuation τ sig (Elt F) := StableHlo.after hostOps2 (exitVal1 m c)
abbrev entry2 : (c : Dev nD) → (b : Ref sig .tc) → Buf (Elt F) ((c : Thread nD τ).loc b) := fun c b => entryVal2 m c b
def exitVal2 (c : Dev nD) : Valuation τ sig (Elt F) :=
  Pipeline.withArrays spec2 c (entryVal2 m c) fun w => (dat2 (entry2 m) c).arrAt w cfg2.N
theorem exitVal2_arr (c : Dev nD) (w : Fin cfg2.W) :
    exitVal2 m c (Proc.devRef .tc (Pipeline.arrRef spec2 w)) = (dat2 (entry2 m) c).arrAt w cfg2.N :=
  Pipeline.withArrays_arr spec2 launch2.win.arr_inj c _ _ w

end Cert.Kernel.Hand

end
-- ==== Proof.K.Bn3.lean ====
import proofs.«137621_j4303557230930_1_alg».proof.Proof.Gen.Kernel.Launch
import proofs.«137621_j4303557230930_1_alg».proof.Proof.Gen.Kernel.Skeleton
import proofs.«137621_j4303557230930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev wholeBlk3 : Rect S2000x128 := Rect.unit (s := S2000x128) ![0, 0] S2000x128.size inb_S2000x128_S2000x128_0_0
abbrev wholeRow3 : Rect S1x128 := Rect.unit (s := S1x128) ![0, 0] S1x128.size inb_S1x128_S1x128_0_0

theorem zero_off3 : (![0, 0] : Fin 2 → Nat) = fun _ => 0 :=
  funext fun a => by fin_cases a <;> rfl

def oblk3 (xz : Vec F S2000x128 .f32) (xm xv xg xb : Vec F S1x128 .f32) : Vec F S2000x128 .f32 :=
  View.canon [⟨wholeBlk3, k3_pay1 (View.ld xz wholeBlk3) (View.ld xv wholeRow3) (View.ld xg wholeRow3) (View.ld xm wholeRow3) (View.ld xb wholeRow3)⟩]

set_option maxHeartbeats 1000000 in
theorem cc3_triple (c : Dev nD) (E : Set ℕ) {i : grid3.Coords} {az ao : Memref sig .tc .vmem S2000x128 .f32}
    {am av ag ab : Memref sig .tc .vmem S1x128 .f32} {haz : az.IsWhole} {ham : am.IsWhole} {hav : av.IsWhole}
    {hag : ag.IsWhole} {hab : ab.IsWhole} {hao : ao.IsWhole}
    (xz d : Vec F S2000x128 .f32) (xm xv xg xb : Vec F S1x128 .f32) (K : PUnit → sProp 𝕄) :
    iprop(ownsTc c az fullShare xz ∗ ownsTc c am fullShare xm ∗ ownsTc c av fullShare xv
        ∗ ownsTc c ag fullShare xg ∗ ownsTc c ab fullShare xb ∗ ownsTc c ao fullShare d
        ∗ (iprop(ownsTc c az fullShare xz ∗ ownsTc c am fullShare xm ∗ ownsTc c av fullShare xv
            ∗ ownsTc c ag fullShare xg ∗ ownsTc c ab fullShare xb ∗ ownsTc c ao fullShare (oblk3 xz xm xv xg xb)) -∗ K ⟨⟩))
      ⊢ wp frame (wpE (defs₀ (F := F)) Variants.none c none) E (cc3__bn_relu_kernel i az haz am ham av hav ag hag ab hab ao hao) K := by
  simp only [cc3__bn_relu_kernel_eq_skeleton]; unfold cc3__bn_relu_kernel_skel
  unfold ownsTc owns
  iintro ⟨⟨%fz, %hfz, Hz⟩, ⟨%fm, %hfm, Hm⟩, ⟨%fv, %hfv, Hv⟩, ⟨%fg, %hfg, Hg⟩, ⟨%fb, %hfb, Hb⟩, ⟨%fo, -, Ho⟩, Hk⟩
  subst hfz hfm hfv hfg hfb
  sl_exec
  sl_step
  iapply Hk
  isplitl [Hz]
  · iexists fz; isplitr
    · ipureintro; rfl
    · iexact Hz
  isplitl [Hm]
  · iexists fm; isplitr
    · ipureintro; rfl
    · iexact Hm
  isplitl [Hv]
  · iexists fv; isplitr
    · ipureintro; rfl
    · iexact Hv
  isplitl [Hg]
  · iexists fg; isplitr
    · ipureintro; rfl
    · iexact Hg
  isplitl [Hb]
  · iexists fb; isplitr
    · ipureintro; rfl
    · iexact Hb
  iexists _; isplitr
  swap
  · iexact Ho
  · ipureintro
    exact View.read_writes_eq_canon _ _ _ fun y => ⟨_, List.mem_singleton_self _, View.mem_set_unit_zero zero_off3 inb_S2000x128_S2000x128_0_0 y⟩

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => oblk3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem Phi3_in (c : Dev nD) : Pipeline.ΦA spec3 c ⊢ (dat3 V c).Φ 0 := .rfl
theorem Phi3_out (c : Dev nD) : (dat3 V c).Φ (Fin.last cfg3.N) ⊢ Pipeline.ΦA spec3 c := .rfl

theorem share3 (c : Dev nD) (w : Fin cfg3.W) : (dat3 V c).q w = fullShare := rfl

theorem owed3 (c : Dev nD) (t : Fin (cfg3.N + 1)) : (dat3 V c).owed t = 0 := rfl

theorem before3_in (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t)
    ∧ (∀ d, (dat3 V c).before 4 t d = iblk3 V c 4 t) := by
  refine ⟨?_, ?_, ?_, ?_, ?_⟩ <;> exact fun d =>
    ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  simp only [before3_in V c t]
  show _ ⊢ wp _ _ _ (bodyAt3 t) _
  iintro ⟨HΦ, Hw, ⟨%_, Hz⟩, ⟨%_, Hm⟩, ⟨%_, Hv⟩, ⟨%_, Hg⟩, ⟨%_, Hb⟩, ⟨%d, Ho⟩⟩
  iapply (cc3_triple c Set.univ (iblk3 V c 0 t) ((dat3 V c).before 5 t d) (iblk3 V c 1 t) (iblk3 V c 2 t) (iblk3 V c 3 t)
    (iblk3 V c 4 t) _)
  iframe Hz Hm Hv Hg Hb Ho
  iintro ⟨Hz, Hm, Hv, Hg, Hb, Ho⟩
  dsimp only [dat3]
  isplitl [HΦ]; · iexact HΦ
  isplitl [Hw]; · iexact Hw
  iframe

end Cert.Kernel.Hand
-- ==== Proof.K.Chain3.lean ====
import proofs.«137621_j4303557230930_1_alg».proof.Proof.K.Chain2
import proofs.«137621_j4303557230930_1_alg».proof.Proof.K.Bn3

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

abbrev entryVal3 (c : Dev nD) : Valuation τ sig (Elt F) := StableHlo.after hostOps3 (exitVal2 m c)
abbrev entry3 : (c : Dev nD) → (b : Ref sig .tc) → Buf (Elt F) ((c : Thread nD τ).loc b) := fun c b => entryVal3 m c b
def exitVal3 (c : Dev nD) : Valuation τ sig (Elt F) :=
  Pipeline.withArrays spec3 c (entryVal3 m c) fun w => (dat3 (entry3 m) c).arrAt w cfg3.N
theorem exitVal3_arr (c : Dev nD) (w : Fin cfg3.W) :
    exitVal3 m c (Proc.devRef .tc (Pipeline.arrRef spec3 w)) = (dat3 (entry3 m) c).arrAt w cfg3.N :=
  Pipeline.withArrays_arr spec3 launch3.win.arr_inj c _ _ w

end Cert.Kernel.Hand

end
-- ==== Proof.K.Stats4Runs.lean ====
import proofs.«137621_j4303557230930_1_alg».proof.Proof.Gen.Kernel.Launch
import proofs.«137621_j4303557230930_1_alg».proof.Proof.Gen.Kernel.Skeleton
import proofs.«137621_j4303557230930_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

variable {c : Dev nD} (dat : Dat τ (Elt F) Unit ℕ (UR sig nD τ) ℕ cfg4 c)

-- When the data's array is `V`'s, its block at every point is the block read off `V`.
variable {V dat} in
theorem iblkEq4 {w : Fin cfg4.W} (hA : dat.A w = V c (Pipeline.arrRef spec4 w)) : iblk4 V c w = dat.blockOf w :=
  funext fun t => by unfold Dat.blockOf iblk4; rw [hA]

theorem held4_0 (hA : dat.A 0 = V c (Pipeline.arrRef spec4 0)) (hafter : ∀ t, dat.after 0 t = iblk4 V c 0 t)
    (t : Fin cfg4.N) (d) : dat.before 0 t d = iblk4 V c 0 t :=
  iblkEq4 hA ▸ dat.before_in_eq_fetched 0 rfl (fun _ => rfl) (fun _ _ _ => rfl) (iblkEq4 hA ▸ hafter) t d

theorem held4_1 (hA : dat.A 1 = V c (Pipeline.arrRef spec4 1)) (hafter : ∀ t, dat.after 1 t = iblk4 V c 1 t)
    (t : Fin cfg4.N) (d) : dat.before 1 t d = iblk4 V c 1 t :=
  iblkEq4 hA ▸ dat.before_in_eq_fetched 1 rfl (fun _ => rfl) (fun _ _ _ => rfl) (iblkEq4 hA ▸ hafter) t d

theorem held4_2 (hA : dat.A 2 = V c (Pipeline.arrRef spec4 2)) (hafter : ∀ t, dat.after 2 t = iblk4 V c 2 t)
    (t : Fin cfg4.N) (d) : dat.before 2 t d = iblk4 V c 2 t :=
  iblkEq4 hA ▸ dat.before_in_eq_fetched 2 rfl (fun _ => rfl) (fun _ _ _ => rfl) (iblkEq4 hA ▸ hafter) t d

theorem held4_3 (hA : dat.A 3 = V c (Pipeline.arrRef spec4 3)) (hafter : ∀ t, dat.after 3 t = iblk4 V c 3 t)
    (t : Fin cfg4.N) (d) : dat.before 3 t d = iblk4 V c 3 t :=
  iblkEq4 hA ▸ dat.before_in_eq_fetched 3 rfl (fun _ => rfl) (fun _ _ _ => rfl) (iblkEq4 hA ▸ hafter) t d

theorem held4_4 (hA : dat.A 4 = V c (Pipeline.arrRef spec4 4)) (hafter : ∀ t, dat.after 4 t = iblk4 V c 4 t)
    (t : Fin cfg4.N) (d) : dat.before 4 t d = iblk4 V c 4 t :=
  iblkEq4 hA ▸ dat.before_in_eq_fetched 4 rfl (fun _ => rfl) (fun _ _ _ => rfl) (iblkEq4 hA ▸ hafter) t d

theorem held4_5 (hA : dat.A 5 = V c (Pipeline.arrRef spec4 5)) (hafter : ∀ t, dat.after 5 t = iblk4 V c 5 t)
    (t : Fin cfg4.N) (d) : dat.before 5 t d = iblk4 V c 5 t :=
  iblkEq4 hA ▸ dat.before_in_eq_fetched 5 rfl (fun _ => rfl) (fun _ _ _ => rfl) (iblkEq4 hA ▸ hafter) t d

end Blocks

abbrev atFirst4 (i : grid4.Coords) : Prop :=
  (Scalar.cmpi .ne (Scalar.extui (Scalar.cmpi .eq (BitVec.ofNat 32 (i 0).val) 0#32)) 0#32) = 1#1

abbrev atLast4 (i : grid4.Coords) : Prop := k4_cond2 i = 1#1

theorem atFirst4_iff : ∀ t : Fin cfg4.N, atFirst4 (grid4.coords t) ↔ t.val = 0 :=
  by decide +kernel

theorem atLast4_iff : ∀ t : Fin cfg4.N, atLast4 (grid4.coords t) ↔ t.val = 49 :=
  by decide +kernel

theorem idle4_7 : ∀ t : Fin cfg4.N, ¬atLast4 (grid4.coords t) → cfg4.idle 7 (grid4.coords t) = true := by decide +kernel
theorem keep4_7 : ∀ t : Fin cfg4.N, ¬atLast4 (grid4.coords t) → (cfg4.win 7).flush t = false := by decide +kernel
theorem live4_7 : ∀ t : Fin cfg4.N, atLast4 (grid4.coords t) → cfg4.idle 7 (grid4.coords t) = false := by decide +kernel
theorem idle4_8 : ∀ t : Fin cfg4.N, ¬atLast4 (grid4.coords t) → cfg4.idle 8 (grid4.coords t) = true := by decide +kernel
theorem keep4_8 : ∀ t : Fin cfg4.N, ¬atLast4 (grid4.coords t) → (cfg4.win 8).flush t = false := by decide +kernel
theorem live4_8 : ∀ t : Fin cfg4.N, atLast4 (grid4.coords t) → cfg4.idle 8 (grid4.coords t) = false := by decide +kernel

abbrev sumRef4 : Memref sig .tc .vmem S1x128 .f32 := Memref.whole cc4_scratch0
abbrev sqRef4 : Memref sig .tc .vmem S1x128 .f32 := Memref.whole cc4_scratch1

theorem ownsUnread4 (c : Dev nD) {sp sh e} {m : Memref sig .tc sp sh e} (h : m.IsWhole) (q X) :
    (owns (c : Thread nD τ) m q X : sProp 𝕄) = (m.view.loc (c : Thread nD τ) ↦[m.view.set]{q} h.unread X) :=
  BI.equiv_iff.mp ⟨by show (_ : sProp 𝕄) ⊢ _; unfold owns; iintro ⟨%f, %hf, H⟩; rw [h.eq_unread hf]; iexact H,
    by show (_ : sProp 𝕄) ⊢ _; simpa only [h.read_unread] using owns_intro (c : Thread nD τ) m q (h.unread X)⟩

theorem PhiA4_split (c : Dev nD) :
    (Pipeline.ΦA spec4 c : sProp 𝕄)
      = iprop(iprop(iprop((∃ d, owns (c : Thread nD τ) sumRef4 fullShare d) ∗ (∃ d, owns (c : Thread nD τ) sqRef4 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [sumRef4, sqRef4, owns_whole]; try rfl

end Cert.Kernel.Hand

end
-- ==== Proof.K.Stats4RunA.lean ====
import proofs.«137621_j4303557230930_1_alg».proof.Proof.K.Stats4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runFirst4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : atFirst4 i) (hlast : ¬atLast4 i) (x1 : Vec F S2000x128 .f32) (x2 : Vec F S2000x128 .f32) (x3 : Vec F S128x128 .f32) (x4 : Vec F S1x128 .f32) (x5 : Vec F S128x128 .f32) (x6 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc4__mlp_stats_kernel_eq_skeleton, cc4__mlp_stats_kernel_skel]
    simp (disch := assumption) only [k4_part1_eq_skeleton, ownsUnread4]
    iintro ⟨H1, H2, H3, H4, H5, H6, ⟨%d7, H7⟩, H8, H9, ⟨%d10, H10⟩, ⟨%d11, H11⟩, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.Kernel.Hand

end
-- ==== Proof.K.Stats4RunB.lean ====
import proofs.«137621_j4303557230930_1_alg».proof.Proof.K.Stats4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runMid4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst4 i) (hlast : ¬atLast4 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc4__mlp_stats_kernel_eq_skeleton, cc4__mlp_stats_kernel_skel]
    simp (disch := assumption) only [k4_part1_eq_skeleton, ownsUnread4]
    iintro ⟨H1, H2, H3, H4, H5, H6, ⟨%d7, H7⟩, H8, H9, H10, H11, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.Kernel.Hand

end
-- ==== Proof.K.Stats4RunC.lean ====
import proofs.«137621_j4303557230930_1_alg».proof.Proof.K.Stats4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runLast4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst4 i) (hlast : atLast4 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsumo : List (View.Piece (Elt F) S1x128 .f32)) (Lsqo : List (View.Piece (Elt F) S1x128 .f32)) (Lsum : List (View.Piece (Elt F) S1x128 .f32)), { Lsq : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ (∃ f, arg8.view.loc (c : Thread nD τ) ↦[arg8.view.set]{fullShare} arg8.view.writes (Elt F) f Lsumo) ∗ (∃ f, arg9.view.loc (c : Thread nD τ) ↦[arg9.view.set]{fullShare} arg9.view.writes (Elt F) f Lsqo)
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    rw [cc4__mlp_stats_kernel_eq_skeleton, cc4__mlp_stats_kernel_skel]
    simp (disch := assumption) only [k4_part1_eq_skeleton, ownsUnread4]
    iintro ⟨H1, H2, H3, H4, H5, H6, ⟨%d7, H7⟩, ⟨%d8, H8⟩, ⟨%d9, H9⟩, H10, H11, Hk⟩
    sl_exec (disch := first | exact hfirst | exact hlast)
    sl_step
    iapply Hk
    iframe H1 H2 H3 H4 H5 H6
    isplitl [H7]; iexists _; iexact H7
    isplitl [H8]; iexists _; iexact H8
    isplitl [H9]; iexists _; iexact H9
    isplitl [H10]; iexists _; iexact H10
    iexists _; iexact H11

end Cert.Kernel.Hand

end
-- ==== Proof.K.Stats4.lean ====
import proofs.«137621_j4303557230930_1_alg».proof.Proof.K.Stats4RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

abbrev firstAt4 (c : Dev nD) (t : Fin cfg4.N) (hf : atFirst4 (grid4.coords t)) (hl : ¬atLast4 (grid4.coords t)) :=
  runFirst4 (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) sumRef4 (Memref.isWhole_whole _) sqRef4 (Memref.isWhole_whole _) hf hl (iblk4 V c 0 t) (iblk4 V c 1 t) (iblk4 V c 2 t) (iblk4 V c 3 t) (iblk4 V c 4 t) (iblk4 V c 5 t)

abbrev midAt4 (c : Dev nD) (t : Fin cfg4.N) (hf : ¬atFirst4 (grid4.coords t)) (hl : ¬atLast4 (grid4.coords t)) (s10 s11 : Vec F S1x128 .f32) :=
  runMid4 (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) sumRef4 (Memref.isWhole_whole _) sqRef4 (Memref.isWhole_whole _) hf hl (iblk4 V c 0 t) (iblk4 V c 1 t) (iblk4 V c 2 t) (iblk4 V c 3 t) (iblk4 V c 4 t) (iblk4 V c 5 t) s10 s11

abbrev lastAt4 (c : Dev nD) (t : Fin cfg4.N) (hf : ¬atFirst4 (grid4.coords t)) (hl : atLast4 (grid4.coords t)) (s10 s11 : Vec F S1x128 .f32) :=
  runLast4 (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) sumRef4 (Memref.isWhole_whole _) sqRef4 (Memref.isWhole_whole _) hf hl (iblk4 V c 0 t) (iblk4 V c 1 t) (iblk4 V c 2 t) (iblk4 V c 3 t) (iblk4 V c 4 t) (iblk4 V c 5 t) s10 s11

/-- Writes whose pieces tile the shape read back as their canonical contents, whatever was there before. -/
theorem owns_of_stores4 {sh : Shape} (c : Dev nD) (m : Memref sig .tc .vmem sh .f32) (L : List (View.Piece (Elt F) sh .f32))
    (h : View.Piece.tiledL L sh.size = true) :
    (iprop(∃ f, m.view.loc (c : Thread nD τ) ↦[m.view.set]{fullShare} m.view.writes (Elt F) f L) : sProp 𝕄)
      ⊢ owns (c : Thread nD τ) m fullShare (View.canon L) := by
  unfold owns
  iintro ⟨%f, H⟩
  iexists _; isplitr
  swap; · iexact H
  ipureintro; exact View.read_writes_eq_canon _ _ _ (View.cover_of_tiledL _ _ h)

def idleRow4 : Vec F S1x128 .f32 := View.canon []

def firstOuts4 (c : Dev nD) (t : Fin cfg4.N) (hf : atFirst4 (grid4.coords t)) (hl : ¬atLast4 (grid4.coords t)) : Vec F S2000x128 .f32 × Vec F S1x128 .f32 × Vec F S1x128 .f32 × Vec F S1x128 .f32 × Vec F S1x128 .f32 :=
  (View.canon (firstAt4 V c t hf hl).1, idleRow4, idleRow4, View.canon (firstAt4 V c t hf hl).2.1, View.canon (firstAt4 V c t hf hl).2.2.1)

def midOuts4 (c : Dev nD) (t : Fin cfg4.N) (hf : ¬atFirst4 (grid4.coords t)) (hl : ¬atLast4 (grid4.coords t)) (s10 s11 : Vec F S1x128 .f32) : Vec F S2000x128 .f32 × Vec F S1x128 .f32 × Vec F S1x128 .f32 × Vec F S1x128 .f32 × Vec F S1x128 .f32 :=
  (View.canon (midAt4 V c t hf hl s10 s11).1, idleRow4, idleRow4, View.canon (midAt4 V c t hf hl s10 s11).2.1, View.canon (midAt4 V c t hf hl s10 s11).2.2.1)

def lastOuts4 (c : Dev nD) (t : Fin cfg4.N) (hf : ¬atFirst4 (grid4.coords t)) (hl : atLast4 (grid4.coords t)) (s10 s11 : Vec F S1x128 .f32) : Vec F S2000x128 .f32 × Vec F S1x128 .f32 × Vec F S1x128 .f32 × Vec F S1x128 .f32 × Vec F S1x128 .f32 :=
  (View.canon (lastAt4 V c t hf hl s10 s11).1, View.canon (lastAt4 V c t hf hl s10 s11).2.1, View.canon (lastAt4 V c t hf hl s10 s11).2.2.1,
    View.canon (lastAt4 V c t hf hl s10 s11).2.2.2.1, View.canon (lastAt4 V c t hf hl s10 s11).2.2.2.2.1)

def outsAt4 (c : Dev nD) : (n : ℕ) → n < cfg4.N → Vec F S2000x128 .f32 × Vec F S1x128 .f32 × Vec F S1x128 .f32 × Vec F S1x128 .f32 × Vec F S1x128 .f32
  | 0, hn => firstOuts4 V c ⟨0, hn⟩ ((atFirst4_iff ⟨0, hn⟩).mpr rfl) (fun h => absurd ((atLast4_iff ⟨0, hn⟩).mp h) (show ¬(0 : ℕ) = 49 by decide))
  | n + 1, hn =>
    if h : n + 1 = 49 then
      lastOuts4 V c ⟨n + 1, hn⟩ (fun h' => Nat.succ_ne_zero n ((atFirst4_iff ⟨n + 1, hn⟩).mp h')) ((atLast4_iff ⟨n + 1, hn⟩).mpr h)
        (outsAt4 c n (Nat.lt_of_succ_lt hn)).2.2.2.1 (outsAt4 c n (Nat.lt_of_succ_lt hn)).2.2.2.2
    else
      midOuts4 V c ⟨n + 1, hn⟩ (fun h' => Nat.succ_ne_zero n ((atFirst4_iff ⟨n + 1, hn⟩).mp h')) (fun h' => h ((atLast4_iff ⟨n + 1, hn⟩).mp h'))
        (outsAt4 c n (Nat.lt_of_succ_lt hn)).2.2.2.1 (outsAt4 c n (Nat.lt_of_succ_lt hn)).2.2.2.2

theorem outsAt4_first (c : Dev nD) (t : Fin cfg4.N) (h : t.val = 0) :
    outsAt4 V c t.val t.isLt = firstOuts4 V c t ((atFirst4_iff t).mpr h) (fun h' => by have := (atLast4_iff t).mp h'; omega) := by
  obtain ⟨n, hn⟩ := t
  cases n with
  | zero => rfl
  | succ n => exact absurd h (Nat.succ_ne_zero n)

theorem outsAt4_mid (c : Dev nD) (t : Fin cfg4.N) (h0 : 0 < t.val) (h49 : t.val < 49) :
    outsAt4 V c t.val t.isLt = midOuts4 V c t (fun h' => by have := (atFirst4_iff t).mp h'; omega) (fun h' => by have := (atLast4_iff t).mp h'; omega)
      (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd h0 (Nat.lt_irrefl 0)
  | succ n => exact (dif_neg (fun e : n + 1 = 49 => by have : n + 1 < 49 := h49; omega)).trans rfl

theorem outsAt4_last (c : Dev nD) (t : Fin cfg4.N) (h : t.val = 49) :
    outsAt4 V c t.val t.isLt = lastOuts4 V c t (fun h' => by have := (atFirst4_iff t).mp h'; omega) ((atLast4_iff t).mpr h)
      (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd h (show ¬(0 : ℕ) = 49 by decide)
  | succ n => exact (dif_pos (show n + 1 = 49 from h)).trans rfl

abbrev restBut4 (c : Dev nD) : sProp 𝕄 :=
  Pipeline.scopedRestBut (Ix := Unit) (Name := ℕ) (U := UR sig nD τ) (Lvl := ℕ) (Val := Elt F) spec4 c [cc4_scratch0, cc4_scratch1]

def inv4 (c : Dev nD) : (n : ℕ) → n ≤ cfg4.N → sProp 𝕄
  | 0, _ => Pipeline.ΦA spec4 c
  | n + 1, hn => iprop(iprop(iprop(owns (c : Thread nD τ) sumRef4 fullShare (outsAt4 V c n hn).2.2.2.1
      ∗ owns (c : Thread nD τ) sqRef4 fullShare (outsAt4 V c n hn).2.2.2.2) ∗ restBut4 c) ∗ (∃ r, prngReg c r))

theorem inv4_zero (c : Dev nD) (n : ℕ) (h : n ≤ cfg4.N) (hz : n = 0) : inv4 V c n h = Pipeline.ΦA spec4 c := by
  subst hz; rfl

theorem inv4_pos (c : Dev nD) (n : ℕ) (h : n ≤ cfg4.N) (hz : n ≠ 0) :
    inv4 V c n h = iprop(iprop(iprop(owns (c : Thread nD τ) sumRef4 fullShare (outsAt4 V c (n - 1) (by omega)).2.2.2.1
      ∗ owns (c : Thread nD τ) sqRef4 fullShare (outsAt4 V c (n - 1) (by omega)).2.2.2.2) ∗ restBut4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := inv4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem share4 (c : Dev nD) (w : Fin cfg4.W) : (dat4 V c).q w = fullShare := by
  dsimp only [dat4]

theorem owed4 (c : Dev nD) (t : Fin (cfg4.N + 1)) : (dat4 V c).owed t = 0 := by
  dsimp only [dat4]

theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]

/-- The frame rule around a run: what the run leaves alone is carried across, what it returns is weakened piece by piece. -/
theorem frame_run4 {T0 T1 T2 T3 T4 T5 T6 T7 T8 : Type} {A0 A1 A2 A3 A4 A5 X6 PS PQ R G O W6 WS WQ B6 B7 B8 BS BQ : sProp 𝕄}
    {A6 : T6 → sProp 𝕄} {A7 X7 Y7 : T7 → sProp 𝕄} {A8 X8 Y8 : T8 → sProp 𝕄} {c : Dev nD} {p : Prog (TpuEff nD τ sig (Elt F) Λ₀ .tc) PUnit}
    (run : ∀ d7 d8 (K : PUnit → sProp 𝕄), iprop(A0 ∗ A1 ∗ A2 ∗ A3 ∗ A4 ∗ A5 ∗ X6 ∗ X7 d7 ∗ X8 d8 ∗ PS ∗ PQ
      ∗ (iprop(A0 ∗ A1 ∗ A2 ∗ A3 ∗ A4 ∗ A5 ∗ W6 ∗ Y7 d7 ∗ Y8 d8 ∗ WS ∗ WQ) -∗ K ⟨⟩))
        ⊢ wp frame (wpE (defs₀ (F := F)) Variants.none c none) Set.univ p K)
    (h6 : ∀ d, A6 d ⊢ X6) (h7 : ∀ d, A7 d ⊢ X7 d) (h8 : ∀ d, A8 d ⊢ X8 d)
    (k6 : W6 ⊢ B6) (k7 : ∀ d, Y7 d ⊢ B7) (k8 : ∀ d, Y8 d ⊢ B8) (kS : WS ⊢ BS) (kQ : WQ ⊢ BQ) :
    iprop(iprop(iprop(iprop(PS ∗ PQ) ∗ R) ∗ G) ∗ O ∗ (∃ _ : T0, A0) ∗ (∃ _ : T1, A1) ∗ (∃ _ : T2, A2) ∗ (∃ _ : T3, A3) ∗ (∃ _ : T4, A4)
        ∗ (∃ _ : T5, A5) ∗ (∃ d, A6 d) ∗ (∃ d, A7 d) ∗ (∃ d, A8 d))
      ⊢ wp frame (wpE (defs₀ (F := F)) Variants.none c none) Set.univ p fun _ =>
        iprop(iprop(iprop(iprop(BS ∗ BQ) ∗ R) ∗ G) ∗ O ∗ A0 ∗ A1 ∗ A2 ∗ A3 ∗ A4 ∗ A5 ∗ B6 ∗ B7 ∗ B8) := by
  iintro ⟨⟨⟨⟨HS, HQ⟩, HR⟩, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run d7 d8 _)
  iframe H0 H1 H2 H3 H4 H5 HS HQ
  isplitl [H6]; · iapply (h6 d6); iexact H6
  isplitl [H7]; · iapply (h7 d7); iexact H7
  isplitl [H8]; · iapply (h8 d8); iexact H8
  iintro ⟨H0, H1, H2, H3, H4, H5, W6, W7, W8, WS, WQ⟩
  iframe H0 H1 H2 H3 H4 H5 HR HG HO
  isplitl [WS WQ]
  · isplitl [WS]
    · iapply kS; iexact WS
    · iapply kQ; iexact WQ
  isplitl [W6]; · iapply k6; iexact W6
  isplitl [W7]; · iapply (k7 d7); iexact W7
  iapply (k8 d8); iexact W8

set_option maxHeartbeats 3200000 in
/-- The body at any point is the run of that point's control case, framed. -/
theorem body_at4 (c : Dev nD) (t : Fin cfg4.N) :
    iprop(inv4 V c t.val (Nat.le_of_lt t.isLt) ∗ (dat4 V c).owesAt () t.castSucc
      ∗ (∃ d, owns (c : Thread nD τ) (win4_0.stage (cfg4.slots t 0)) fullShare ((dat4 V c).before 0 t d))
      ∗ (∃ d, owns (c : Thread nD τ) (win4_1.stage (cfg4.slots t 1)) fullShare ((dat4 V c).before 1 t d))
      ∗ (∃ d, owns (c : Thread nD τ) (win4_2.stage (cfg4.slots t 2)) fullShare ((dat4 V c).before 2 t d))
      ∗ (∃ d, owns (c : Thread nD τ) (win4_3.stage (cfg4.slots t 3)) fullShare ((dat4 V c).before 3 t d))
      ∗ (∃ d, owns (c : Thread nD τ) (win4_4.stage (cfg4.slots t 4)) fullShare ((dat4 V c).before 4 t d))
      ∗ (∃ d, owns (c : Thread nD τ) (win4_5.stage (cfg4.slots t 5)) fullShare ((dat4 V c).before 5 t d))
      ∗ (∃ d, owns (c : Thread nD τ) (win4_6.stage (cfg4.slots t 6)) fullShare ((dat4 V c).before 6 t d))
      ∗ (∃ d, owns (c : Thread nD τ) (win4_7.stage (cfg4.slots t 7)) fullShare ((dat4 V c).before 7 t d))
      ∗ (∃ d, owns (c : Thread nD τ) (win4_8.stage (cfg4.slots t 8)) fullShare ((dat4 V c).before 8 t d)))
    ⊢ wp frame (wpE (defs₀ (F := F)) Variants.none c none) Set.univ (bodyAt4 t) fun _ =>
      iprop(iprop(iprop(iprop(owns (c : Thread nD τ) sumRef4 fullShare (outsAt4 V c t.val t.isLt).2.2.2.1
          ∗ owns (c : Thread nD τ) sqRef4 fullShare (outsAt4 V c t.val t.isLt).2.2.2.2) ∗ restBut4 c) ∗ (∃ r, prngReg c r))
        ∗ (dat4 V c).owesAt () t.castSucc
        ∗ (dat4 V c).leavesExact 0 t ∗ (dat4 V c).leavesExact 1 t ∗ (dat4 V c).leavesExact 2 t ∗ (dat4 V c).leavesExact 3 t ∗ (dat4 V c).leavesExact 4 t ∗ (dat4 V c).leavesExact 5 t
        ∗ owns (c : Thread nD τ) (win4_6.stage (cfg4.slots t 6)) fullShare (outsAt4 V c t.val t.isLt).1
        ∗ (dat4 V c).leavesExact 7 t ∗ (dat4 V c).leavesExact 8 t) := by
  have hN : t.val < 50 := lt_of_lt_of_eq t.isLt N_4
  unfold bodyAt4
  simp only [held4_0 V (dat4 V c) (A_eq4 V c 0) (fun _ => rfl), held4_1 V (dat4 V c) (A_eq4 V c 1) (fun _ => rfl),
    held4_2 V (dat4 V c) (A_eq4 V c 2) (fun _ => rfl), held4_3 V (dat4 V c) (A_eq4 V c 3) (fun _ => rfl),
    held4_4 V (dat4 V c) (A_eq4 V c 4) (fun _ => rfl), held4_5 V (dat4 V c) (A_eq4 V c 5) (fun _ => rfl)]
  by_cases h0 : t.val = 0
  · have hf := (atFirst4_iff t).mpr h0
    have hl : ¬atLast4 (grid4.coords t) := fun h' => by have := (atLast4_iff t).mp h'; omega
    rw [inv4_zero V c _ _ h0, PhiA4_split, Dat.leavesExact_idle (dat4 V c) 7 t (idle4_7 t hl) (keep4_7 t hl),
      Dat.leavesExact_idle (dat4 V c) 8 t (idle4_8 t hl) (keep4_8 t hl), outsAt4_first V c t h0]
    unfold firstOuts4; dsimp only
    exact frame_run4 (fun d7 d8 K => (firstAt4 V c t hf hl).2.2.2 ((dat4 V c).before 7 t d7) ((dat4 V c).before 8 t d8) Set.univ K)
      (fun _ => by iintro H; iexists _; iexact H) (fun _ => by iintro H; iexact H) (fun _ => by iintro H; iexact H) (owns_of_stores4 c _ _ (by sl_kernel_rfl)) (fun _ => by iintro H; iexists _; iexact H) (fun _ => by iintro H; iexists _; iexact H) (owns_of_stores4 c _ _ (by sl_kernel_rfl)) (owns_of_stores4 c _ _ (by sl_kernel_rfl))
  have hf : ¬atFirst4 (grid4.coords t) := fun h' => h0 ((atFirst4_iff t).mp h')
  rw [inv4_pos V c _ _ h0]
  by_cases h49 : t.val = 49
  · have hl := (atLast4_iff t).mpr h49
    rw [show (dat4 V c).leavesExact 7 t = owns (c : Thread nD τ) (win4_7.stage (cfg4.slots t 7)) fullShare ((dat4 V c).after 7 t) from by
        unfold Dat.leavesExact; rw [live4_7 t hl], after4_7,
      show (dat4 V c).leavesExact 8 t = owns (c : Thread nD τ) (win4_8.stage (cfg4.slots t 8)) fullShare ((dat4 V c).after 8 t) from by
        unfold Dat.leavesExact; rw [live4_8 t hl], after4_8, outsAt4_last V c t h49]
    unfold lastOuts4; dsimp only
    exact frame_run4 (fun _ _ K => (lastAt4 V c t hf hl _ _).2.2.2.2.2 Set.univ K)
      (fun _ => by iintro H; iexists _; iexact H) (fun _ => by iintro H; iexists _; iexact H) (fun _ => by iintro H; iexists _; iexact H) (owns_of_stores4 c _ _ (by sl_kernel_rfl)) (fun _ => owns_of_stores4 c _ _ (by sl_kernel_rfl)) (fun _ => owns_of_stores4 c _ _ (by sl_kernel_rfl)) (owns_of_stores4 c _ _ (by sl_kernel_rfl)) (owns_of_stores4 c _ _ (by sl_kernel_rfl))
  have hl : ¬atLast4 (grid4.coords t) := fun h' => h49 ((atLast4_iff t).mp h')
  rw [Dat.leavesExact_idle (dat4 V c) 7 t (idle4_7 t hl) (keep4_7 t hl), Dat.leavesExact_idle (dat4 V c) 8 t (idle4_8 t hl) (keep4_8 t hl),
    outsAt4_mid V c t (Nat.pos_of_ne_zero h0) (by omega)]
  unfold midOuts4; dsimp only
  exact frame_run4 (fun d7 d8 K => (midAt4 V c t hf hl _ _).2.2.2 ((dat4 V c).before 7 t d7) ((dat4 V c).before 8 t d8) Set.univ K)
    (fun _ => by iintro H; iexists _; iexact H) (fun _ => by iintro H; iexact H) (fun _ => by iintro H; iexact H) (owns_of_stores4 c _ _ (by sl_kernel_rfl)) (fun _ => by iintro H; iexists _; iexact H) (fun _ => by iintro H; iexists _; iexact H) (owns_of_stores4 c _ _ (by sl_kernel_rfl)) (owns_of_stores4 c _ _ (by sl_kernel_rfl))

theorem body_obligation4 (c : Dev nD) : BodyObligation (dat4 (F := F) V c) (defs₀ (F := F)) Variants.none () Set.univ := fun t => by
  rw [bigSep_W4, bigSep_W4]
  exact body_at4 V c t

theorem Phi4_in (c : Dev nD) : Pipeline.ΦA spec4 c ⊢ (dat4 V c).Φ 0 := by
  rw [show (dat4 V c).Φ 0 = inv4 V c 0 (Nat.zero_le _) from rfl, inv4_zero V c 0 _ rfl]
  try exact Idealize.SL.BI.Entails.refl _

/-- Every later invariant weakens to the entry one by forgetting what the accumulators hold. -/
theorem Phi4_back (c : Dev nD) (t : Fin (cfg4.N + 1)) (ht : t.val ≠ 0) : (dat4 V c).Φ t ⊢ Pipeline.ΦA spec4 c := by
  rw [show (dat4 V c).Φ t = inv4 V c t.val (Nat.le_of_lt_succ t.isLt) from rfl, inv4_pos V c _ _ ht, PhiA4_split]
  iintro ⟨⟨⟨HS, HQ⟩, HR⟩, Hg⟩
  isplitl [HS HQ HR]
  · isplitl [HS HQ]
    · isplitl [HS]
      · iexists _; iexact HS
      · iexists _; iexact HQ
    · iexact HR
  · iexact Hg

theorem Phi4_out (c : Dev nD) : (dat4 V c).Φ (Fin.last cfg4.N) ⊢ Pipeline.ΦA spec4 c :=
  Phi4_back V c _ (by rw [Fin.val_last]; have : cfg4.N = 50 := N_4; omega)

end Region

end Cert.Kernel.Hand

end
-- ==== Proof.K.Chain4.lean ====
import proofs.«137621_j4303557230930_1_alg».proof.Proof.K.Chain3
import proofs.«137621_j4303557230930_1_alg».proof.Proof.K.Stats4

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

abbrev entryVal4 (c : Dev nD) : Valuation τ sig (Elt F) := StableHlo.after hostOps4 (exitVal3 m c)
abbrev entry4 : (c : Dev nD) → (b : Ref sig .tc) → Buf (Elt F) ((c : Thread nD τ).loc b) := fun c b => entryVal4 m c b
def exitVal4 (c : Dev nD) : Valuation τ sig (Elt F) :=
  Pipeline.withArrays spec4 c (entryVal4 m c) fun w => (dat4 (entry4 m) c).arrAt w cfg4.N
theorem exitVal4_arr (c : Dev nD) (w : Fin cfg4.W) :
    exitVal4 m c (Proc.devRef .tc (Pipeline.arrRef spec4 w)) = (dat4 (entry4 m) c).arrAt w cfg4.N :=
  Pipeline.withArrays_arr spec4 launch4.win.arr_inj c _ _ w

end Cert.Kernel.Hand

end
-- ==== Proof.K.Bn5.lean ====
import proofs.«137621_j4303557230930_1_alg».proof.Proof.Gen.Kernel.Launch
import proofs.«137621_j4303557230930_1_alg».proof.Proof.Gen.Kernel.Skeleton
import proofs.«137621_j4303557230930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev wholeBlk5 : Rect S2000x128 := Rect.unit (s := S2000x128) ![0, 0] S2000x128.size inb_S2000x128_S2000x128_0_0
abbrev wholeRow5 : Rect S1x128 := Rect.unit (s := S1x128) ![0, 0] S1x128.size inb_S1x128_S1x128_0_0

theorem zero_off5 : (![0, 0] : Fin 2 → Nat) = fun _ => 0 :=
  funext fun a => by fin_cases a <;> rfl

def oblk5 (xz : Vec F S2000x128 .f32) (xm xv xg xb : Vec F S1x128 .f32) : Vec F S2000x128 .f32 :=
  View.canon [⟨wholeBlk5, k5_pay1 (View.ld xz wholeBlk5) (View.ld xv wholeRow5) (View.ld xg wholeRow5) (View.ld xm wholeRow5) (View.ld xb wholeRow5)⟩]

set_option maxHeartbeats 1000000 in
theorem cc5_triple (c : Dev nD) (E : Set ℕ) {i : grid5.Coords} {az ao : Memref sig .tc .vmem S2000x128 .f32}
    {am av ag ab : Memref sig .tc .vmem S1x128 .f32} {haz : az.IsWhole} {ham : am.IsWhole} {hav : av.IsWhole}
    {hag : ag.IsWhole} {hab : ab.IsWhole} {hao : ao.IsWhole}
    (xz d : Vec F S2000x128 .f32) (xm xv xg xb : Vec F S1x128 .f32) (K : PUnit → sProp 𝕄) :
    iprop(ownsTc c az fullShare xz ∗ ownsTc c am fullShare xm ∗ ownsTc c av fullShare xv
        ∗ ownsTc c ag fullShare xg ∗ ownsTc c ab fullShare xb ∗ ownsTc c ao fullShare d
        ∗ (iprop(ownsTc c az fullShare xz ∗ ownsTc c am fullShare xm ∗ ownsTc c av fullShare xv
            ∗ ownsTc c ag fullShare xg ∗ ownsTc c ab fullShare xb ∗ ownsTc c ao fullShare (oblk5 xz xm xv xg xb)) -∗ K ⟨⟩))
      ⊢ wp frame (wpE (defs₀ (F := F)) Variants.none c none) E (cc5__bn_relu_kernel i az haz am ham av hav ag hag ab hab ao hao) K := by
  simp only [cc5__bn_relu_kernel_eq_skeleton]; unfold cc5__bn_relu_kernel_skel
  unfold ownsTc owns
  iintro ⟨⟨%fz, %hfz, Hz⟩, ⟨%fm, %hfm, Hm⟩, ⟨%fv, %hfv, Hv⟩, ⟨%fg, %hfg, Hg⟩, ⟨%fb, %hfb, Hb⟩, ⟨%fo, -, Ho⟩, Hk⟩
  subst hfz hfm hfv hfg hfb
  sl_exec
  sl_step
  iapply Hk
  isplitl [Hz]
  · iexists fz; isplitr
    · ipureintro; rfl
    · iexact Hz
  isplitl [Hm]
  · iexists fm; isplitr
    · ipureintro; rfl
    · iexact Hm
  isplitl [Hv]
  · iexists fv; isplitr
    · ipureintro; rfl
    · iexact Hv
  isplitl [Hg]
  · iexists fg; isplitr
    · ipureintro; rfl
    · iexact Hg
  isplitl [Hb]
  · iexists fb; isplitr
    · ipureintro; rfl
    · iexact Hb
  iexists _; isplitr
  swap
  · iexact Ho
  · ipureintro
    exact View.read_writes_eq_canon _ _ _ fun y => ⟨_, List.mem_singleton_self _, View.mem_set_unit_zero zero_off5 inb_S2000x128_S2000x128_0_0 y⟩

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => oblk5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem Phi5_in (c : Dev nD) : Pipeline.ΦA spec5 c ⊢ (dat5 V c).Φ 0 := .rfl
theorem Phi5_out (c : Dev nD) : (dat5 V c).Φ (Fin.last cfg5.N) ⊢ Pipeline.ΦA spec5 c := .rfl

theorem share5 (c : Dev nD) (w : Fin cfg5.W) : (dat5 V c).q w = fullShare := rfl

theorem owed5 (c : Dev nD) (t : Fin (cfg5.N + 1)) : (dat5 V c).owed t = 0 := rfl

theorem before5_in (c : Dev nD) (t : Fin cfg5.N) :
    (∀ d, (dat5 V c).before 0 t d = iblk5 V c 0 t) ∧ (∀ d, (dat5 V c).before 1 t d = iblk5 V c 1 t)
    ∧ (∀ d, (dat5 V c).before 2 t d = iblk5 V c 2 t) ∧ (∀ d, (dat5 V c).before 3 t d = iblk5 V c 3 t)
    ∧ (∀ d, (dat5 V c).before 4 t d = iblk5 V c 4 t) := by
  refine ⟨?_, ?_, ?_, ?_, ?_⟩ <;> exact fun d =>
    ((dat5 V c).before_in_eq_fetched _ rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp only [before5_in V c t]
  show _ ⊢ wp _ _ _ (bodyAt5 t) _
  iintro ⟨HΦ, Hw, ⟨%_, Hz⟩, ⟨%_, Hm⟩, ⟨%_, Hv⟩, ⟨%_, Hg⟩, ⟨%_, Hb⟩, ⟨%d, Ho⟩⟩
  iapply (cc5_triple c Set.univ (iblk5 V c 0 t) ((dat5 V c).before 5 t d) (iblk5 V c 1 t) (iblk5 V c 2 t) (iblk5 V c 3 t)
    (iblk5 V c 4 t) _)
  iframe Hz Hm Hv Hg Hb Ho
  iintro ⟨Hz, Hm, Hv, Hg, Hb, Ho⟩
  dsimp only [dat5]
  isplitl [HΦ]; · iexact HΦ
  isplitl [Hw]; · iexact Hw
  iframe

end Cert.Kernel.Hand
-- ==== Proof.K.Chain5.lean ====
import proofs.«137621_j4303557230930_1_alg».proof.Proof.K.Chain4
import proofs.«137621_j4303557230930_1_alg».proof.Proof.K.Bn5

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

abbrev entryVal5 (c : Dev nD) : Valuation τ sig (Elt F) := StableHlo.after hostOps5 (exitVal4 m c)
abbrev entry5 : (c : Dev nD) → (b : Ref sig .tc) → Buf (Elt F) ((c : Thread nD τ).loc b) := fun c b => entryVal5 m c b
def exitVal5 (c : Dev nD) : Valuation τ sig (Elt F) :=
  Pipeline.withArrays spec5 c (entryVal5 m c) fun w => (dat5 (entry5 m) c).arrAt w cfg5.N
theorem exitVal5_arr (c : Dev nD) (w : Fin cfg5.W) :
    exitVal5 m c (Proc.devRef .tc (Pipeline.arrRef spec5 w)) = (dat5 (entry5 m) c).arrAt w cfg5.N :=
  Pipeline.withArrays_arr spec5 launch5.win.arr_inj c _ _ w

end Cert.Kernel.Hand

end
-- ==== Proof.K.Family.lean ====
import proofs.«137621_j4303557230930_1_alg».proof.Proof.K.Chain5

set_option maxRecDepth 16384

noncomputable section

namespace Cert.Kernel.Hand

open Cert.Kernel Cert.Kernel.Gen
open Idealize.ShloMosaic Idealize.ShloMosaic.TcCoe
open Idealize.SL Idealize.SL.BI Idealize.SL.BI.BIBase
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
  | ⟨4, _⟩ => fun c => dat4 (entry4 m) c
  | ⟨5, _⟩ => fun c => dat5 (entry5 m) c
abbrev noVariants : Variants := Variants.none
abbrev noLevels : GSem nD τ sig → Finset Unit := fun _ => ∅
abbrev lvl0 : GSem nD τ sig → Unit → ℕ := fun _ _ => 0
abbrev riding (c : Dev nD) : sProp 𝕄 := iprop((∃ r, prngReg c r) ∗ ∃ W, owes (c : Thread nD τ) (0 : CellTallies nD τ sig Unit) W)

end Cert.Kernel.Hand

end
-- ==== Proof.K.Region.lean ====
import proofs.«137621_j4303557230930_1_alg».proof.Proof.K.Family

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev RegionAt (p : Fin 6) := Pipeline.RegionSeg (pcfgs (F := F)) adm (pdats m) () defs₀ noVariants noLevels lvl0 p

def regionOf {p : Fin 6} (launch : Pipeline.LaunchFacts (nD := nD) (τ := τ) cfgs p) (entryVal exitVal : Dev nD → Valuation τ sig (Elt F))
    (hbody : ∀ c, BodyObligation (pdats m p c) defs₀ noVariants () Set.univ)
    (howed : ∀ c t, (pdats m p c).owed t = 0) (hrec : ∀ c x, x ∈ (pdats m p c).recorded 0)
    (hq : ∀ c w, (pdats m p c).q w = fullShare)
    (hA : ∀ c w, (pdats m p c).A w = entryVal c (Pipeline.arrRef (Pipeline.pin (pcfgs (F := F)) adm p).spec w))
    (hin : ∀ c, Pipeline.ΦA (Pipeline.pin (pcfgs (F := F)) adm p).spec c ⊢ (pdats m p c).Φ 0)
    (hout : ∀ c, (pdats m p c).Φ (Fin.last _) ⊢ Pipeline.ΦA (Pipeline.pin (pcfgs (F := F)) adm p).spec c)
    (harr : ∀ c w, exitVal c (Proc.devRef .tc (Pipeline.arrRef (Pipeline.pin (pcfgs (F := F)) adm p).spec w)) = (pdats m p c).arrAt w (Pipeline.pin (pcfgs (F := F)) adm p).N)
    (hrest : ∀ c b, (∀ w, Pipeline.arrRef (Pipeline.pin (pcfgs (F := F)) adm p).spec w ≠ b) → exitVal c (Proc.devRef .tc b) = entryVal c (Proc.devRef .tc b)) :
    RegionAt m p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ noLevels lvl0 p howed
  pre c := iprop(StableHlo.held (c : Thread nD τ) (Pipeline.ucRefs τ sig) (entryVal c) ∗ riding c)
  post c := iprop(StableHlo.held (c : Thread nD τ) (Pipeline.ucRefs τ sig) (exitVal c) ∗ riding c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => entryVal c b)
  hentry c := by
    unfold Pipeline.Dat.owesAt Pipeline.owesWithin; rw [howed c 0]
    have hsplit := Pipeline.arrays_of_unscopedBufs (p := p) (pcfgs (F := F)) adm (pdats m) launch.win launch.arr_whole c
      ((pdats m p c).share_full (hq c)) (fun b => entryVal c b) (hA c)
    rw [Pipeline.unscopedBufs_held] at hsplit
    iintro ⟨⟨Hub, Hp, %W, HO⟩, -⟩
    ihave H := hsplit $$ Hub
    icases H with ⟨Ha, Hz⟩
    imodintro
    isplitl [Ha]; · iexact Ha
    isplitr; · istop; exact .rfl
    isplitl [HO]
    · iexists W; isplitr; · ipureintro; exact fun _ _ => Or.inl (hrec c _)
      iexact HO
    isplitl [Hp] <;> iassumption
  hin c := ((sep_mono_r ((sep_mono_l affine).trans emp_sep_elim)).trans sep_comm).trans (hin c)
  hout c := by
    rw [Pipeline.ownSems0_none]
    exact (hout c).trans (sep_comm.trans (sep_mono_r emp_sep_intro))
  hexit c := by
    unfold Pipeline.Dat.owesAt Pipeline.owesWithin; rw [howed c (Fin.last _)]
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => entryVal c b) (fun b => exitVal c b) ((pdats m p c).arrAt · (Pipeline.pin (pcfgs (F := F)) adm p).N) (fun w => (harr c w).symm)
      fun b hb => hrest c b fun w e => hb (Finset.mem_image.mpr ⟨w, Finset.mem_univ _, e⟩)
    rw [Pipeline.unscopedBufs_held] at hjoin
    iintro ⟨Ha, ⟨%W, -, HO⟩, HY, Hz⟩
    imodintro
    isplitl [Ha Hz]
    · iapply hjoin; isplitl [Ha] <;> iassumption
    isplitl [HY]; · iexact HY
    iexists W; iexact HO

end Cert.Kernel.Hand

end
-- ==== Proof.K.Reg0.lean ====
import proofs.«137621_j4303557230930_1_alg».proof.Proof.K.Region

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region0 : RegionAt m (p := 0) :=
  regionOf m (p := 0) launch0 (entryVal0 m) (exitVal0 m) (body_obligation0 (entry0 m)) (owed0 (entry0 m)) (fun _ _ => trivial)
    (share0 (entry0 m)) (A_eq0 (entry0 m)) (Phi0_in (entry0 m)) (Phi0_out (entry0 m)) (exitVal0_arr m)
    fun c b hb => Pipeline.withArrays_of_ne spec0 c _ _ b hb

end Cert.Kernel.Hand

end
-- ==== Proof.K.Reg1.lean ====
import proofs.«137621_j4303557230930_1_alg».proof.Proof.K.Region

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region1 : RegionAt m (p := 1) :=
  regionOf m (p := 1) launch1 (entryVal1 m) (exitVal1 m) (body_obligation1 (entry1 m)) (owed1 (entry1 m)) (fun _ _ => trivial)
    (share1 (entry1 m)) (A_eq1 (entry1 m)) (Phi1_in (entry1 m)) (Phi1_out (entry1 m)) (exitVal1_arr m)
    fun c b hb => Pipeline.withArrays_of_ne spec1 c _ _ b hb

end Cert.Kernel.Hand

end
-- ==== Proof.K.Reg2.lean ====
import proofs.«137621_j4303557230930_1_alg».proof.Proof.K.Region

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region2 : RegionAt m (p := 2) :=
  regionOf m (p := 2) launch2 (entryVal2 m) (exitVal2 m) (body_obligation2 (entry2 m)) (owed2 (entry2 m)) (fun _ _ => trivial)
    (share2 (entry2 m)) (A_eq2 (entry2 m)) (Phi2_in (entry2 m)) (Phi2_out (entry2 m)) (exitVal2_arr m)
    fun c b hb => Pipeline.withArrays_of_ne spec2 c _ _ b hb

end Cert.Kernel.Hand

end
-- ==== Proof.K.Reg3.lean ====
import proofs.«137621_j4303557230930_1_alg».proof.Proof.K.Region

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region3 : RegionAt m (p := 3) :=
  regionOf m (p := 3) launch3 (entryVal3 m) (exitVal3 m) (body_obligation3 (entry3 m)) (owed3 (entry3 m)) (fun _ _ => trivial)
    (share3 (entry3 m)) (A_eq3 (entry3 m)) (Phi3_in (entry3 m)) (Phi3_out (entry3 m)) (exitVal3_arr m)
    fun c b hb => Pipeline.withArrays_of_ne spec3 c _ _ b hb

end Cert.Kernel.Hand

end
-- ==== Proof.K.Reg4.lean ====
import proofs.«137621_j4303557230930_1_alg».proof.Proof.K.Region

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region4 : RegionAt m (p := 4) :=
  regionOf m (p := 4) launch4 (entryVal4 m) (exitVal4 m) (body_obligation4 (entry4 m)) (owed4 (entry4 m)) (fun _ _ => trivial)
    (share4 (entry4 m)) (A_eq4 (entry4 m)) (Phi4_in (entry4 m)) (Phi4_out (entry4 m)) (exitVal4_arr m)
    fun c b hb => Pipeline.withArrays_of_ne spec4 c _ _ b hb

end Cert.Kernel.Hand

end
-- ==== Proof.K.Reg5.lean ====
import proofs.«137621_j4303557230930_1_alg».proof.Proof.K.Region

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region5 : RegionAt m (p := 5) :=
  regionOf m (p := 5) launch5 (entryVal5 m) (exitVal5 m) (body_obligation5 (entry5 m)) (owed5 (entry5 m)) (fun _ _ => trivial)
    (share5 (entry5 m)) (A_eq5 (entry5 m)) (Phi5_in (entry5 m)) (Phi5_out (entry5 m)) (exitVal5_arr m)
    fun c b hb => Pipeline.withArrays_of_ne spec5 c _ _ b hb

end Cert.Kernel.Hand

end
-- ==== Proof.K.Kept.lean ====
import proofs.«137621_j4303557230930_1_alg».proof.Proof.Gen.Kernel.Regions
import proofs.«137621_j4303557230930_1_alg».proof.Proof.K.Chain5

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

abbrev argRefs : List (Ref sig .tc) :=
  [main_arg0, main_arg1, main_arg2, main_arg3, main_arg4, main_arg5, main_arg6, main_arg7]

abbrev edgeRefs : List (Ref sig .tc) := [main_v1, main_v3]

theorem keep {gr n : ℕ} {win : Fin n → Pipeline.WinSpec sig gr} {ops : List (HloOp τ sig (Elt F))} {W L : List (Ref sig .tc)}
    (hW : ops.Forall fun op => op.writes ⊆ (W.map (Proc.devRef (τ := τ) .tc)).toFinset)
    (h : ∀ r ∈ L, r ∉ W ∧ ∀ w, Pipeline.arrRef win w ≠ r) {c : Dev nD} {V : Valuation τ sig (Elt F)} {A} {r : Ref sig .tc} (hr : r ∈ L) :
    Pipeline.withArrays win c (StableHlo.after ops V) A (Proc.devRef .tc r) = V (Proc.devRef .tc r) :=
  (Pipeline.withArrays_of_ne win c _ A r (h r hr).2).trans (StableHlo.after_of_writes_sub ops V hW (h r hr).1)

theorem kept0_args (c : Dev nD) (r : Ref sig .tc) (hr : r ∈ argRefs) :
    exitVal0 m c (Proc.devRef .tc r) = m ((c : Thread nD τ).loc r) := by
  rcases List.mem_cons.mp hr with rfl | hr'
  · exact (exitVal0_arr m c 0).trans <| ((dat0 (entry0 m) c).arrAt_in 0 rfl _).trans <| (A_eq0 (entry0 m) c 0).trans <|
      StableHlo.after_of_writes_sub hostOps0 _ hostOps0_writes (by decide)
  · exact keep (win := spec0) hostOps0_writes (by decide) hr'

theorem kept1_args (c : Dev nD) (r : Ref sig .tc) (hr : r ∈ argRefs) :
    exitVal1 m c (Proc.devRef .tc r) = m ((c : Thread nD τ).loc r) :=
  (keep (win := spec1) hostOps1_writes (by decide) hr).trans (kept0_args m c r hr)

theorem kept2_args (c : Dev nD) (r : Ref sig .tc) (hr : r ∈ argRefs) :
    exitVal2 m c (Proc.devRef .tc r) = m ((c : Thread nD τ).loc r) :=
  (keep (win := spec2) hostOps2_writes (by decide) hr).trans (kept1_args m c r hr)

theorem kept3_args (c : Dev nD) (r : Ref sig .tc) (hr : r ∈ argRefs) :
    exitVal3 m c (Proc.devRef .tc r) = m ((c : Thread nD τ).loc r) :=
  (keep (win := spec3) hostOps3_writes (by decide) hr).trans (kept2_args m c r hr)

theorem kept4_args (c : Dev nD) (r : Ref sig .tc) (hr : r ∈ argRefs) :
    exitVal4 m c (Proc.devRef .tc r) = m ((c : Thread nD τ).loc r) :=
  (keep (win := spec4) hostOps4_writes (by decide) hr).trans (kept3_args m c r hr)

theorem kept5_args (c : Dev nD) (r : Ref sig .tc) (hr : r ∈ argRefs) :
    exitVal5 m c (Proc.devRef .tc r) = m ((c : Thread nD τ).loc r) :=
  (keep (win := spec5) hostOps5_writes (by decide) hr).trans (kept4_args m c r hr)

theorem kept1_edges (c : Dev nD) (r : Ref sig .tc) (hr : r ∈ edgeRefs) :
    exitVal1 m c (Proc.devRef .tc r) = entryVal0 m c (Proc.devRef .tc r) :=
  (keep (win := spec1) hostOps1_writes (by decide) hr).trans
    (Pipeline.withArrays_of_ne spec0 c _ _ r ((by decide : ∀ r ∈ edgeRefs, ∀ w, Pipeline.arrRef spec0 w ≠ r) r hr))

theorem kept3_edges (c : Dev nD) (r : Ref sig .tc) (hr : r ∈ edgeRefs) :
    exitVal3 m c (Proc.devRef .tc r) = entryVal0 m c (Proc.devRef .tc r) :=
  (keep (win := spec3) hostOps3_writes (by decide) hr).trans <|
    (keep (win := spec2) hostOps2_writes (by decide) hr).trans (kept1_edges m c r hr)

end Cert.Kernel.Hand

end
-- ==== Proof.KI.Stats0Runs.lean ====
import proofs.«137621_j4303557230930_1_alg».proof.Proof.Gen.KernelIdeal.Launch
import proofs.«137621_j4303557230930_1_alg».proof.Proof.Gen.KernelIdeal.Skeleton
import proofs.«137621_j4303557230930_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable {c : Dev nD} (dat : Dat τ (Elt F) Unit ℕ (UR sig nD τ) ℕ cfg0 c)

-- When the data's array is `V`'s, its block at every point is the block read off `V`.
variable {V dat} in
theorem iblkEq0 {w : Fin cfg0.W} (hA : dat.A w = V c (Pipeline.arrRef spec0 w)) : iblk0 V c w = dat.blockOf w :=
  funext fun t => by unfold Dat.blockOf iblk0; rw [hA]

theorem held0_0 (hA : dat.A 0 = V c (Pipeline.arrRef spec0 0)) (hafter : ∀ t, dat.after 0 t = iblk0 V c 0 t)
    (t : Fin cfg0.N) (d) : dat.before 0 t d = iblk0 V c 0 t :=
  iblkEq0 hA ▸ dat.before_in_eq_fetched 0 rfl (fun _ => rfl) (fun _ _ _ => rfl) (iblkEq0 hA ▸ hafter) t d

theorem held0_1 (hA : dat.A 1 = V c (Pipeline.arrRef spec0 1)) (hafter : ∀ t, dat.after 1 t = iblk0 V c 1 t)
    (t : Fin cfg0.N) (d) : dat.before 1 t d = iblk0 V c 1 t :=
  iblkEq0 hA ▸ dat.before_in_eq_fetched 1 rfl (fun _ => rfl) (fun _ _ _ => rfl) (iblkEq0 hA ▸ hafter) t d

theorem held0_2 (hA : dat.A 2 = V c (Pipeline.arrRef spec0 2)) (hafter : ∀ t, dat.after 2 t = iblk0 V c 2 t)
    (t : Fin cfg0.N) (d) : dat.before 2 t d = iblk0 V c 2 t :=
  iblkEq0 hA ▸ dat.before_in_eq_fetched 2 rfl (fun _ => rfl) (fun _ _ _ => rfl) (iblkEq0 hA ▸ hafter) t d

theorem held0_3 (hA : dat.A 3 = V c (Pipeline.arrRef spec0 3)) (hafter : ∀ t, dat.after 3 t = iblk0 V c 3 t)
    (t : Fin cfg0.N) (d) : dat.before 3 t d = iblk0 V c 3 t :=
  iblkEq0 hA ▸ dat.before_in_eq_fetched 3 rfl (fun _ => rfl) (fun _ _ _ => rfl) (iblkEq0 hA ▸ hafter) t d

theorem held0_4 (hA : dat.A 4 = V c (Pipeline.arrRef spec0 4)) (hafter : ∀ t, dat.after 4 t = iblk0 V c 4 t)
    (t : Fin cfg0.N) (d) : dat.before 4 t d = iblk0 V c 4 t :=
  iblkEq0 hA ▸ dat.before_in_eq_fetched 4 rfl (fun _ => rfl) (fun _ _ _ => rfl) (iblkEq0 hA ▸ hafter) t d

theorem held0_5 (hA : dat.A 5 = V c (Pipeline.arrRef spec0 5)) (hafter : ∀ t, dat.after 5 t = iblk0 V c 5 t)
    (t : Fin cfg0.N) (d) : dat.before 5 t d = iblk0 V c 5 t :=
  iblkEq0 hA ▸ dat.before_in_eq_fetched 5 rfl (fun _ => rfl) (fun _ _ _ => rfl) (iblkEq0 hA ▸ hafter) t d

end Blocks

abbrev atFirst0 (i : grid0.Coords) : Prop :=
  (Scalar.cmpi .ne (Scalar.extui (Scalar.cmpi .eq (BitVec.ofNat 32 (i 0).val) 0#32)) 0#32) = 1#1

abbrev atLast0 (i : grid0.Coords) : Prop := k0_cond2 i = 1#1

theorem atFirst0_iff : ∀ t : Fin cfg0.N, atFirst0 (grid0.coords t) ↔ t.val = 0 :=
  by decide +kernel

theorem atLast0_iff : ∀ t : Fin cfg0.N, atLast0 (grid0.coords t) ↔ t.val = 49 :=
  by decide +kernel

theorem idle0_7 : ∀ t : Fin cfg0.N, ¬atLast0 (grid0.coords t) → cfg0.idle 7 (grid0.coords t) = true := by decide +kernel
theorem keep0_7 : ∀ t : Fin cfg0.N, ¬atLast0 (grid0.coords t) → (cfg0.win 7).flush t = false := by decide +kernel
theorem live0_7 : ∀ t : Fin cfg0.N, atLast0 (grid0.coords t) → cfg0.idle 7 (grid0.coords t) = false := by decide +kernel
theorem idle0_8 : ∀ t : Fin cfg0.N, ¬atLast0 (grid0.coords t) → cfg0.idle 8 (grid0.coords t) = true := by decide +kernel
theorem keep0_8 : ∀ t : Fin cfg0.N, ¬atLast0 (grid0.coords t) → (cfg0.win 8).flush t = false := by decide +kernel
theorem live0_8 : ∀ t : Fin cfg0.N, atLast0 (grid0.coords t) → cfg0.idle 8 (grid0.coords t) = false := by decide +kernel

abbrev sumRef0 : Memref sig .tc .vmem S1x128 .f32 := Memref.whole cc0_scratch0
abbrev sqRef0 : Memref sig .tc .vmem S1x128 .f32 := Memref.whole cc0_scratch1

theorem ownsUnread0 (c : Dev nD) {sp sh e} {m : Memref sig .tc sp sh e} (h : m.IsWhole) (q X) :
    (owns (c : Thread nD τ) m q X : sProp 𝕄) = (m.view.loc (c : Thread nD τ) ↦[m.view.set]{q} h.unread X) :=
  BI.equiv_iff.mp ⟨by show (_ : sProp 𝕄) ⊢ _; unfold owns; iintro ⟨%f, %hf, H⟩; rw [h.eq_unread hf]; iexact H,
    by show (_ : sProp 𝕄) ⊢ _; simpa only [h.read_unread] using owns_intro (c : Thread nD τ) m q (h.unread X)⟩

theorem PhiA0_split (c : Dev nD) :
    (Pipeline.ΦA spec0 c : sProp 𝕄)
      = iprop(iprop(iprop((∃ d, owns (c : Thread nD τ) sumRef0 fullShare d) ∗ (∃ d, owns (c : Thread nD τ) sqRef0 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [sumRef0, sqRef0, owns_whole]; try rfl

end Cert.KernelIdeal.Hand

end
-- ==== Proof.KI.Stats0RunA.lean ====
import proofs.«137621_j4303557230930_1_alg».proof.Proof.KI.Stats0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runFirst0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : atFirst0 i) (hlast : ¬atLast0 i) (x1 : Vec F S2000x128 .f32) (x2 : Vec F S2000x128 .f32) (x3 : Vec F S128x128 .f32) (x4 : Vec F S1x128 .f32) (x5 : Vec F S128x128 .f32) (x6 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc0__mlp_stats_kernel_eq_skeleton, cc0__mlp_stats_kernel_skel]
    simp (disch := assumption) only [k0_part1_eq_skeleton, ownsUnread0]
    iintro ⟨H1, H2, H3, H4, H5, H6, ⟨%d7, H7⟩, H8, H9, ⟨%d10, H10⟩, ⟨%d11, H11⟩, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.KernelIdeal.Hand

end
-- ==== Proof.KI.Stats0RunB.lean ====
import proofs.«137621_j4303557230930_1_alg».proof.Proof.KI.Stats0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runMid0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst0 i) (hlast : ¬atLast0 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc0__mlp_stats_kernel_eq_skeleton, cc0__mlp_stats_kernel_skel]
    simp (disch := assumption) only [k0_part1_eq_skeleton, ownsUnread0]
    iintro ⟨H1, H2, H3, H4, H5, H6, ⟨%d7, H7⟩, H8, H9, H10, H11, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.KernelIdeal.Hand

end
-- ==== Proof.KI.Stats0RunC.lean ====
import proofs.«137621_j4303557230930_1_alg».proof.Proof.KI.Stats0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runLast0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst0 i) (hlast : atLast0 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsumo : List (View.Piece (Elt F) S1x128 .f32)) (Lsqo : List (View.Piece (Elt F) S1x128 .f32)) (Lsum : List (View.Piece (Elt F) S1x128 .f32)), { Lsq : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ (∃ f, arg8.view.loc (c : Thread nD τ) ↦[arg8.view.set]{fullShare} arg8.view.writes (Elt F) f Lsumo) ∗ (∃ f, arg9.view.loc (c : Thread nD τ) ↦[arg9.view.set]{fullShare} arg9.view.writes (Elt F) f Lsqo)
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    rw [cc0__mlp_stats_kernel_eq_skeleton, cc0__mlp_stats_kernel_skel]
    simp (disch := assumption) only [k0_part1_eq_skeleton, ownsUnread0]
    iintro ⟨H1, H2, H3, H4, H5, H6, ⟨%d7, H7⟩, ⟨%d8, H8⟩, ⟨%d9, H9⟩, H10, H11, Hk⟩
    sl_exec (disch := first | exact hfirst | exact hlast)
    sl_step
    iapply Hk
    iframe H1 H2 H3 H4 H5 H6
    isplitl [H7]; iexists _; iexact H7
    isplitl [H8]; iexists _; iexact H8
    isplitl [H9]; iexists _; iexact H9
    isplitl [H10]; iexists _; iexact H10
    iexists _; iexact H11

end Cert.KernelIdeal.Hand

end
-- ==== Proof.KI.Stats0.lean ====
import proofs.«137621_j4303557230930_1_alg».proof.Proof.KI.Stats0RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

abbrev firstAt0 (c : Dev nD) (t : Fin cfg0.N) (hf : atFirst0 (grid0.coords t)) (hl : ¬atLast0 (grid0.coords t)) :=
  runFirst0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sumRef0 (Memref.isWhole_whole _) sqRef0 (Memref.isWhole_whole _) hf hl (iblk0 V c 0 t) (iblk0 V c 1 t) (iblk0 V c 2 t) (iblk0 V c 3 t) (iblk0 V c 4 t) (iblk0 V c 5 t)

abbrev midAt0 (c : Dev nD) (t : Fin cfg0.N) (hf : ¬atFirst0 (grid0.coords t)) (hl : ¬atLast0 (grid0.coords t)) (s10 s11 : Vec F S1x128 .f32) :=
  runMid0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sumRef0 (Memref.isWhole_whole _) sqRef0 (Memref.isWhole_whole _) hf hl (iblk0 V c 0 t) (iblk0 V c 1 t) (iblk0 V c 2 t) (iblk0 V c 3 t) (iblk0 V c 4 t) (iblk0 V c 5 t) s10 s11

abbrev lastAt0 (c : Dev nD) (t : Fin cfg0.N) (hf : ¬atFirst0 (grid0.coords t)) (hl : atLast0 (grid0.coords t)) (s10 s11 : Vec F S1x128 .f32) :=
  runLast0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sumRef0 (Memref.isWhole_whole _) sqRef0 (Memref.isWhole_whole _) hf hl (iblk0 V c 0 t) (iblk0 V c 1 t) (iblk0 V c 2 t) (iblk0 V c 3 t) (iblk0 V c 4 t) (iblk0 V c 5 t) s10 s11

/-- Writes whose pieces tile the shape read back as their canonical contents, whatever was there before. -/
theorem owns_of_stores0 {sh : Shape} (c : Dev nD) (m : Memref sig .tc .vmem sh .f32) (L : List (View.Piece (Elt F) sh .f32))
    (h : View.Piece.tiledL L sh.size = true) :
    (iprop(∃ f, m.view.loc (c : Thread nD τ) ↦[m.view.set]{fullShare} m.view.writes (Elt F) f L) : sProp 𝕄)
      ⊢ owns (c : Thread nD τ) m fullShare (View.canon L) := by
  unfold owns
  iintro ⟨%f, H⟩
  iexists _; isplitr
  swap; · iexact H
  ipureintro; exact View.read_writes_eq_canon _ _ _ (View.cover_of_tiledL _ _ h)

def idleRow0 : Vec F S1x128 .f32 := View.canon []

def firstOuts0 (c : Dev nD) (t : Fin cfg0.N) (hf : atFirst0 (grid0.coords t)) (hl : ¬atLast0 (grid0.coords t)) : Vec F S2000x128 .f32 × Vec F S1x128 .f32 × Vec F S1x128 .f32 × Vec F S1x128 .f32 × Vec F S1x128 .f32 :=
  (View.canon (firstAt0 V c t hf hl).1, idleRow0, idleRow0, View.canon (firstAt0 V c t hf hl).2.1, View.canon (firstAt0 V c t hf hl).2.2.1)

def midOuts0 (c : Dev nD) (t : Fin cfg0.N) (hf : ¬atFirst0 (grid0.coords t)) (hl : ¬atLast0 (grid0.coords t)) (s10 s11 : Vec F S1x128 .f32) : Vec F S2000x128 .f32 × Vec F S1x128 .f32 × Vec F S1x128 .f32 × Vec F S1x128 .f32 × Vec F S1x128 .f32 :=
  (View.canon (midAt0 V c t hf hl s10 s11).1, idleRow0, idleRow0, View.canon (midAt0 V c t hf hl s10 s11).2.1, View.canon (midAt0 V c t hf hl s10 s11).2.2.1)

def lastOuts0 (c : Dev nD) (t : Fin cfg0.N) (hf : ¬atFirst0 (grid0.coords t)) (hl : atLast0 (grid0.coords t)) (s10 s11 : Vec F S1x128 .f32) : Vec F S2000x128 .f32 × Vec F S1x128 .f32 × Vec F S1x128 .f32 × Vec F S1x128 .f32 × Vec F S1x128 .f32 :=
  (View.canon (lastAt0 V c t hf hl s10 s11).1, View.canon (lastAt0 V c t hf hl s10 s11).2.1, View.canon (lastAt0 V c t hf hl s10 s11).2.2.1,
    View.canon (lastAt0 V c t hf hl s10 s11).2.2.2.1, View.canon (lastAt0 V c t hf hl s10 s11).2.2.2.2.1)

def outsAt0 (c : Dev nD) : (n : ℕ) → n < cfg0.N → Vec F S2000x128 .f32 × Vec F S1x128 .f32 × Vec F S1x128 .f32 × Vec F S1x128 .f32 × Vec F S1x128 .f32
  | 0, hn => firstOuts0 V c ⟨0, hn⟩ ((atFirst0_iff ⟨0, hn⟩).mpr rfl) (fun h => absurd ((atLast0_iff ⟨0, hn⟩).mp h) (show ¬(0 : ℕ) = 49 by decide))
  | n + 1, hn =>
    if h : n + 1 = 49 then
      lastOuts0 V c ⟨n + 1, hn⟩ (fun h' => Nat.succ_ne_zero n ((atFirst0_iff ⟨n + 1, hn⟩).mp h')) ((atLast0_iff ⟨n + 1, hn⟩).mpr h)
        (outsAt0 c n (Nat.lt_of_succ_lt hn)).2.2.2.1 (outsAt0 c n (Nat.lt_of_succ_lt hn)).2.2.2.2
    else
      midOuts0 V c ⟨n + 1, hn⟩ (fun h' => Nat.succ_ne_zero n ((atFirst0_iff ⟨n + 1, hn⟩).mp h')) (fun h' => h ((atLast0_iff ⟨n + 1, hn⟩).mp h'))
        (outsAt0 c n (Nat.lt_of_succ_lt hn)).2.2.2.1 (outsAt0 c n (Nat.lt_of_succ_lt hn)).2.2.2.2

theorem outsAt0_first (c : Dev nD) (t : Fin cfg0.N) (h : t.val = 0) :
    outsAt0 V c t.val t.isLt = firstOuts0 V c t ((atFirst0_iff t).mpr h) (fun h' => by have := (atLast0_iff t).mp h'; omega) := by
  obtain ⟨n, hn⟩ := t
  cases n with
  | zero => rfl
  | succ n => exact absurd h (Nat.succ_ne_zero n)

theorem outsAt0_mid (c : Dev nD) (t : Fin cfg0.N) (h0 : 0 < t.val) (h49 : t.val < 49) :
    outsAt0 V c t.val t.isLt = midOuts0 V c t (fun h' => by have := (atFirst0_iff t).mp h'; omega) (fun h' => by have := (atLast0_iff t).mp h'; omega)
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd h0 (Nat.lt_irrefl 0)
  | succ n => exact (dif_neg (fun e : n + 1 = 49 => by have : n + 1 < 49 := h49; omega)).trans rfl

theorem outsAt0_last (c : Dev nD) (t : Fin cfg0.N) (h : t.val = 49) :
    outsAt0 V c t.val t.isLt = lastOuts0 V c t (fun h' => by have := (atFirst0_iff t).mp h'; omega) ((atLast0_iff t).mpr h)
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd h (show ¬(0 : ℕ) = 49 by decide)
  | succ n => exact (dif_pos (show n + 1 = 49 from h)).trans rfl

abbrev restBut0 (c : Dev nD) : sProp 𝕄 :=
  Pipeline.scopedRestBut (Ix := Unit) (Name := ℕ) (U := UR sig nD τ) (Lvl := ℕ) (Val := Elt F) spec0 c [cc0_scratch0, cc0_scratch1]

def inv0 (c : Dev nD) : (n : ℕ) → n ≤ cfg0.N → sProp 𝕄
  | 0, _ => Pipeline.ΦA spec0 c
  | n + 1, hn => iprop(iprop(iprop(owns (c : Thread nD τ) sumRef0 fullShare (outsAt0 V c n hn).2.2.2.1
      ∗ owns (c : Thread nD τ) sqRef0 fullShare (outsAt0 V c n hn).2.2.2.2) ∗ restBut0 c) ∗ (∃ r, prngReg c r))

theorem inv0_zero (c : Dev nD) (n : ℕ) (h : n ≤ cfg0.N) (hz : n = 0) : inv0 V c n h = Pipeline.ΦA spec0 c := by
  subst hz; rfl

theorem inv0_pos (c : Dev nD) (n : ℕ) (h : n ≤ cfg0.N) (hz : n ≠ 0) :
    inv0 V c n h = iprop(iprop(iprop(owns (c : Thread nD τ) sumRef0 fullShare (outsAt0 V c (n - 1) (by omega)).2.2.2.1
      ∗ owns (c : Thread nD τ) sqRef0 fullShare (outsAt0 V c (n - 1) (by omega)).2.2.2.2) ∗ restBut0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).q w = fullShare := by
  dsimp only [dat0]

theorem owed0 (c : Dev nD) (t : Fin (cfg0.N + 1)) : (dat0 V c).owed t = 0 := by
  dsimp only [dat0]

theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

/-- The frame rule around a run: what the run leaves alone is carried across, what it returns is weakened piece by piece. -/
theorem frame_run0 {T0 T1 T2 T3 T4 T5 T6 T7 T8 : Type} {A0 A1 A2 A3 A4 A5 X6 PS PQ R G O W6 WS WQ B6 B7 B8 BS BQ : sProp 𝕄}
    {A6 : T6 → sProp 𝕄} {A7 X7 Y7 : T7 → sProp 𝕄} {A8 X8 Y8 : T8 → sProp 𝕄} {c : Dev nD} {p : Prog (TpuEff nD τ sig (Elt F) Λ₀ .tc) PUnit}
    (run : ∀ d7 d8 (K : PUnit → sProp 𝕄), iprop(A0 ∗ A1 ∗ A2 ∗ A3 ∗ A4 ∗ A5 ∗ X6 ∗ X7 d7 ∗ X8 d8 ∗ PS ∗ PQ
      ∗ (iprop(A0 ∗ A1 ∗ A2 ∗ A3 ∗ A4 ∗ A5 ∗ W6 ∗ Y7 d7 ∗ Y8 d8 ∗ WS ∗ WQ) -∗ K ⟨⟩))
        ⊢ wp frame (wpE (defs₀ (F := F)) Variants.none c none) Set.univ p K)
    (h6 : ∀ d, A6 d ⊢ X6) (h7 : ∀ d, A7 d ⊢ X7 d) (h8 : ∀ d, A8 d ⊢ X8 d)
    (k6 : W6 ⊢ B6) (k7 : ∀ d, Y7 d ⊢ B7) (k8 : ∀ d, Y8 d ⊢ B8) (kS : WS ⊢ BS) (kQ : WQ ⊢ BQ) :
    iprop(iprop(iprop(iprop(PS ∗ PQ) ∗ R) ∗ G) ∗ O ∗ (∃ _ : T0, A0) ∗ (∃ _ : T1, A1) ∗ (∃ _ : T2, A2) ∗ (∃ _ : T3, A3) ∗ (∃ _ : T4, A4)
        ∗ (∃ _ : T5, A5) ∗ (∃ d, A6 d) ∗ (∃ d, A7 d) ∗ (∃ d, A8 d))
      ⊢ wp frame (wpE (defs₀ (F := F)) Variants.none c none) Set.univ p fun _ =>
        iprop(iprop(iprop(iprop(BS ∗ BQ) ∗ R) ∗ G) ∗ O ∗ A0 ∗ A1 ∗ A2 ∗ A3 ∗ A4 ∗ A5 ∗ B6 ∗ B7 ∗ B8) := by
  iintro ⟨⟨⟨⟨HS, HQ⟩, HR⟩, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run d7 d8 _)
  iframe H0 H1 H2 H3 H4 H5 HS HQ
  isplitl [H6]; · iapply (h6 d6); iexact H6
  isplitl [H7]; · iapply (h7 d7); iexact H7
  isplitl [H8]; · iapply (h8 d8); iexact H8
  iintro ⟨H0, H1, H2, H3, H4, H5, W6, W7, W8, WS, WQ⟩
  iframe H0 H1 H2 H3 H4 H5 HR HG HO
  isplitl [WS WQ]
  · isplitl [WS]
    · iapply kS; iexact WS
    · iapply kQ; iexact WQ
  isplitl [W6]; · iapply k6; iexact W6
  isplitl [W7]; · iapply (k7 d7); iexact W7
  iapply (k8 d8); iexact W8

set_option maxHeartbeats 3200000 in
/-- The body at any point is the run of that point's control case, framed. -/
theorem body_at0 (c : Dev nD) (t : Fin cfg0.N) :
    iprop(inv0 V c t.val (Nat.le_of_lt t.isLt) ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d))
      ∗ (∃ d, owns (c : Thread nD τ) (win0_2.stage (cfg0.slots t 2)) fullShare ((dat0 V c).before 2 t d))
      ∗ (∃ d, owns (c : Thread nD τ) (win0_3.stage (cfg0.slots t 3)) fullShare ((dat0 V c).before 3 t d))
      ∗ (∃ d, owns (c : Thread nD τ) (win0_4.stage (cfg0.slots t 4)) fullShare ((dat0 V c).before 4 t d))
      ∗ (∃ d, owns (c : Thread nD τ) (win0_5.stage (cfg0.slots t 5)) fullShare ((dat0 V c).before 5 t d))
      ∗ (∃ d, owns (c : Thread nD τ) (win0_6.stage (cfg0.slots t 6)) fullShare ((dat0 V c).before 6 t d))
      ∗ (∃ d, owns (c : Thread nD τ) (win0_7.stage (cfg0.slots t 7)) fullShare ((dat0 V c).before 7 t d))
      ∗ (∃ d, owns (c : Thread nD τ) (win0_8.stage (cfg0.slots t 8)) fullShare ((dat0 V c).before 8 t d)))
    ⊢ wp frame (wpE (defs₀ (F := F)) Variants.none c none) Set.univ (bodyAt0 t) fun _ =>
      iprop(iprop(iprop(iprop(owns (c : Thread nD τ) sumRef0 fullShare (outsAt0 V c t.val t.isLt).2.2.2.1
          ∗ owns (c : Thread nD τ) sqRef0 fullShare (outsAt0 V c t.val t.isLt).2.2.2.2) ∗ restBut0 c) ∗ (∃ r, prngReg c r))
        ∗ (dat0 V c).owesAt () t.castSucc
        ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t
        ∗ owns (c : Thread nD τ) (win0_6.stage (cfg0.slots t 6)) fullShare (outsAt0 V c t.val t.isLt).1
        ∗ (dat0 V c).leavesExact 7 t ∗ (dat0 V c).leavesExact 8 t) := by
  have hN : t.val < 50 := lt_of_lt_of_eq t.isLt N_0
  unfold bodyAt0
  simp only [held0_0 V (dat0 V c) (A_eq0 V c 0) (fun _ => rfl), held0_1 V (dat0 V c) (A_eq0 V c 1) (fun _ => rfl),
    held0_2 V (dat0 V c) (A_eq0 V c 2) (fun _ => rfl), held0_3 V (dat0 V c) (A_eq0 V c 3) (fun _ => rfl),
    held0_4 V (dat0 V c) (A_eq0 V c 4) (fun _ => rfl), held0_5 V (dat0 V c) (A_eq0 V c 5) (fun _ => rfl)]
  by_cases h0 : t.val = 0
  · have hf := (atFirst0_iff t).mpr h0
    have hl : ¬atLast0 (grid0.coords t) := fun h' => by have := (atLast0_iff t).mp h'; omega
    rw [inv0_zero V c _ _ h0, PhiA0_split, Dat.leavesExact_idle (dat0 V c) 7 t (idle0_7 t hl) (keep0_7 t hl),
      Dat.leavesExact_idle (dat0 V c) 8 t (idle0_8 t hl) (keep0_8 t hl), outsAt0_first V c t h0]
    unfold firstOuts0; dsimp only
    exact frame_run0 (fun d7 d8 K => (firstAt0 V c t hf hl).2.2.2 ((dat0 V c).before 7 t d7) ((dat0 V c).before 8 t d8) Set.univ K)
      (fun _ => by iintro H; iexists _; iexact H) (fun _ => by iintro H; iexact H) (fun _ => by iintro H; iexact H) (owns_of_stores0 c _ _ (by sl_kernel_rfl)) (fun _ => by iintro H; iexists _; iexact H) (fun _ => by iintro H; iexists _; iexact H) (owns_of_stores0 c _ _ (by sl_kernel_rfl)) (owns_of_stores0 c _ _ (by sl_kernel_rfl))
  have hf : ¬atFirst0 (grid0.coords t) := fun h' => h0 ((atFirst0_iff t).mp h')
  rw [inv0_pos V c _ _ h0]
  by_cases h49 : t.val = 49
  · have hl := (atLast0_iff t).mpr h49
    rw [show (dat0 V c).leavesExact 7 t = owns (c : Thread nD τ) (win0_7.stage (cfg0.slots t 7)) fullShare ((dat0 V c).after 7 t) from by
        unfold Dat.leavesExact; rw [live0_7 t hl], after0_7,
      show (dat0 V c).leavesExact 8 t = owns (c : Thread nD τ) (win0_8.stage (cfg0.slots t 8)) fullShare ((dat0 V c).after 8 t) from by
        unfold Dat.leavesExact; rw [live0_8 t hl], after0_8, outsAt0_last V c t h49]
    unfold lastOuts0; dsimp only
    exact frame_run0 (fun _ _ K => (lastAt0 V c t hf hl _ _).2.2.2.2.2 Set.univ K)
      (fun _ => by iintro H; iexists _; iexact H) (fun _ => by iintro H; iexists _; iexact H) (fun _ => by iintro H; iexists _; iexact H) (owns_of_stores0 c _ _ (by sl_kernel_rfl)) (fun _ => owns_of_stores0 c _ _ (by sl_kernel_rfl)) (fun _ => owns_of_stores0 c _ _ (by sl_kernel_rfl)) (owns_of_stores0 c _ _ (by sl_kernel_rfl)) (owns_of_stores0 c _ _ (by sl_kernel_rfl))
  have hl : ¬atLast0 (grid0.coords t) := fun h' => h49 ((atLast0_iff t).mp h')
  rw [Dat.leavesExact_idle (dat0 V c) 7 t (idle0_7 t hl) (keep0_7 t hl), Dat.leavesExact_idle (dat0 V c) 8 t (idle0_8 t hl) (keep0_8 t hl),
    outsAt0_mid V c t (Nat.pos_of_ne_zero h0) (by omega)]
  unfold midOuts0; dsimp only
  exact frame_run0 (fun d7 d8 K => (midAt0 V c t hf hl _ _).2.2.2 ((dat0 V c).before 7 t d7) ((dat0 V c).before 8 t d8) Set.univ K)
    (fun _ => by iintro H; iexists _; iexact H) (fun _ => by iintro H; iexact H) (fun _ => by iintro H; iexact H) (owns_of_stores0 c _ _ (by sl_kernel_rfl)) (fun _ => by iintro H; iexists _; iexact H) (fun _ => by iintro H; iexists _; iexact H) (owns_of_stores0 c _ _ (by sl_kernel_rfl)) (owns_of_stores0 c _ _ (by sl_kernel_rfl))

theorem body_obligation0 (c : Dev nD) : BodyObligation (dat0 (F := F) V c) (defs₀ (F := F)) Variants.none () Set.univ := fun t => by
  rw [bigSep_W0, bigSep_W0]
  exact body_at0 V c t

theorem Phi0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- Every later invariant weakens to the entry one by forgetting what the accumulators hold. -/
theorem Phi0_back (c : Dev nD) (t : Fin (cfg0.N + 1)) (ht : t.val ≠ 0) : (dat0 V c).Φ t ⊢ Pipeline.ΦA spec0 c := by
  rw [show (dat0 V c).Φ t = inv0 V c t.val (Nat.le_of_lt_succ t.isLt) from rfl, inv0_pos V c _ _ ht, PhiA0_split]
  iintro ⟨⟨⟨HS, HQ⟩, HR⟩, Hg⟩
  isplitl [HS HQ HR]
  · isplitl [HS HQ]
    · isplitl [HS]
      · iexists _; iexact HS
      · iexists _; iexact HQ
    · iexact HR
  · iexact Hg

theorem Phi0_out (c : Dev nD) : (dat0 V c).Φ (Fin.last cfg0.N) ⊢ Pipeline.ΦA spec0 c :=
  Phi0_back V c _ (by rw [Fin.val_last]; have : cfg0.N = 50 := N_0; omega)

end Region

end Cert.KernelIdeal.Hand

end
-- ==== Proof.KI.Chain0.lean ====
import proofs.«137621_j4303557230930_1_alg».proof.Proof.KI.Stats0
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

abbrev launchVal (c : Dev nD) : Valuation τ sig (Elt F) := fun b => m (c, b)
abbrev entryVal0 (c : Dev nD) : Valuation τ sig (Elt F) := StableHlo.after hostOps0 (launchVal m c)
abbrev entry0 : (c : Dev nD) → (b : Ref sig .tc) → Buf (Elt F) ((c : Thread nD τ).loc b) := fun c b => entryVal0 m c b
def exitVal0 (c : Dev nD) : Valuation τ sig (Elt F) :=
  Pipeline.withArrays spec0 c (entryVal0 m c) fun w => (dat0 (entry0 m) c).arrAt w cfg0.N
theorem exitVal0_arr (c : Dev nD) (w : Fin cfg0.W) :
    exitVal0 m c (Proc.devRef .tc (Pipeline.arrRef spec0 w)) = (dat0 (entry0 m) c).arrAt w cfg0.N :=
  Pipeline.withArrays_arr spec0 launch0.win.arr_inj c _ _ w

end Cert.KernelIdeal.Hand

end
-- ==== Proof.KI.Bn1.lean ====
import proofs.«137621_j4303557230930_1_alg».proof.Proof.Gen.KernelIdeal.Launch
import proofs.«137621_j4303557230930_1_alg».proof.Proof.Gen.KernelIdeal.Skeleton
import proofs.«137621_j4303557230930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev wholeBlk1 : Rect S2000x128 := Rect.unit (s := S2000x128) ![0, 0] S2000x128.size inb_S2000x128_S2000x128_0_0
abbrev wholeRow1 : Rect S1x128 := Rect.unit (s := S1x128) ![0, 0] S1x128.size inb_S1x128_S1x128_0_0

theorem zero_off1 : (![0, 0] : Fin 2 → Nat) = fun _ => 0 :=
  funext fun a => by fin_cases a <;> rfl

def oblk1 (xz : Vec F S2000x128 .f32) (xm xv xg xb : Vec F S1x128 .f32) : Vec F S2000x128 .f32 :=
  View.canon [⟨wholeBlk1, k1_pay1 (View.ld xz wholeBlk1) (View.ld xv wholeRow1) (View.ld xg wholeRow1) (View.ld xm wholeRow1) (View.ld xb wholeRow1)⟩]

set_option maxHeartbeats 1000000 in
theorem cc1_triple (c : Dev nD) (E : Set ℕ) {i : grid1.Coords} {az ao : Memref sig .tc .vmem S2000x128 .f32}
    {am av ag ab : Memref sig .tc .vmem S1x128 .f32} {haz : az.IsWhole} {ham : am.IsWhole} {hav : av.IsWhole}
    {hag : ag.IsWhole} {hab : ab.IsWhole} {hao : ao.IsWhole}
    (xz d : Vec F S2000x128 .f32) (xm xv xg xb : Vec F S1x128 .f32) (K : PUnit → sProp 𝕄) :
    iprop(ownsTc c az fullShare xz ∗ ownsTc c am fullShare xm ∗ ownsTc c av fullShare xv
        ∗ ownsTc c ag fullShare xg ∗ ownsTc c ab fullShare xb ∗ ownsTc c ao fullShare d
        ∗ (iprop(ownsTc c az fullShare xz ∗ ownsTc c am fullShare xm ∗ ownsTc c av fullShare xv
            ∗ ownsTc c ag fullShare xg ∗ ownsTc c ab fullShare xb ∗ ownsTc c ao fullShare (oblk1 xz xm xv xg xb)) -∗ K ⟨⟩))
      ⊢ wp frame (wpE (defs₀ (F := F)) Variants.none c none) E (cc1__bn_relu_kernel i az haz am ham av hav ag hag ab hab ao hao) K := by
  simp only [cc1__bn_relu_kernel_eq_skeleton]; unfold cc1__bn_relu_kernel_skel
  unfold ownsTc owns
  iintro ⟨⟨%fz, %hfz, Hz⟩, ⟨%fm, %hfm, Hm⟩, ⟨%fv, %hfv, Hv⟩, ⟨%fg, %hfg, Hg⟩, ⟨%fb, %hfb, Hb⟩, ⟨%fo, -, Ho⟩, Hk⟩
  subst hfz hfm hfv hfg hfb
  sl_exec
  sl_step
  iapply Hk
  isplitl [Hz]
  · iexists fz; isplitr
    · ipureintro; rfl
    · iexact Hz
  isplitl [Hm]
  · iexists fm; isplitr
    · ipureintro; rfl
    · iexact Hm
  isplitl [Hv]
  · iexists fv; isplitr
    · ipureintro; rfl
    · iexact Hv
  isplitl [Hg]
  · iexists fg; isplitr
    · ipureintro; rfl
    · iexact Hg
  isplitl [Hb]
  · iexists fb; isplitr
    · ipureintro; rfl
    · iexact Hb
  iexists _; isplitr
  swap
  · iexact Ho
  · ipureintro
    exact View.read_writes_eq_canon _ _ _ fun y => ⟨_, List.mem_singleton_self _, View.mem_set_unit_zero zero_off1 inb_S2000x128_S2000x128_0_0 y⟩

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oblk1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem Phi1_in (c : Dev nD) : Pipeline.ΦA spec1 c ⊢ (dat1 V c).Φ 0 := .rfl
theorem Phi1_out (c : Dev nD) : (dat1 V c).Φ (Fin.last cfg1.N) ⊢ Pipeline.ΦA spec1 c := .rfl

theorem share1 (c : Dev nD) (w : Fin cfg1.W) : (dat1 V c).q w = fullShare := rfl

theorem owed1 (c : Dev nD) (t : Fin (cfg1.N + 1)) : (dat1 V c).owed t = 0 := rfl

theorem before1_in (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) := by
  refine ⟨?_, ?_, ?_, ?_, ?_⟩ <;> exact fun d =>
    ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1_in V c t]
  show _ ⊢ wp _ _ _ (bodyAt1 t) _
  iintro ⟨HΦ, Hw, ⟨%_, Hz⟩, ⟨%_, Hm⟩, ⟨%_, Hv⟩, ⟨%_, Hg⟩, ⟨%_, Hb⟩, ⟨%d, Ho⟩⟩
  iapply (cc1_triple c Set.univ (iblk1 V c 0 t) ((dat1 V c).before 5 t d) (iblk1 V c 1 t) (iblk1 V c 2 t) (iblk1 V c 3 t)
    (iblk1 V c 4 t) _)
  iframe Hz Hm Hv Hg Hb Ho
  iintro ⟨Hz, Hm, Hv, Hg, Hb, Ho⟩
  dsimp only [dat1]
  isplitl [HΦ]; · iexact HΦ
  isplitl [Hw]; · iexact Hw
  iframe

end Cert.KernelIdeal.Hand
-- ==== Proof.KI.Chain1.lean ====
import proofs.«137621_j4303557230930_1_alg».proof.Proof.KI.Chain0
import proofs.«137621_j4303557230930_1_alg».proof.Proof.KI.Bn1

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

abbrev entryVal1 (c : Dev nD) : Valuation τ sig (Elt F) := StableHlo.after hostOps1 (exitVal0 m c)
abbrev entry1 : (c : Dev nD) → (b : Ref sig .tc) → Buf (Elt F) ((c : Thread nD τ).loc b) := fun c b => entryVal1 m c b
def exitVal1 (c : Dev nD) : Valuation τ sig (Elt F) :=
  Pipeline.withArrays spec1 c (entryVal1 m c) fun w => (dat1 (entry1 m) c).arrAt w cfg1.N
theorem exitVal1_arr (c : Dev nD) (w : Fin cfg1.W) :
    exitVal1 m c (Proc.devRef .tc (Pipeline.arrRef spec1 w)) = (dat1 (entry1 m) c).arrAt w cfg1.N :=
  Pipeline.withArrays_arr spec1 launch1.win.arr_inj c _ _ w

end Cert.KernelIdeal.Hand

end
-- ==== Proof.KI.Stats2Runs.lean ====
import proofs.«137621_j4303557230930_1_alg».proof.Proof.Gen.KernelIdeal.Launch
import proofs.«137621_j4303557230930_1_alg».proof.Proof.Gen.KernelIdeal.Skeleton
import proofs.«137621_j4303557230930_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable {c : Dev nD} (dat : Dat τ (Elt F) Unit ℕ (UR sig nD τ) ℕ cfg2 c)

-- When the data's array is `V`'s, its block at every point is the block read off `V`.
variable {V dat} in
theorem iblkEq2 {w : Fin cfg2.W} (hA : dat.A w = V c (Pipeline.arrRef spec2 w)) : iblk2 V c w = dat.blockOf w :=
  funext fun t => by unfold Dat.blockOf iblk2; rw [hA]

theorem held2_0 (hA : dat.A 0 = V c (Pipeline.arrRef spec2 0)) (hafter : ∀ t, dat.after 0 t = iblk2 V c 0 t)
    (t : Fin cfg2.N) (d) : dat.before 0 t d = iblk2 V c 0 t :=
  iblkEq2 hA ▸ dat.before_in_eq_fetched 0 rfl (fun _ => rfl) (fun _ _ _ => rfl) (iblkEq2 hA ▸ hafter) t d

theorem held2_1 (hA : dat.A 1 = V c (Pipeline.arrRef spec2 1)) (hafter : ∀ t, dat.after 1 t = iblk2 V c 1 t)
    (t : Fin cfg2.N) (d) : dat.before 1 t d = iblk2 V c 1 t :=
  iblkEq2 hA ▸ dat.before_in_eq_fetched 1 rfl (fun _ => rfl) (fun _ _ _ => rfl) (iblkEq2 hA ▸ hafter) t d

theorem held2_2 (hA : dat.A 2 = V c (Pipeline.arrRef spec2 2)) (hafter : ∀ t, dat.after 2 t = iblk2 V c 2 t)
    (t : Fin cfg2.N) (d) : dat.before 2 t d = iblk2 V c 2 t :=
  iblkEq2 hA ▸ dat.before_in_eq_fetched 2 rfl (fun _ => rfl) (fun _ _ _ => rfl) (iblkEq2 hA ▸ hafter) t d

theorem held2_3 (hA : dat.A 3 = V c (Pipeline.arrRef spec2 3)) (hafter : ∀ t, dat.after 3 t = iblk2 V c 3 t)
    (t : Fin cfg2.N) (d) : dat.before 3 t d = iblk2 V c 3 t :=
  iblkEq2 hA ▸ dat.before_in_eq_fetched 3 rfl (fun _ => rfl) (fun _ _ _ => rfl) (iblkEq2 hA ▸ hafter) t d

theorem held2_4 (hA : dat.A 4 = V c (Pipeline.arrRef spec2 4)) (hafter : ∀ t, dat.after 4 t = iblk2 V c 4 t)
    (t : Fin cfg2.N) (d) : dat.before 4 t d = iblk2 V c 4 t :=
  iblkEq2 hA ▸ dat.before_in_eq_fetched 4 rfl (fun _ => rfl) (fun _ _ _ => rfl) (iblkEq2 hA ▸ hafter) t d

theorem held2_5 (hA : dat.A 5 = V c (Pipeline.arrRef spec2 5)) (hafter : ∀ t, dat.after 5 t = iblk2 V c 5 t)
    (t : Fin cfg2.N) (d) : dat.before 5 t d = iblk2 V c 5 t :=
  iblkEq2 hA ▸ dat.before_in_eq_fetched 5 rfl (fun _ => rfl) (fun _ _ _ => rfl) (iblkEq2 hA ▸ hafter) t d

end Blocks

abbrev atFirst2 (i : grid2.Coords) : Prop :=
  (Scalar.cmpi .ne (Scalar.extui (Scalar.cmpi .eq (BitVec.ofNat 32 (i 0).val) 0#32)) 0#32) = 1#1

abbrev atLast2 (i : grid2.Coords) : Prop := k2_cond2 i = 1#1

theorem atFirst2_iff : ∀ t : Fin cfg2.N, atFirst2 (grid2.coords t) ↔ t.val = 0 :=
  by decide +kernel

theorem atLast2_iff : ∀ t : Fin cfg2.N, atLast2 (grid2.coords t) ↔ t.val = 49 :=
  by decide +kernel

theorem idle2_7 : ∀ t : Fin cfg2.N, ¬atLast2 (grid2.coords t) → cfg2.idle 7 (grid2.coords t) = true := by decide +kernel
theorem keep2_7 : ∀ t : Fin cfg2.N, ¬atLast2 (grid2.coords t) → (cfg2.win 7).flush t = false := by decide +kernel
theorem live2_7 : ∀ t : Fin cfg2.N, atLast2 (grid2.coords t) → cfg2.idle 7 (grid2.coords t) = false := by decide +kernel
theorem idle2_8 : ∀ t : Fin cfg2.N, ¬atLast2 (grid2.coords t) → cfg2.idle 8 (grid2.coords t) = true := by decide +kernel
theorem keep2_8 : ∀ t : Fin cfg2.N, ¬atLast2 (grid2.coords t) → (cfg2.win 8).flush t = false := by decide +kernel
theorem live2_8 : ∀ t : Fin cfg2.N, atLast2 (grid2.coords t) → cfg2.idle 8 (grid2.coords t) = false := by decide +kernel

abbrev sumRef2 : Memref sig .tc .vmem S1x128 .f32 := Memref.whole cc2_scratch0
abbrev sqRef2 : Memref sig .tc .vmem S1x128 .f32 := Memref.whole cc2_scratch1

theorem ownsUnread2 (c : Dev nD) {sp sh e} {m : Memref sig .tc sp sh e} (h : m.IsWhole) (q X) :
    (owns (c : Thread nD τ) m q X : sProp 𝕄) = (m.view.loc (c : Thread nD τ) ↦[m.view.set]{q} h.unread X) :=
  BI.equiv_iff.mp ⟨by show (_ : sProp 𝕄) ⊢ _; unfold owns; iintro ⟨%f, %hf, H⟩; rw [h.eq_unread hf]; iexact H,
    by show (_ : sProp 𝕄) ⊢ _; simpa only [h.read_unread] using owns_intro (c : Thread nD τ) m q (h.unread X)⟩

theorem PhiA2_split (c : Dev nD) :
    (Pipeline.ΦA spec2 c : sProp 𝕄)
      = iprop(iprop(iprop((∃ d, owns (c : Thread nD τ) sumRef2 fullShare d) ∗ (∃ d, owns (c : Thread nD τ) sqRef2 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [sumRef2, sqRef2, owns_whole]; try rfl

end Cert.KernelIdeal.Hand

end
-- ==== Proof.KI.Stats2RunA.lean ====
import proofs.«137621_j4303557230930_1_alg».proof.Proof.KI.Stats2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runFirst2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : atFirst2 i) (hlast : ¬atLast2 i) (x1 : Vec F S2000x128 .f32) (x2 : Vec F S2000x128 .f32) (x3 : Vec F S128x128 .f32) (x4 : Vec F S1x128 .f32) (x5 : Vec F S128x128 .f32) (x6 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc2__mlp_stats_kernel_eq_skeleton, cc2__mlp_stats_kernel_skel]
    simp (disch := assumption) only [k2_part1_eq_skeleton, ownsUnread2]
    iintro ⟨H1, H2, H3, H4, H5, H6, ⟨%d7, H7⟩, H8, H9, ⟨%d10, H10⟩, ⟨%d11, H11⟩, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.KernelIdeal.Hand

end
-- ==== Proof.KI.Stats2RunB.lean ====
import proofs.«137621_j4303557230930_1_alg».proof.Proof.KI.Stats2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runMid2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst2 i) (hlast : ¬atLast2 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc2__mlp_stats_kernel_eq_skeleton, cc2__mlp_stats_kernel_skel]
    simp (disch := assumption) only [k2_part1_eq_skeleton, ownsUnread2]
    iintro ⟨H1, H2, H3, H4, H5, H6, ⟨%d7, H7⟩, H8, H9, H10, H11, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.KernelIdeal.Hand

end
-- ==== Proof.KI.Stats2RunC.lean ====
import proofs.«137621_j4303557230930_1_alg».proof.Proof.KI.Stats2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runLast2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst2 i) (hlast : atLast2 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsumo : List (View.Piece (Elt F) S1x128 .f32)) (Lsqo : List (View.Piece (Elt F) S1x128 .f32)) (Lsum : List (View.Piece (Elt F) S1x128 .f32)), { Lsq : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ (∃ f, arg8.view.loc (c : Thread nD τ) ↦[arg8.view.set]{fullShare} arg8.view.writes (Elt F) f Lsumo) ∗ (∃ f, arg9.view.loc (c : Thread nD τ) ↦[arg9.view.set]{fullShare} arg9.view.writes (Elt F) f Lsqo)
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    rw [cc2__mlp_stats_kernel_eq_skeleton, cc2__mlp_stats_kernel_skel]
    simp (disch := assumption) only [k2_part1_eq_skeleton, ownsUnread2]
    iintro ⟨H1, H2, H3, H4, H5, H6, ⟨%d7, H7⟩, ⟨%d8, H8⟩, ⟨%d9, H9⟩, H10, H11, Hk⟩
    sl_exec (disch := first | exact hfirst | exact hlast)
    sl_step
    iapply Hk
    iframe H1 H2 H3 H4 H5 H6
    isplitl [H7]; iexists _; iexact H7
    isplitl [H8]; iexists _; iexact H8
    isplitl [H9]; iexists _; iexact H9
    isplitl [H10]; iexists _; iexact H10
    iexists _; iexact H11

end Cert.KernelIdeal.Hand

end
-- ==== Proof.KI.Stats2.lean ====
import proofs.«137621_j4303557230930_1_alg».proof.Proof.KI.Stats2RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

abbrev firstAt2 (c : Dev nD) (t : Fin cfg2.N) (hf : atFirst2 (grid2.coords t)) (hl : ¬atLast2 (grid2.coords t)) :=
  runFirst2 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) sumRef2 (Memref.isWhole_whole _) sqRef2 (Memref.isWhole_whole _) hf hl (iblk2 V c 0 t) (iblk2 V c 1 t) (iblk2 V c 2 t) (iblk2 V c 3 t) (iblk2 V c 4 t) (iblk2 V c 5 t)

abbrev midAt2 (c : Dev nD) (t : Fin cfg2.N) (hf : ¬atFirst2 (grid2.coords t)) (hl : ¬atLast2 (grid2.coords t)) (s10 s11 : Vec F S1x128 .f32) :=
  runMid2 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) sumRef2 (Memref.isWhole_whole _) sqRef2 (Memref.isWhole_whole _) hf hl (iblk2 V c 0 t) (iblk2 V c 1 t) (iblk2 V c 2 t) (iblk2 V c 3 t) (iblk2 V c 4 t) (iblk2 V c 5 t) s10 s11

abbrev lastAt2 (c : Dev nD) (t : Fin cfg2.N) (hf : ¬atFirst2 (grid2.coords t)) (hl : atLast2 (grid2.coords t)) (s10 s11 : Vec F S1x128 .f32) :=
  runLast2 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) sumRef2 (Memref.isWhole_whole _) sqRef2 (Memref.isWhole_whole _) hf hl (iblk2 V c 0 t) (iblk2 V c 1 t) (iblk2 V c 2 t) (iblk2 V c 3 t) (iblk2 V c 4 t) (iblk2 V c 5 t) s10 s11

/-- Writes whose pieces tile the shape read back as their canonical contents, whatever was there before. -/
theorem owns_of_stores2 {sh : Shape} (c : Dev nD) (m : Memref sig .tc .vmem sh .f32) (L : List (View.Piece (Elt F) sh .f32))
    (h : View.Piece.tiledL L sh.size = true) :
    (iprop(∃ f, m.view.loc (c : Thread nD τ) ↦[m.view.set]{fullShare} m.view.writes (Elt F) f L) : sProp 𝕄)
      ⊢ owns (c : Thread nD τ) m fullShare (View.canon L) := by
  unfold owns
  iintro ⟨%f, H⟩
  iexists _; isplitr
  swap; · iexact H
  ipureintro; exact View.read_writes_eq_canon _ _ _ (View.cover_of_tiledL _ _ h)

def idleRow2 : Vec F S1x128 .f32 := View.canon []

def firstOuts2 (c : Dev nD) (t : Fin cfg2.N) (hf : atFirst2 (grid2.coords t)) (hl : ¬atLast2 (grid2.coords t)) : Vec F S2000x128 .f32 × Vec F S1x128 .f32 × Vec F S1x128 .f32 × Vec F S1x128 .f32 × Vec F S1x128 .f32 :=
  (View.canon (firstAt2 V c t hf hl).1, idleRow2, idleRow2, View.canon (firstAt2 V c t hf hl).2.1, View.canon (firstAt2 V c t hf hl).2.2.1)

def midOuts2 (c : Dev nD) (t : Fin cfg2.N) (hf : ¬atFirst2 (grid2.coords t)) (hl : ¬atLast2 (grid2.coords t)) (s10 s11 : Vec F S1x128 .f32) : Vec F S2000x128 .f32 × Vec F S1x128 .f32 × Vec F S1x128 .f32 × Vec F S1x128 .f32 × Vec F S1x128 .f32 :=
  (View.canon (midAt2 V c t hf hl s10 s11).1, idleRow2, idleRow2, View.canon (midAt2 V c t hf hl s10 s11).2.1, View.canon (midAt2 V c t hf hl s10 s11).2.2.1)

def lastOuts2 (c : Dev nD) (t : Fin cfg2.N) (hf : ¬atFirst2 (grid2.coords t)) (hl : atLast2 (grid2.coords t)) (s10 s11 : Vec F S1x128 .f32) : Vec F S2000x128 .f32 × Vec F S1x128 .f32 × Vec F S1x128 .f32 × Vec F S1x128 .f32 × Vec F S1x128 .f32 :=
  (View.canon (lastAt2 V c t hf hl s10 s11).1, View.canon (lastAt2 V c t hf hl s10 s11).2.1, View.canon (lastAt2 V c t hf hl s10 s11).2.2.1,
    View.canon (lastAt2 V c t hf hl s10 s11).2.2.2.1, View.canon (lastAt2 V c t hf hl s10 s11).2.2.2.2.1)

def outsAt2 (c : Dev nD) : (n : ℕ) → n < cfg2.N → Vec F S2000x128 .f32 × Vec F S1x128 .f32 × Vec F S1x128 .f32 × Vec F S1x128 .f32 × Vec F S1x128 .f32
  | 0, hn => firstOuts2 V c ⟨0, hn⟩ ((atFirst2_iff ⟨0, hn⟩).mpr rfl) (fun h => absurd ((atLast2_iff ⟨0, hn⟩).mp h) (show ¬(0 : ℕ) = 49 by decide))
  | n + 1, hn =>
    if h : n + 1 = 49 then
      lastOuts2 V c ⟨n + 1, hn⟩ (fun h' => Nat.succ_ne_zero n ((atFirst2_iff ⟨n + 1, hn⟩).mp h')) ((atLast2_iff ⟨n + 1, hn⟩).mpr h)
        (outsAt2 c n (Nat.lt_of_succ_lt hn)).2.2.2.1 (outsAt2 c n (Nat.lt_of_succ_lt hn)).2.2.2.2
    else
      midOuts2 V c ⟨n + 1, hn⟩ (fun h' => Nat.succ_ne_zero n ((atFirst2_iff ⟨n + 1, hn⟩).mp h')) (fun h' => h ((atLast2_iff ⟨n + 1, hn⟩).mp h'))
        (outsAt2 c n (Nat.lt_of_succ_lt hn)).2.2.2.1 (outsAt2 c n (Nat.lt_of_succ_lt hn)).2.2.2.2

theorem outsAt2_first (c : Dev nD) (t : Fin cfg2.N) (h : t.val = 0) :
    outsAt2 V c t.val t.isLt = firstOuts2 V c t ((atFirst2_iff t).mpr h) (fun h' => by have := (atLast2_iff t).mp h'; omega) := by
  obtain ⟨n, hn⟩ := t
  cases n with
  | zero => rfl
  | succ n => exact absurd h (Nat.succ_ne_zero n)

theorem outsAt2_mid (c : Dev nD) (t : Fin cfg2.N) (h0 : 0 < t.val) (h49 : t.val < 49) :
    outsAt2 V c t.val t.isLt = midOuts2 V c t (fun h' => by have := (atFirst2_iff t).mp h'; omega) (fun h' => by have := (atLast2_iff t).mp h'; omega)
      (outsAt2 V c (t.val - 1) (Nat.lt_of_le_of_lt (Nat.sub_le _ _) t.isLt)).2.2.2.1
      (outsAt2 V c (t.val - 1) (Nat.lt_of_le_of_lt (Nat.sub_le _ _) t.isLt)).2.2.2.2 := by
  obtain ⟨n, hn⟩ := t
  cases n with
  | zero => exact absurd h0 (Nat.lt_irrefl 0)
  | succ n => exact (dif_neg (fun e : n + 1 = 49 => by have : n + 1 < 49 := h49; omega)).trans rfl

theorem outsAt2_last (c : Dev nD) (t : Fin cfg2.N) (h : t.val = 49) :
    outsAt2 V c t.val t.isLt = lastOuts2 V c t (fun h' => by have := (atFirst2_iff t).mp h'; omega) ((atLast2_iff t).mpr h)
      (outsAt2 V c (t.val - 1) (Nat.lt_of_le_of_lt (Nat.sub_le _ _) t.isLt)).2.2.2.1
      (outsAt2 V c (t.val - 1) (Nat.lt_of_le_of_lt (Nat.sub_le _ _) t.isLt)).2.2.2.2 := by
  obtain ⟨n, hn⟩ := t
  cases n with
  | zero => exact absurd h (show ¬(0 : ℕ) = 49 by decide)
  | succ n => exact (dif_pos (show n + 1 = 49 from h)).trans rfl

abbrev restBut2 (c : Dev nD) : sProp 𝕄 :=
  Pipeline.scopedRestBut (Ix := Unit) (Name := ℕ) (U := UR sig nD τ) (Lvl := ℕ) (Val := Elt F) spec2 c [cc2_scratch0, cc2_scratch1]

def inv2 (c : Dev nD) : (n : ℕ) → n ≤ cfg2.N → sProp 𝕄
  | 0, _ => Pipeline.ΦA spec2 c
  | n + 1, hn => iprop(iprop(iprop(owns (c : Thread nD τ) sumRef2 fullShare (outsAt2 V c n hn).2.2.2.1
      ∗ owns (c : Thread nD τ) sqRef2 fullShare (outsAt2 V c n hn).2.2.2.2) ∗ restBut2 c) ∗ (∃ r, prngReg c r))

theorem inv2_zero (c : Dev nD) (n : ℕ) (h : n ≤ cfg2.N) (hz : n = 0) : inv2 V c n h = Pipeline.ΦA spec2 c := by
  subst hz; rfl

theorem inv2_pos (c : Dev nD) (n : ℕ) (h : n ≤ cfg2.N) (hz : n ≠ 0) :
    inv2 V c n h = iprop(iprop(iprop(owns (c : Thread nD τ) sumRef2 fullShare (outsAt2 V c (n - 1) (by omega)).2.2.2.1
      ∗ owns (c : Thread nD τ) sqRef2 fullShare (outsAt2 V c (n - 1) (by omega)).2.2.2.2) ∗ restBut2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem share2 (c : Dev nD) (w : Fin cfg2.W) : (dat2 V c).q w = fullShare := by
  dsimp only [dat2]

theorem owed2 (c : Dev nD) (t : Fin (cfg2.N + 1)) : (dat2 V c).owed t = 0 := by
  dsimp only [dat2]

theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

/-- The frame rule around a run: what the run leaves alone is carried across, what it returns is weakened piece by piece. -/
theorem frame_run2 {T0 T1 T2 T3 T4 T5 T6 T7 T8 : Type} {A0 A1 A2 A3 A4 A5 X6 PS PQ R G O W6 WS WQ B6 B7 B8 BS BQ : sProp 𝕄}
    {A6 : T6 → sProp 𝕄} {A7 X7 Y7 : T7 → sProp 𝕄} {A8 X8 Y8 : T8 → sProp 𝕄} {c : Dev nD} {p : Prog (TpuEff nD τ sig (Elt F) Λ₀ .tc) PUnit}
    (run : ∀ d7 d8 (K : PUnit → sProp 𝕄), iprop(A0 ∗ A1 ∗ A2 ∗ A3 ∗ A4 ∗ A5 ∗ X6 ∗ X7 d7 ∗ X8 d8 ∗ PS ∗ PQ
      ∗ (iprop(A0 ∗ A1 ∗ A2 ∗ A3 ∗ A4 ∗ A5 ∗ W6 ∗ Y7 d7 ∗ Y8 d8 ∗ WS ∗ WQ) -∗ K ⟨⟩))
        ⊢ wp frame (wpE (defs₀ (F := F)) Variants.none c none) Set.univ p K)
    (h6 : ∀ d, A6 d ⊢ X6) (h7 : ∀ d, A7 d ⊢ X7 d) (h8 : ∀ d, A8 d ⊢ X8 d)
    (k6 : W6 ⊢ B6) (k7 : ∀ d, Y7 d ⊢ B7) (k8 : ∀ d, Y8 d ⊢ B8) (kS : WS ⊢ BS) (kQ : WQ ⊢ BQ) :
    iprop(iprop(iprop(iprop(PS ∗ PQ) ∗ R) ∗ G) ∗ O ∗ (∃ _ : T0, A0) ∗ (∃ _ : T1, A1) ∗ (∃ _ : T2, A2) ∗ (∃ _ : T3, A3) ∗ (∃ _ : T4, A4)
        ∗ (∃ _ : T5, A5) ∗ (∃ d, A6 d) ∗ (∃ d, A7 d) ∗ (∃ d, A8 d))
      ⊢ wp frame (wpE (defs₀ (F := F)) Variants.none c none) Set.univ p fun _ =>
        iprop(iprop(iprop(iprop(BS ∗ BQ) ∗ R) ∗ G) ∗ O ∗ A0 ∗ A1 ∗ A2 ∗ A3 ∗ A4 ∗ A5 ∗ B6 ∗ B7 ∗ B8) := by
  iintro ⟨⟨⟨⟨HS, HQ⟩, HR⟩, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run d7 d8 _)
  iframe H0 H1 H2 H3 H4 H5 HS HQ
  isplitl [H6]; · iapply (h6 d6); iexact H6
  isplitl [H7]; · iapply (h7 d7); iexact H7
  isplitl [H8]; · iapply (h8 d8); iexact H8
  iintro ⟨H0, H1, H2, H3, H4, H5, W6, W7, W8, WS, WQ⟩
  iframe H0 H1 H2 H3 H4 H5 HR HG HO
  isplitl [WS WQ]
  · isplitl [WS]
    · iapply kS; iexact WS
    · iapply kQ; iexact WQ
  isplitl [W6]; · iapply k6; iexact W6
  isplitl [W7]; · iapply (k7 d7); iexact W7
  iapply (k8 d8); iexact W8

set_option maxHeartbeats 3200000 in
/-- The body at any point is the run of that point's control case, framed. -/
theorem body_at2 (c : Dev nD) (t : Fin cfg2.N) :
    iprop(inv2 V c t.val (Nat.le_of_lt t.isLt) ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare ((dat2 V c).before 3 t d))
      ∗ (∃ d, owns (c : Thread nD τ) (win2_4.stage (cfg2.slots t 4)) fullShare ((dat2 V c).before 4 t d))
      ∗ (∃ d, owns (c : Thread nD τ) (win2_5.stage (cfg2.slots t 5)) fullShare ((dat2 V c).before 5 t d))
      ∗ (∃ d, owns (c : Thread nD τ) (win2_6.stage (cfg2.slots t 6)) fullShare ((dat2 V c).before 6 t d))
      ∗ (∃ d, owns (c : Thread nD τ) (win2_7.stage (cfg2.slots t 7)) fullShare ((dat2 V c).before 7 t d))
      ∗ (∃ d, owns (c : Thread nD τ) (win2_8.stage (cfg2.slots t 8)) fullShare ((dat2 V c).before 8 t d)))
    ⊢ wp frame (wpE (defs₀ (F := F)) Variants.none c none) Set.univ (bodyAt2 t) fun _ =>
      iprop(iprop(iprop(iprop(owns (c : Thread nD τ) sumRef2 fullShare (outsAt2 V c t.val t.isLt).2.2.2.1
          ∗ owns (c : Thread nD τ) sqRef2 fullShare (outsAt2 V c t.val t.isLt).2.2.2.2) ∗ restBut2 c) ∗ (∃ r, prngReg c r))
        ∗ (dat2 V c).owesAt () t.castSucc
        ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t
        ∗ owns (c : Thread nD τ) (win2_6.stage (cfg2.slots t 6)) fullShare (outsAt2 V c t.val t.isLt).1
        ∗ (dat2 V c).leavesExact 7 t ∗ (dat2 V c).leavesExact 8 t) := by
  have hN : t.val < 50 := lt_of_lt_of_eq t.isLt N_2
  unfold bodyAt2
  simp only [held2_0 V (dat2 V c) (A_eq2 V c 0) (fun _ => rfl), held2_1 V (dat2 V c) (A_eq2 V c 1) (fun _ => rfl),
    held2_2 V (dat2 V c) (A_eq2 V c 2) (fun _ => rfl), held2_3 V (dat2 V c) (A_eq2 V c 3) (fun _ => rfl),
    held2_4 V (dat2 V c) (A_eq2 V c 4) (fun _ => rfl), held2_5 V (dat2 V c) (A_eq2 V c 5) (fun _ => rfl)]
  by_cases h0 : t.val = 0
  · have hf := (atFirst2_iff t).mpr h0
    have hl : ¬atLast2 (grid2.coords t) := fun h' => by have := (atLast2_iff t).mp h'; omega
    rw [inv2_zero V c _ _ h0, PhiA2_split, Dat.leavesExact_idle (dat2 V c) 7 t (idle2_7 t hl) (keep2_7 t hl),
      Dat.leavesExact_idle (dat2 V c) 8 t (idle2_8 t hl) (keep2_8 t hl), outsAt2_first V c t h0]
    unfold firstOuts2; dsimp only
    exact frame_run2 (fun d7 d8 K => (firstAt2 V c t hf hl).2.2.2 ((dat2 V c).before 7 t d7) ((dat2 V c).before 8 t d8) Set.univ K)
      (fun _ => by iintro H; iexists _; iexact H) (fun _ => by iintro H; iexact H) (fun _ => by iintro H; iexact H) (owns_of_stores2 c _ _ (by sl_kernel_rfl)) (fun _ => by iintro H; iexists _; iexact H) (fun _ => by iintro H; iexists _; iexact H) (owns_of_stores2 c _ _ (by sl_kernel_rfl)) (owns_of_stores2 c _ _ (by sl_kernel_rfl))
  have hf : ¬atFirst2 (grid2.coords t) := fun h' => h0 ((atFirst2_iff t).mp h')
  rw [inv2_pos V c _ _ h0]
  by_cases h49 : t.val = 49
  · have hl := (atLast2_iff t).mpr h49
    rw [show (dat2 V c).leavesExact 7 t = owns (c : Thread nD τ) (win2_7.stage (cfg2.slots t 7)) fullShare ((dat2 V c).after 7 t) from by
        unfold Dat.leavesExact; rw [live2_7 t hl], after2_7,
      show (dat2 V c).leavesExact 8 t = owns (c : Thread nD τ) (win2_8.stage (cfg2.slots t 8)) fullShare ((dat2 V c).after 8 t) from by
        unfold Dat.leavesExact; rw [live2_8 t hl], after2_8, outsAt2_last V c t h49]
    unfold lastOuts2; dsimp only
    exact frame_run2 (fun _ _ K => (lastAt2 V c t hf hl _ _).2.2.2.2.2 Set.univ K)
      (fun _ => by iintro H; iexists _; iexact H) (fun _ => by iintro H; iexists _; iexact H) (fun _ => by iintro H; iexists _; iexact H) (owns_of_stores2 c _ _ (by sl_kernel_rfl)) (fun _ => owns_of_stores2 c _ _ (by sl_kernel_rfl)) (fun _ => owns_of_stores2 c _ _ (by sl_kernel_rfl)) (owns_of_stores2 c _ _ (by sl_kernel_rfl)) (owns_of_stores2 c _ _ (by sl_kernel_rfl))
  have hl : ¬atLast2 (grid2.coords t) := fun h' => h49 ((atLast2_iff t).mp h')
  rw [Dat.leavesExact_idle (dat2 V c) 7 t (idle2_7 t hl) (keep2_7 t hl), Dat.leavesExact_idle (dat2 V c) 8 t (idle2_8 t hl) (keep2_8 t hl),
    outsAt2_mid V c t (Nat.pos_of_ne_zero h0) (by omega)]
  unfold midOuts2; dsimp only
  exact frame_run2 (fun d7 d8 K => (midAt2 V c t hf hl _ _).2.2.2 ((dat2 V c).before 7 t d7) ((dat2 V c).before 8 t d8) Set.univ K)
    (fun _ => by iintro H; iexists _; iexact H) (fun _ => by iintro H; iexact H) (fun _ => by iintro H; iexact H) (owns_of_stores2 c _ _ (by sl_kernel_rfl)) (fun _ => by iintro H; iexists _; iexact H) (fun _ => by iintro H; iexists _; iexact H) (owns_of_stores2 c _ _ (by sl_kernel_rfl)) (owns_of_stores2 c _ _ (by sl_kernel_rfl))

theorem body_obligation2 (c : Dev nD) : BodyObligation (dat2 (F := F) V c) (defs₀ (F := F)) Variants.none () Set.univ := fun t => by
  rw [bigSep_W2, bigSep_W2]
  exact body_at2 V c t

theorem Phi2_in (c : Dev nD) : Pipeline.ΦA spec2 c ⊢ (dat2 V c).Φ 0 := by
  rw [show (dat2 V c).Φ 0 = inv2 V c 0 (Nat.zero_le _) from rfl, inv2_zero V c 0 _ rfl]
  try exact Idealize.SL.BI.Entails.refl _

/-- Every later invariant weakens to the entry one by forgetting what the accumulators hold. -/
theorem Phi2_back (c : Dev nD) (t : Fin (cfg2.N + 1)) (ht : t.val ≠ 0) : (dat2 V c).Φ t ⊢ Pipeline.ΦA spec2 c := by
  rw [show (dat2 V c).Φ t = inv2 V c t.val (Nat.le_of_lt_succ t.isLt) from rfl, inv2_pos V c _ _ ht, PhiA2_split]
  iintro ⟨⟨⟨HS, HQ⟩, HR⟩, Hg⟩
  isplitl [HS HQ HR]
  · isplitl [HS HQ]
    · isplitl [HS]
      · iexists _; iexact HS
      · iexists _; iexact HQ
    · iexact HR
  · iexact Hg

theorem Phi2_out (c : Dev nD) : (dat2 V c).Φ (Fin.last cfg2.N) ⊢ Pipeline.ΦA spec2 c :=
  Phi2_back V c _ (by rw [Fin.val_last]; have : cfg2.N = 50 := N_2; omega)

end Region

end Cert.KernelIdeal.Hand

end
-- ==== Proof.KI.Chain2.lean ====
import proofs.«137621_j4303557230930_1_alg».proof.Proof.KI.Chain1
import proofs.«137621_j4303557230930_1_alg».proof.Proof.KI.Stats2

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

abbrev entryVal2 (c : Dev nD) : Valuation τ sig (Elt F) := StableHlo.after hostOps2 (exitVal1 m c)
abbrev entry2 : (c : Dev nD) → (b : Ref sig .tc) → Buf (Elt F) ((c : Thread nD τ).loc b) := fun c b => entryVal2 m c b
def exitVal2 (c : Dev nD) : Valuation τ sig (Elt F) :=
  Pipeline.withArrays spec2 c (entryVal2 m c) fun w => (dat2 (entry2 m) c).arrAt w cfg2.N
theorem exitVal2_arr (c : Dev nD) (w : Fin cfg2.W) :
    exitVal2 m c (Proc.devRef .tc (Pipeline.arrRef spec2 w)) = (dat2 (entry2 m) c).arrAt w cfg2.N :=
  Pipeline.withArrays_arr spec2 launch2.win.arr_inj c _ _ w

end Cert.KernelIdeal.Hand

end
-- ==== Proof.KI.Bn3.lean ====
import proofs.«137621_j4303557230930_1_alg».proof.Proof.Gen.KernelIdeal.Launch
import proofs.«137621_j4303557230930_1_alg».proof.Proof.Gen.KernelIdeal.Skeleton
import proofs.«137621_j4303557230930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev wholeBlk3 : Rect S2000x128 := Rect.unit (s := S2000x128) ![0, 0] S2000x128.size inb_S2000x128_S2000x128_0_0
abbrev wholeRow3 : Rect S1x128 := Rect.unit (s := S1x128) ![0, 0] S1x128.size inb_S1x128_S1x128_0_0

theorem zero_off3 : (![0, 0] : Fin 2 → Nat) = fun _ => 0 :=
  funext fun a => by fin_cases a <;> rfl

def oblk3 (xz : Vec F S2000x128 .f32) (xm xv xg xb : Vec F S1x128 .f32) : Vec F S2000x128 .f32 :=
  View.canon [⟨wholeBlk3, k3_pay1 (View.ld xz wholeBlk3) (View.ld xv wholeRow3) (View.ld xg wholeRow3) (View.ld xm wholeRow3) (View.ld xb wholeRow3)⟩]

set_option maxHeartbeats 1000000 in
theorem cc3_triple (c : Dev nD) (E : Set ℕ) {i : grid3.Coords} {az ao : Memref sig .tc .vmem S2000x128 .f32}
    {am av ag ab : Memref sig .tc .vmem S1x128 .f32} {haz : az.IsWhole} {ham : am.IsWhole} {hav : av.IsWhole}
    {hag : ag.IsWhole} {hab : ab.IsWhole} {hao : ao.IsWhole}
    (xz d : Vec F S2000x128 .f32) (xm xv xg xb : Vec F S1x128 .f32) (K : PUnit → sProp 𝕄) :
    iprop(ownsTc c az fullShare xz ∗ ownsTc c am fullShare xm ∗ ownsTc c av fullShare xv
        ∗ ownsTc c ag fullShare xg ∗ ownsTc c ab fullShare xb ∗ ownsTc c ao fullShare d
        ∗ (iprop(ownsTc c az fullShare xz ∗ ownsTc c am fullShare xm ∗ ownsTc c av fullShare xv
            ∗ ownsTc c ag fullShare xg ∗ ownsTc c ab fullShare xb ∗ ownsTc c ao fullShare (oblk3 xz xm xv xg xb)) -∗ K ⟨⟩))
      ⊢ wp frame (wpE (defs₀ (F := F)) Variants.none c none) E (cc3__bn_relu_kernel i az haz am ham av hav ag hag ab hab ao hao) K := by
  simp only [cc3__bn_relu_kernel_eq_skeleton]; unfold cc3__bn_relu_kernel_skel
  unfold ownsTc owns
  iintro ⟨⟨%fz, %hfz, Hz⟩, ⟨%fm, %hfm, Hm⟩, ⟨%fv, %hfv, Hv⟩, ⟨%fg, %hfg, Hg⟩, ⟨%fb, %hfb, Hb⟩, ⟨%fo, -, Ho⟩, Hk⟩
  subst hfz hfm hfv hfg hfb
  sl_exec
  sl_step
  iapply Hk
  isplitl [Hz]
  · iexists fz; isplitr
    · ipureintro; rfl
    · iexact Hz
  isplitl [Hm]
  · iexists fm; isplitr
    · ipureintro; rfl
    · iexact Hm
  isplitl [Hv]
  · iexists fv; isplitr
    · ipureintro; rfl
    · iexact Hv
  isplitl [Hg]
  · iexists fg; isplitr
    · ipureintro; rfl
    · iexact Hg
  isplitl [Hb]
  · iexists fb; isplitr
    · ipureintro; rfl
    · iexact Hb
  iexists _; isplitr
  swap
  · iexact Ho
  · ipureintro
    exact View.read_writes_eq_canon _ _ _ fun y => ⟨_, List.mem_singleton_self _, View.mem_set_unit_zero zero_off3 inb_S2000x128_S2000x128_0_0 y⟩

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => oblk3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem Phi3_in (c : Dev nD) : Pipeline.ΦA spec3 c ⊢ (dat3 V c).Φ 0 := .rfl
theorem Phi3_out (c : Dev nD) : (dat3 V c).Φ (Fin.last cfg3.N) ⊢ Pipeline.ΦA spec3 c := .rfl

theorem share3 (c : Dev nD) (w : Fin cfg3.W) : (dat3 V c).q w = fullShare := rfl

theorem owed3 (c : Dev nD) (t : Fin (cfg3.N + 1)) : (dat3 V c).owed t = 0 := rfl

theorem before3_in (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t)
    ∧ (∀ d, (dat3 V c).before 4 t d = iblk3 V c 4 t) := by
  refine ⟨?_, ?_, ?_, ?_, ?_⟩ <;> exact fun d =>
    ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  simp only [before3_in V c t]
  show _ ⊢ wp _ _ _ (bodyAt3 t) _
  iintro ⟨HΦ, Hw, ⟨%_, Hz⟩, ⟨%_, Hm⟩, ⟨%_, Hv⟩, ⟨%_, Hg⟩, ⟨%_, Hb⟩, ⟨%d, Ho⟩⟩
  iapply (cc3_triple c Set.univ (iblk3 V c 0 t) ((dat3 V c).before 5 t d) (iblk3 V c 1 t) (iblk3 V c 2 t) (iblk3 V c 3 t)
    (iblk3 V c 4 t) _)
  iframe Hz Hm Hv Hg Hb Ho
  iintro ⟨Hz, Hm, Hv, Hg, Hb, Ho⟩
  dsimp only [dat3]
  isplitl [HΦ]; · iexact HΦ
  isplitl [Hw]; · iexact Hw
  iframe

end Cert.KernelIdeal.Hand
-- ==== Proof.KI.Chain3.lean ====
import proofs.«137621_j4303557230930_1_alg».proof.Proof.KI.Chain2
import proofs.«137621_j4303557230930_1_alg».proof.Proof.KI.Bn3

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

abbrev entryVal3 (c : Dev nD) : Valuation τ sig (Elt F) := StableHlo.after hostOps3 (exitVal2 m c)
abbrev entry3 : (c : Dev nD) → (b : Ref sig .tc) → Buf (Elt F) ((c : Thread nD τ).loc b) := fun c b => entryVal3 m c b
def exitVal3 (c : Dev nD) : Valuation τ sig (Elt F) :=
  Pipeline.withArrays spec3 c (entryVal3 m c) fun w => (dat3 (entry3 m) c).arrAt w cfg3.N
theorem exitVal3_arr (c : Dev nD) (w : Fin cfg3.W) :
    exitVal3 m c (Proc.devRef .tc (Pipeline.arrRef spec3 w)) = (dat3 (entry3 m) c).arrAt w cfg3.N :=
  Pipeline.withArrays_arr spec3 launch3.win.arr_inj c _ _ w

end Cert.KernelIdeal.Hand

end
-- ==== Proof.KI.Stats4Runs.lean ====
import proofs.«137621_j4303557230930_1_alg».proof.Proof.Gen.KernelIdeal.Launch
import proofs.«137621_j4303557230930_1_alg».proof.Proof.Gen.KernelIdeal.Skeleton
import proofs.«137621_j4303557230930_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

variable {c : Dev nD} (dat : Dat τ (Elt F) Unit ℕ (UR sig nD τ) ℕ cfg4 c)

-- When the data's array is `V`'s, its block at every point is the block read off `V`.
variable {V dat} in
theorem iblkEq4 {w : Fin cfg4.W} (hA : dat.A w = V c (Pipeline.arrRef spec4 w)) : iblk4 V c w = dat.blockOf w :=
  funext fun t => by unfold Dat.blockOf iblk4; rw [hA]

theorem held4_0 (hA : dat.A 0 = V c (Pipeline.arrRef spec4 0)) (hafter : ∀ t, dat.after 0 t = iblk4 V c 0 t)
    (t : Fin cfg4.N) (d) : dat.before 0 t d = iblk4 V c 0 t :=
  iblkEq4 hA ▸ dat.before_in_eq_fetched 0 rfl (fun _ => rfl) (fun _ _ _ => rfl) (iblkEq4 hA ▸ hafter) t d

theorem held4_1 (hA : dat.A 1 = V c (Pipeline.arrRef spec4 1)) (hafter : ∀ t, dat.after 1 t = iblk4 V c 1 t)
    (t : Fin cfg4.N) (d) : dat.before 1 t d = iblk4 V c 1 t :=
  iblkEq4 hA ▸ dat.before_in_eq_fetched 1 rfl (fun _ => rfl) (fun _ _ _ => rfl) (iblkEq4 hA ▸ hafter) t d

theorem held4_2 (hA : dat.A 2 = V c (Pipeline.arrRef spec4 2)) (hafter : ∀ t, dat.after 2 t = iblk4 V c 2 t)
    (t : Fin cfg4.N) (d) : dat.before 2 t d = iblk4 V c 2 t :=
  iblkEq4 hA ▸ dat.before_in_eq_fetched 2 rfl (fun _ => rfl) (fun _ _ _ => rfl) (iblkEq4 hA ▸ hafter) t d

theorem held4_3 (hA : dat.A 3 = V c (Pipeline.arrRef spec4 3)) (hafter : ∀ t, dat.after 3 t = iblk4 V c 3 t)
    (t : Fin cfg4.N) (d) : dat.before 3 t d = iblk4 V c 3 t :=
  iblkEq4 hA ▸ dat.before_in_eq_fetched 3 rfl (fun _ => rfl) (fun _ _ _ => rfl) (iblkEq4 hA ▸ hafter) t d

theorem held4_4 (hA : dat.A 4 = V c (Pipeline.arrRef spec4 4)) (hafter : ∀ t, dat.after 4 t = iblk4 V c 4 t)
    (t : Fin cfg4.N) (d) : dat.before 4 t d = iblk4 V c 4 t :=
  iblkEq4 hA ▸ dat.before_in_eq_fetched 4 rfl (fun _ => rfl) (fun _ _ _ => rfl) (iblkEq4 hA ▸ hafter) t d

theorem held4_5 (hA : dat.A 5 = V c (Pipeline.arrRef spec4 5)) (hafter : ∀ t, dat.after 5 t = iblk4 V c 5 t)
    (t : Fin cfg4.N) (d) : dat.before 5 t d = iblk4 V c 5 t :=
  iblkEq4 hA ▸ dat.before_in_eq_fetched 5 rfl (fun _ => rfl) (fun _ _ _ => rfl) (iblkEq4 hA ▸ hafter) t d

end Blocks

abbrev atFirst4 (i : grid4.Coords) : Prop :=
  (Scalar.cmpi .ne (Scalar.extui (Scalar.cmpi .eq (BitVec.ofNat 32 (i 0).val) 0#32)) 0#32) = 1#1

abbrev atLast4 (i : grid4.Coords) : Prop := k4_cond2 i = 1#1

theorem atFirst4_iff : ∀ t : Fin cfg4.N, atFirst4 (grid4.coords t) ↔ t.val = 0 :=
  by decide +kernel

theorem atLast4_iff : ∀ t : Fin cfg4.N, atLast4 (grid4.coords t) ↔ t.val = 49 :=
  by decide +kernel

theorem idle4_7 : ∀ t : Fin cfg4.N, ¬atLast4 (grid4.coords t) → cfg4.idle 7 (grid4.coords t) = true := by decide +kernel
theorem keep4_7 : ∀ t : Fin cfg4.N, ¬atLast4 (grid4.coords t) → (cfg4.win 7).flush t = false := by decide +kernel
theorem live4_7 : ∀ t : Fin cfg4.N, atLast4 (grid4.coords t) → cfg4.idle 7 (grid4.coords t) = false := by decide +kernel
theorem idle4_8 : ∀ t : Fin cfg4.N, ¬atLast4 (grid4.coords t) → cfg4.idle 8 (grid4.coords t) = true := by decide +kernel
theorem keep4_8 : ∀ t : Fin cfg4.N, ¬atLast4 (grid4.coords t) → (cfg4.win 8).flush t = false := by decide +kernel
theorem live4_8 : ∀ t : Fin cfg4.N, atLast4 (grid4.coords t) → cfg4.idle 8 (grid4.coords t) = false := by decide +kernel

abbrev sumRef4 : Memref sig .tc .vmem S1x128 .f32 := Memref.whole cc4_scratch0
abbrev sqRef4 : Memref sig .tc .vmem S1x128 .f32 := Memref.whole cc4_scratch1

theorem ownsUnread4 (c : Dev nD) {sp sh e} {m : Memref sig .tc sp sh e} (h : m.IsWhole) (q X) :
    (owns (c : Thread nD τ) m q X : sProp 𝕄) = (m.view.loc (c : Thread nD τ) ↦[m.view.set]{q} h.unread X) :=
  BI.equiv_iff.mp ⟨by show (_ : sProp 𝕄) ⊢ _; unfold owns; iintro ⟨%f, %hf, H⟩; rw [h.eq_unread hf]; iexact H,
    by show (_ : sProp 𝕄) ⊢ _; simpa only [h.read_unread] using owns_intro (c : Thread nD τ) m q (h.unread X)⟩

theorem PhiA4_split (c : Dev nD) :
    (Pipeline.ΦA spec4 c : sProp 𝕄)
      = iprop(iprop(iprop((∃ d, owns (c : Thread nD τ) sumRef4 fullShare d) ∗ (∃ d, owns (c : Thread nD τ) sqRef4 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [sumRef4, sqRef4, owns_whole]; try rfl

end Cert.KernelIdeal.Hand

end
-- ==== Proof.KI.Stats4RunA.lean ====
import proofs.«137621_j4303557230930_1_alg».proof.Proof.KI.Stats4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runFirst4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : atFirst4 i) (hlast : ¬atLast4 i) (x1 : Vec F S2000x128 .f32) (x2 : Vec F S2000x128 .f32) (x3 : Vec F S128x128 .f32) (x4 : Vec F S1x128 .f32) (x5 : Vec F S128x128 .f32) (x6 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc4__mlp_stats_kernel_eq_skeleton, cc4__mlp_stats_kernel_skel]
    simp (disch := assumption) only [k4_part1_eq_skeleton, ownsUnread4]
    iintro ⟨H1, H2, H3, H4, H5, H6, ⟨%d7, H7⟩, H8, H9, ⟨%d10, H10⟩, ⟨%d11, H11⟩, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.KernelIdeal.Hand

end
-- ==== Proof.KI.Stats4RunB.lean ====
import proofs.«137621_j4303557230930_1_alg».proof.Proof.KI.Stats4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runMid4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst4 i) (hlast : ¬atLast4 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsum : List (View.Piece (Elt F) S1x128 .f32)), { Lsq : List (View.Piece (Elt F) S1x128 .f32) //
      ∀ (y7 y8 : Vec F S1x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare y7 ∗ owns (c : Thread nD τ) arg9 fullShare y8 ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ owns (c : Thread nD τ) arg8 fullShare y7 ∗ owns (c : Thread nD τ) arg9 fullShare y8
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun y7 y8 E K => ?run⟩
  case run =>
    rw [cc4__mlp_stats_kernel_eq_skeleton, cc4__mlp_stats_kernel_skel]
    simp (disch := assumption) only [k4_part1_eq_skeleton, ownsUnread4]
    iintro ⟨H1, H2, H3, H4, H5, H6, ⟨%d7, H7⟩, H8, H9, H10, H11, Hk⟩
    sl_exec (disch := first | exact hfirst | exact hlast)
    sl_step
    iapply Hk
    iframe H1 H2 H3 H4 H5 H6 H8 H9
    isplitl [H7]; iexists _; iexact H7
    isplitl [H10]; iexists _; iexact H10
    iexists _; iexact H11

end Cert.KernelIdeal.Hand

end
-- ==== Proof.KI.Stats4RunC.lean ====
import proofs.«137621_j4303557230930_1_alg».proof.Proof.KI.Stats4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 1000000 in
def runLast4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hfirst : ¬atFirst4 i) (hlast : atLast4 i) (x1 : Vec F S2000x128 .f32) (x2 : Vec F S2000x128 .f32) (x3 : Vec F S128x128 .f32) (x4 : Vec F S1x128 .f32) (x5 : Vec F S128x128 .f32) (x6 : Vec F S1x128 .f32) (s10 s11 : Vec F S1x128 .f32) :
    Σ' (Lz : List (View.Piece (Elt F) S2000x128 .f32)) (Lsumo : List (View.Piece (Elt F) S1x128 .f32)) (Lsqo : List (View.Piece (Elt F) S1x128 .f32)) (Lsum : List (View.Piece (Elt F) S1x128 .f32)), { Lsq : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s10 ∗ owns (c : Thread nD τ) arg11 fullShare s11
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f Lz) ∗ (∃ f, arg8.view.loc (c : Thread nD τ) ↦[arg8.view.set]{fullShare} arg8.view.writes (Elt F) f Lsumo) ∗ (∃ f, arg9.view.loc (c : Thread nD τ) ↦[arg9.view.set]{fullShare} arg9.view.writes (Elt F) f Lsqo)
                ∗ (∃ f, arg10.view.loc (c : Thread nD τ) ↦[arg10.view.set]{fullShare} arg10.view.writes (Elt F) f Lsum) ∗ (∃ f, arg11.view.loc (c : Thread nD τ) ↦[arg11.view.set]{fullShare} arg11.view.writes (Elt F) f Lsq)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    rw [cc4__mlp_stats_kernel_eq_skeleton, cc4__mlp_stats_kernel_skel]
    simp (disch := assumption) only [k4_part1_eq_skeleton, ownsUnread4]
    iintro ⟨H1, H2, H3, H4, H5, H6, ⟨%d7, H7⟩, ⟨%d8, H8⟩, ⟨%d9, H9⟩, H10, H11, Hk⟩
    sl_exec (disch := first | exact hfirst | exact hlast)
    sl_step
    iapply Hk
    iframe H1 H2 H3 H4 H5 H6
    isplitl [H7]; iexists _; iexact H7
    isplitl [H8]; iexists _; iexact H8
    isplitl [H9]; iexists _; iexact H9
    isplitl [H10]; iexists _; iexact H10
    iexists _; iexact H11

end Cert.KernelIdeal.Hand

end
-- ==== Proof.KI.Stats4.lean ====
import proofs.«137621_j4303557230930_1_alg».proof.Proof.KI.Stats4RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

abbrev firstAt4 (c : Dev nD) (t : Fin cfg4.N) (hf : atFirst4 (grid4.coords t)) (hl : ¬atLast4 (grid4.coords t)) :=
  runFirst4 (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) sumRef4 (Memref.isWhole_whole _) sqRef4 (Memref.isWhole_whole _) hf hl (iblk4 V c 0 t) (iblk4 V c 1 t) (iblk4 V c 2 t) (iblk4 V c 3 t) (iblk4 V c 4 t) (iblk4 V c 5 t)

abbrev midAt4 (c : Dev nD) (t : Fin cfg4.N) (hf : ¬atFirst4 (grid4.coords t)) (hl : ¬atLast4 (grid4.coords t)) (s10 s11 : Vec F S1x128 .f32) :=
  runMid4 (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) sumRef4 (Memref.isWhole_whole _) sqRef4 (Memref.isWhole_whole _) hf hl (iblk4 V c 0 t) (iblk4 V c 1 t) (iblk4 V c 2 t) (iblk4 V c 3 t) (iblk4 V c 4 t) (iblk4 V c 5 t) s10 s11

abbrev lastAt4 (c : Dev nD) (t : Fin cfg4.N) (hf : ¬atFirst4 (grid4.coords t)) (hl : atLast4 (grid4.coords t)) (s10 s11 : Vec F S1x128 .f32) :=
  runLast4 (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) sumRef4 (Memref.isWhole_whole _) sqRef4 (Memref.isWhole_whole _) hf hl (iblk4 V c 0 t) (iblk4 V c 1 t) (iblk4 V c 2 t) (iblk4 V c 3 t) (iblk4 V c 4 t) (iblk4 V c 5 t) s10 s11

/-- Writes whose pieces tile the shape read back as their canonical contents, whatever was there before. -/
theorem owns_of_stores4 {sh : Shape} (c : Dev nD) (m : Memref sig .tc .vmem sh .f32) (L : List (View.Piece (Elt F) sh .f32))
    (h : View.Piece.tiledL L sh.size = true) :
    (iprop(∃ f, m.view.loc (c : Thread nD τ) ↦[m.view.set]{fullShare} m.view.writes (Elt F) f L) : sProp 𝕄)
      ⊢ owns (c : Thread nD τ) m fullShare (View.canon L) := by
  unfold owns
  iintro ⟨%f, H⟩
  iexists _; isplitr
  swap; · iexact H
  ipureintro; exact View.read_writes_eq_canon _ _ _ (View.cover_of_tiledL _ _ h)

def idleRow4 : Vec F S1x128 .f32 := View.canon []

def firstOuts4 (c : Dev nD) (t : Fin cfg4.N) (hf : atFirst4 (grid4.coords t)) (hl : ¬atLast4 (grid4.coords t)) : Vec F S2000x128 .f32 × Vec F S1x128 .f32 × Vec F S1x128 .f32 × Vec F S1x128 .f32 × Vec F S1x128 .f32 :=
  (View.canon (firstAt4 V c t hf hl).1, idleRow4, idleRow4, View.canon (firstAt4 V c t hf hl).2.1, View.canon (firstAt4 V c t hf hl).2.2.1)

def midOuts4 (c : Dev nD) (t : Fin cfg4.N) (hf : ¬atFirst4 (grid4.coords t)) (hl : ¬atLast4 (grid4.coords t)) (s10 s11 : Vec F S1x128 .f32) : Vec F S2000x128 .f32 × Vec F S1x128 .f32 × Vec F S1x128 .f32 × Vec F S1x128 .f32 × Vec F S1x128 .f32 :=
  (View.canon (midAt4 V c t hf hl s10 s11).1, idleRow4, idleRow4, View.canon (midAt4 V c t hf hl s10 s11).2.1, View.canon (midAt4 V c t hf hl s10 s11).2.2.1)

def lastOuts4 (c : Dev nD) (t : Fin cfg4.N) (hf : ¬atFirst4 (grid4.coords t)) (hl : atLast4 (grid4.coords t)) (s10 s11 : Vec F S1x128 .f32) : Vec F S2000x128 .f32 × Vec F S1x128 .f32 × Vec F S1x128 .f32 × Vec F S1x128 .f32 × Vec F S1x128 .f32 :=
  (View.canon (lastAt4 V c t hf hl s10 s11).1, View.canon (lastAt4 V c t hf hl s10 s11).2.1, View.canon (lastAt4 V c t hf hl s10 s11).2.2.1,
    View.canon (lastAt4 V c t hf hl s10 s11).2.2.2.1, View.canon (lastAt4 V c t hf hl s10 s11).2.2.2.2.1)

def outsAt4 (c : Dev nD) : (n : ℕ) → n < cfg4.N → Vec F S2000x128 .f32 × Vec F S1x128 .f32 × Vec F S1x128 .f32 × Vec F S1x128 .f32 × Vec F S1x128 .f32
  | 0, hn => firstOuts4 V c ⟨0, hn⟩ ((atFirst4_iff ⟨0, hn⟩).mpr rfl) (fun h => absurd ((atLast4_iff ⟨0, hn⟩).mp h) (show ¬(0 : ℕ) = 49 by decide))
  | n + 1, hn =>
    if h : n + 1 = 49 then
      lastOuts4 V c ⟨n + 1, hn⟩ (fun h' => Nat.succ_ne_zero n ((atFirst4_iff ⟨n + 1, hn⟩).mp h')) ((atLast4_iff ⟨n + 1, hn⟩).mpr h)
        (outsAt4 c n (Nat.lt_of_succ_lt hn)).2.2.2.1 (outsAt4 c n (Nat.lt_of_succ_lt hn)).2.2.2.2
    else
      midOuts4 V c ⟨n + 1, hn⟩ (fun h' => Nat.succ_ne_zero n ((atFirst4_iff ⟨n + 1, hn⟩).mp h')) (fun h' => h ((atLast4_iff ⟨n + 1, hn⟩).mp h'))
        (outsAt4 c n (Nat.lt_of_succ_lt hn)).2.2.2.1 (outsAt4 c n (Nat.lt_of_succ_lt hn)).2.2.2.2

theorem outsAt4_first (c : Dev nD) (t : Fin cfg4.N) (h : t.val = 0) :
    outsAt4 V c t.val t.isLt = firstOuts4 V c t ((atFirst4_iff t).mpr h) (fun h' => by have := (atLast4_iff t).mp h'; omega) := by
  obtain ⟨n, hn⟩ := t
  cases n with
  | zero => rfl
  | succ n => exact absurd h (Nat.succ_ne_zero n)

theorem outsAt4_mid (c : Dev nD) (t : Fin cfg4.N) (h0 : 0 < t.val) (h49 : t.val < 49) :
    outsAt4 V c t.val t.isLt = midOuts4 V c t (fun h' => by have := (atFirst4_iff t).mp h'; omega) (fun h' => by have := (atLast4_iff t).mp h'; omega)
      (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd h0 (Nat.lt_irrefl 0)
  | succ n => exact (dif_neg (fun e : n + 1 = 49 => by have : n + 1 < 49 := h49; omega)).trans rfl

theorem outsAt4_last (c : Dev nD) (t : Fin cfg4.N) (h : t.val = 49) :
    outsAt4 V c t.val t.isLt = lastOuts4 V c t (fun h' => by have := (atFirst4_iff t).mp h'; omega) ((atLast4_iff t).mpr h)
      (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd h (show ¬(0 : ℕ) = 49 by decide)
  | succ n => exact (dif_pos (show n + 1 = 49 from h)).trans rfl

abbrev restBut4 (c : Dev nD) : sProp 𝕄 :=
  Pipeline.scopedRestBut (Ix := Unit) (Name := ℕ) (U := UR sig nD τ) (Lvl := ℕ) (Val := Elt F) spec4 c [cc4_scratch0, cc4_scratch1]

def inv4 (c : Dev nD) : (n : ℕ) → n ≤ cfg4.N → sProp 𝕄
  | 0, _ => Pipeline.ΦA spec4 c
  | n + 1, hn => iprop(iprop(iprop(owns (c : Thread nD τ) sumRef4 fullShare (outsAt4 V c n hn).2.2.2.1
      ∗ owns (c : Thread nD τ) sqRef4 fullShare (outsAt4 V c n hn).2.2.2.2) ∗ restBut4 c) ∗ (∃ r, prngReg c r))

theorem inv4_zero (c : Dev nD) (n : ℕ) (h : n ≤ cfg4.N) (hz : n = 0) : inv4 V c n h = Pipeline.ΦA spec4 c := by
  subst hz; rfl

theorem inv4_pos (c : Dev nD) (n : ℕ) (h : n ≤ cfg4.N) (hz : n ≠ 0) :
    inv4 V c n h = iprop(iprop(iprop(owns (c : Thread nD τ) sumRef4 fullShare (outsAt4 V c (n - 1) (by omega)).2.2.2.1
      ∗ owns (c : Thread nD τ) sqRef4 fullShare (outsAt4 V c (n - 1) (by omega)).2.2.2.2) ∗ restBut4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := inv4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem share4 (c : Dev nD) (w : Fin cfg4.W) : (dat4 V c).q w = fullShare := by
  dsimp only [dat4]

theorem owed4 (c : Dev nD) (t : Fin (cfg4.N + 1)) : (dat4 V c).owed t = 0 := by
  dsimp only [dat4]

theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]

/-- The frame rule around a run: what the run leaves alone is carried across, what it returns is weakened piece by piece. -/
theorem frame_run4 {T0 T1 T2 T3 T4 T5 T6 T7 T8 : Type} {A0 A1 A2 A3 A4 A5 X6 PS PQ R G O W6 WS WQ B6 B7 B8 BS BQ : sProp 𝕄}
    {A6 : T6 → sProp 𝕄} {A7 X7 Y7 : T7 → sProp 𝕄} {A8 X8 Y8 : T8 → sProp 𝕄} {c : Dev nD} {p : Prog (TpuEff nD τ sig (Elt F) Λ₀ .tc) PUnit}
    (run : ∀ d7 d8 (K : PUnit → sProp 𝕄), iprop(A0 ∗ A1 ∗ A2 ∗ A3 ∗ A4 ∗ A5 ∗ X6 ∗ X7 d7 ∗ X8 d8 ∗ PS ∗ PQ
      ∗ (iprop(A0 ∗ A1 ∗ A2 ∗ A3 ∗ A4 ∗ A5 ∗ W6 ∗ Y7 d7 ∗ Y8 d8 ∗ WS ∗ WQ) -∗ K ⟨⟩))
        ⊢ wp frame (wpE (defs₀ (F := F)) Variants.none c none) Set.univ p K)
    (h6 : ∀ d, A6 d ⊢ X6) (h7 : ∀ d, A7 d ⊢ X7 d) (h8 : ∀ d, A8 d ⊢ X8 d)
    (k6 : W6 ⊢ B6) (k7 : ∀ d, Y7 d ⊢ B7) (k8 : ∀ d, Y8 d ⊢ B8) (kS : WS ⊢ BS) (kQ : WQ ⊢ BQ) :
    iprop(iprop(iprop(iprop(PS ∗ PQ) ∗ R) ∗ G) ∗ O ∗ (∃ _ : T0, A0) ∗ (∃ _ : T1, A1) ∗ (∃ _ : T2, A2) ∗ (∃ _ : T3, A3) ∗ (∃ _ : T4, A4)
        ∗ (∃ _ : T5, A5) ∗ (∃ d, A6 d) ∗ (∃ d, A7 d) ∗ (∃ d, A8 d))
      ⊢ wp frame (wpE (defs₀ (F := F)) Variants.none c none) Set.univ p fun _ =>
        iprop(iprop(iprop(iprop(BS ∗ BQ) ∗ R) ∗ G) ∗ O ∗ A0 ∗ A1 ∗ A2 ∗ A3 ∗ A4 ∗ A5 ∗ B6 ∗ B7 ∗ B8) := by
  iintro ⟨⟨⟨⟨HS, HQ⟩, HR⟩, HG⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run d7 d8 _)
  iframe H0 H1 H2 H3 H4 H5 HS HQ
  isplitl [H6]; · iapply (h6 d6); iexact H6
  isplitl [H7]; · iapply (h7 d7); iexact H7
  isplitl [H8]; · iapply (h8 d8); iexact H8
  iintro ⟨H0, H1, H2, H3, H4, H5, W6, W7, W8, WS, WQ⟩
  iframe H0 H1 H2 H3 H4 H5 HR HG HO
  isplitl [WS WQ]
  · isplitl [WS]
    · iapply kS; iexact WS
    · iapply kQ; iexact WQ
  isplitl [W6]; · iapply k6; iexact W6
  isplitl [W7]; · iapply (k7 d7); iexact W7
  iapply (k8 d8); iexact W8

set_option maxHeartbeats 3200000 in
/-- The body at any point is the run of that point's control case, framed. -/
theorem body_at4 (c : Dev nD) (t : Fin cfg4.N) :
    iprop(inv4 V c t.val (Nat.le_of_lt t.isLt) ∗ (dat4 V c).owesAt () t.castSucc
      ∗ (∃ d, owns (c : Thread nD τ) (win4_0.stage (cfg4.slots t 0)) fullShare ((dat4 V c).before 0 t d))
      ∗ (∃ d, owns (c : Thread nD τ) (win4_1.stage (cfg4.slots t 1)) fullShare ((dat4 V c).before 1 t d))
      ∗ (∃ d, owns (c : Thread nD τ) (win4_2.stage (cfg4.slots t 2)) fullShare ((dat4 V c).before 2 t d))
      ∗ (∃ d, owns (c : Thread nD τ) (win4_3.stage (cfg4.slots t 3)) fullShare ((dat4 V c).before 3 t d))
      ∗ (∃ d, owns (c : Thread nD τ) (win4_4.stage (cfg4.slots t 4)) fullShare ((dat4 V c).before 4 t d))
      ∗ (∃ d, owns (c : Thread nD τ) (win4_5.stage (cfg4.slots t 5)) fullShare ((dat4 V c).before 5 t d))
      ∗ (∃ d, owns (c : Thread nD τ) (win4_6.stage (cfg4.slots t 6)) fullShare ((dat4 V c).before 6 t d))
      ∗ (∃ d, owns (c : Thread nD τ) (win4_7.stage (cfg4.slots t 7)) fullShare ((dat4 V c).before 7 t d))
      ∗ (∃ d, owns (c : Thread nD τ) (win4_8.stage (cfg4.slots t 8)) fullShare ((dat4 V c).before 8 t d)))
    ⊢ wp frame (wpE (defs₀ (F := F)) Variants.none c none) Set.univ (bodyAt4 t) fun _ =>
      iprop(iprop(iprop(iprop(owns (c : Thread nD τ) sumRef4 fullShare (outsAt4 V c t.val t.isLt).2.2.2.1
          ∗ owns (c : Thread nD τ) sqRef4 fullShare (outsAt4 V c t.val t.isLt).2.2.2.2) ∗ restBut4 c) ∗ (∃ r, prngReg c r))
        ∗ (dat4 V c).owesAt () t.castSucc
        ∗ (dat4 V c).leavesExact 0 t ∗ (dat4 V c).leavesExact 1 t ∗ (dat4 V c).leavesExact 2 t ∗ (dat4 V c).leavesExact 3 t ∗ (dat4 V c).leavesExact 4 t ∗ (dat4 V c).leavesExact 5 t
        ∗ owns (c : Thread nD τ) (win4_6.stage (cfg4.slots t 6)) fullShare (outsAt4 V c t.val t.isLt).1
        ∗ (dat4 V c).leavesExact 7 t ∗ (dat4 V c).leavesExact 8 t) := by
  have hN : t.val < 50 := lt_of_lt_of_eq t.isLt N_4
  unfold bodyAt4
  simp only [held4_0 V (dat4 V c) (A_eq4 V c 0) (fun _ => rfl), held4_1 V (dat4 V c) (A_eq4 V c 1) (fun _ => rfl),
    held4_2 V (dat4 V c) (A_eq4 V c 2) (fun _ => rfl), held4_3 V (dat4 V c) (A_eq4 V c 3) (fun _ => rfl),
    held4_4 V (dat4 V c) (A_eq4 V c 4) (fun _ => rfl), held4_5 V (dat4 V c) (A_eq4 V c 5) (fun _ => rfl)]
  by_cases h0 : t.val = 0
  · have hf := (atFirst4_iff t).mpr h0
    have hl : ¬atLast4 (grid4.coords t) := fun h' => by have := (atLast4_iff t).mp h'; omega
    rw [inv4_zero V c _ _ h0, PhiA4_split, Dat.leavesExact_idle (dat4 V c) 7 t (idle4_7 t hl) (keep4_7 t hl),
      Dat.leavesExact_idle (dat4 V c) 8 t (idle4_8 t hl) (keep4_8 t hl), outsAt4_first V c t h0]
    unfold firstOuts4; dsimp only
    exact frame_run4 (fun d7 d8 K => (firstAt4 V c t hf hl).2.2.2 ((dat4 V c).before 7 t d7) ((dat4 V c).before 8 t d8) Set.univ K)
      (fun _ => by iintro H; iexists _; iexact H) (fun _ => by iintro H; iexact H) (fun _ => by iintro H; iexact H) (owns_of_stores4 c _ _ (by sl_kernel_rfl)) (fun _ => by iintro H; iexists _; iexact H) (fun _ => by iintro H; iexists _; iexact H) (owns_of_stores4 c _ _ (by sl_kernel_rfl)) (owns_of_stores4 c _ _ (by sl_kernel_rfl))
  have hf : ¬atFirst4 (grid4.coords t) := fun h' => h0 ((atFirst4_iff t).mp h')
  rw [inv4_pos V c _ _ h0]
  by_cases h49 : t.val = 49
  · have hl := (atLast4_iff t).mpr h49
    rw [show (dat4 V c).leavesExact 7 t = owns (c : Thread nD τ) (win4_7.stage (cfg4.slots t 7)) fullShare ((dat4 V c).after 7 t) from by
        unfold Dat.leavesExact; rw [live4_7 t hl], after4_7,
      show (dat4 V c).leavesExact 8 t = owns (c : Thread nD τ) (win4_8.stage (cfg4.slots t 8)) fullShare ((dat4 V c).after 8 t) from by
        unfold Dat.leavesExact; rw [live4_8 t hl], after4_8, outsAt4_last V c t h49]
    unfold lastOuts4; dsimp only
    exact frame_run4 (fun _ _ K => (lastAt4 V c t hf hl _ _).2.2.2.2.2 Set.univ K)
      (fun _ => by iintro H; iexists _; iexact H) (fun _ => by iintro H; iexists _; iexact H) (fun _ => by iintro H; iexists _; iexact H) (owns_of_stores4 c _ _ (by sl_kernel_rfl)) (fun _ => owns_of_stores4 c _ _ (by sl_kernel_rfl)) (fun _ => owns_of_stores4 c _ _ (by sl_kernel_rfl)) (owns_of_stores4 c _ _ (by sl_kernel_rfl)) (owns_of_stores4 c _ _ (by sl_kernel_rfl))
  have hl : ¬atLast4 (grid4.coords t) := fun h' => h49 ((atLast4_iff t).mp h')
  rw [Dat.leavesExact_idle (dat4 V c) 7 t (idle4_7 t hl) (keep4_7 t hl), Dat.leavesExact_idle (dat4 V c) 8 t (idle4_8 t hl) (keep4_8 t hl),
    outsAt4_mid V c t (Nat.pos_of_ne_zero h0) (by omega)]
  unfold midOuts4; dsimp only
  exact frame_run4 (fun d7 d8 K => (midAt4 V c t hf hl _ _).2.2.2 ((dat4 V c).before 7 t d7) ((dat4 V c).before 8 t d8) Set.univ K)
    (fun _ => by iintro H; iexists _; iexact H) (fun _ => by iintro H; iexact H) (fun _ => by iintro H; iexact H) (owns_of_stores4 c _ _ (by sl_kernel_rfl)) (fun _ => by iintro H; iexists _; iexact H) (fun _ => by iintro H; iexists _; iexact H) (owns_of_stores4 c _ _ (by sl_kernel_rfl)) (owns_of_stores4 c _ _ (by sl_kernel_rfl))

theorem body_obligation4 (c : Dev nD) : BodyObligation (dat4 (F := F) V c) (defs₀ (F := F)) Variants.none () Set.univ := fun t => by
  rw [bigSep_W4, bigSep_W4]
  exact body_at4 V c t

theorem Phi4_in (c : Dev nD) : Pipeline.ΦA spec4 c ⊢ (dat4 V c).Φ 0 := by
  rw [show (dat4 V c).Φ 0 = inv4 V c 0 (Nat.zero_le _) from rfl, inv4_zero V c 0 _ rfl]
  try exact Idealize.SL.BI.Entails.refl _

/-- Every later invariant weakens to the entry one by forgetting what the accumulators hold. -/
theorem Phi4_back (c : Dev nD) (t : Fin (cfg4.N + 1)) (ht : t.val ≠ 0) : (dat4 V c).Φ t ⊢ Pipeline.ΦA spec4 c := by
  rw [show (dat4 V c).Φ t = inv4 V c t.val (Nat.le_of_lt_succ t.isLt) from rfl, inv4_pos V c _ _ ht, PhiA4_split]
  iintro ⟨⟨⟨HS, HQ⟩, HR⟩, Hg⟩
  isplitl [HS HQ HR]
  · isplitl [HS HQ]
    · isplitl [HS]
      · iexists _; iexact HS
      · iexists _; iexact HQ
    · iexact HR
  · iexact Hg

theorem Phi4_out (c : Dev nD) : (dat4 V c).Φ (Fin.last cfg4.N) ⊢ Pipeline.ΦA spec4 c :=
  Phi4_back V c _ (by rw [Fin.val_last]; have : cfg4.N = 50 := N_4; omega)

end Region

end Cert.KernelIdeal.Hand

end
-- ==== Proof.KI.Chain4.lean ====
import proofs.«137621_j4303557230930_1_alg».proof.Proof.KI.Chain3
import proofs.«137621_j4303557230930_1_alg».proof.Proof.KI.Stats4

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

abbrev entryVal4 (c : Dev nD) : Valuation τ sig (Elt F) := StableHlo.after hostOps4 (exitVal3 m c)
abbrev entry4 : (c : Dev nD) → (b : Ref sig .tc) → Buf (Elt F) ((c : Thread nD τ).loc b) := fun c b => entryVal4 m c b
def exitVal4 (c : Dev nD) : Valuation τ sig (Elt F) :=
  Pipeline.withArrays spec4 c (entryVal4 m c) fun w => (dat4 (entry4 m) c).arrAt w cfg4.N
theorem exitVal4_arr (c : Dev nD) (w : Fin cfg4.W) :
    exitVal4 m c (Proc.devRef .tc (Pipeline.arrRef spec4 w)) = (dat4 (entry4 m) c).arrAt w cfg4.N :=
  Pipeline.withArrays_arr spec4 launch4.win.arr_inj c _ _ w

end Cert.KernelIdeal.Hand

end
-- ==== Proof.KI.Bn5.lean ====
import proofs.«137621_j4303557230930_1_alg».proof.Proof.Gen.KernelIdeal.Launch
import proofs.«137621_j4303557230930_1_alg».proof.Proof.Gen.KernelIdeal.Skeleton
import proofs.«137621_j4303557230930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev wholeBlk5 : Rect S2000x128 := Rect.unit (s := S2000x128) ![0, 0] S2000x128.size inb_S2000x128_S2000x128_0_0
abbrev wholeRow5 : Rect S1x128 := Rect.unit (s := S1x128) ![0, 0] S1x128.size inb_S1x128_S1x128_0_0

theorem zero_off5 : (![0, 0] : Fin 2 → Nat) = fun _ => 0 :=
  funext fun a => by fin_cases a <;> rfl

def oblk5 (xz : Vec F S2000x128 .f32) (xm xv xg xb : Vec F S1x128 .f32) : Vec F S2000x128 .f32 :=
  View.canon [⟨wholeBlk5, k5_pay1 (View.ld xz wholeBlk5) (View.ld xv wholeRow5) (View.ld xg wholeRow5) (View.ld xm wholeRow5) (View.ld xb wholeRow5)⟩]

set_option maxHeartbeats 1000000 in
theorem cc5_triple (c : Dev nD) (E : Set ℕ) {i : grid5.Coords} {az ao : Memref sig .tc .vmem S2000x128 .f32}
    {am av ag ab : Memref sig .tc .vmem S1x128 .f32} {haz : az.IsWhole} {ham : am.IsWhole} {hav : av.IsWhole}
    {hag : ag.IsWhole} {hab : ab.IsWhole} {hao : ao.IsWhole}
    (xz d : Vec F S2000x128 .f32) (xm xv xg xb : Vec F S1x128 .f32) (K : PUnit → sProp 𝕄) :
    iprop(ownsTc c az fullShare xz ∗ ownsTc c am fullShare xm ∗ ownsTc c av fullShare xv
        ∗ ownsTc c ag fullShare xg ∗ ownsTc c ab fullShare xb ∗ ownsTc c ao fullShare d
        ∗ (iprop(ownsTc c az fullShare xz ∗ ownsTc c am fullShare xm ∗ ownsTc c av fullShare xv
            ∗ ownsTc c ag fullShare xg ∗ ownsTc c ab fullShare xb ∗ ownsTc c ao fullShare (oblk5 xz xm xv xg xb)) -∗ K ⟨⟩))
      ⊢ wp frame (wpE (defs₀ (F := F)) Variants.none c none) E (cc5__bn_relu_kernel i az haz am ham av hav ag hag ab hab ao hao) K := by
  simp only [cc5__bn_relu_kernel_eq_skeleton]; unfold cc5__bn_relu_kernel_skel
  unfold ownsTc owns
  iintro ⟨⟨%fz, %hfz, Hz⟩, ⟨%fm, %hfm, Hm⟩, ⟨%fv, %hfv, Hv⟩, ⟨%fg, %hfg, Hg⟩, ⟨%fb, %hfb, Hb⟩, ⟨%fo, -, Ho⟩, Hk⟩
  subst hfz hfm hfv hfg hfb
  sl_exec
  sl_step
  iapply Hk
  isplitl [Hz]
  · iexists fz; isplitr
    · ipureintro; rfl
    · iexact Hz
  isplitl [Hm]
  · iexists fm; isplitr
    · ipureintro; rfl
    · iexact Hm
  isplitl [Hv]
  · iexists fv; isplitr
    · ipureintro; rfl
    · iexact Hv
  isplitl [Hg]
  · iexists fg; isplitr
    · ipureintro; rfl
    · iexact Hg
  isplitl [Hb]
  · iexists fb; isplitr
    · ipureintro; rfl
    · iexact Hb
  iexists _; isplitr
  swap
  · iexact Ho
  · ipureintro
    exact View.read_writes_eq_canon _ _ _ fun y => ⟨_, List.mem_singleton_self _, View.mem_set_unit_zero zero_off5 inb_S2000x128_S2000x128_0_0 y⟩

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => oblk5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem Phi5_in (c : Dev nD) : Pipeline.ΦA spec5 c ⊢ (dat5 V c).Φ 0 := .rfl
theorem Phi5_out (c : Dev nD) : (dat5 V c).Φ (Fin.last cfg5.N) ⊢ Pipeline.ΦA spec5 c := .rfl

theorem share5 (c : Dev nD) (w : Fin cfg5.W) : (dat5 V c).q w = fullShare := rfl

theorem owed5 (c : Dev nD) (t : Fin (cfg5.N + 1)) : (dat5 V c).owed t = 0 := rfl

theorem before5_in (c : Dev nD) (t : Fin cfg5.N) :
    (∀ d, (dat5 V c).before 0 t d = iblk5 V c 0 t) ∧ (∀ d, (dat5 V c).before 1 t d = iblk5 V c 1 t)
    ∧ (∀ d, (dat5 V c).before 2 t d = iblk5 V c 2 t) ∧ (∀ d, (dat5 V c).before 3 t d = iblk5 V c 3 t)
    ∧ (∀ d, (dat5 V c).before 4 t d = iblk5 V c 4 t) := by
  refine ⟨?_, ?_, ?_, ?_, ?_⟩ <;> exact fun d =>
    ((dat5 V c).before_in_eq_fetched _ rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp only [before5_in V c t]
  show _ ⊢ wp _ _ _ (bodyAt5 t) _
  iintro ⟨HΦ, Hw, ⟨%_, Hz⟩, ⟨%_, Hm⟩, ⟨%_, Hv⟩, ⟨%_, Hg⟩, ⟨%_, Hb⟩, ⟨%d, Ho⟩⟩
  iapply (cc5_triple c Set.univ (iblk5 V c 0 t) ((dat5 V c).before 5 t d) (iblk5 V c 1 t) (iblk5 V c 2 t) (iblk5 V c 3 t)
    (iblk5 V c 4 t) _)
  iframe Hz Hm Hv Hg Hb Ho
  iintro ⟨Hz, Hm, Hv, Hg, Hb, Ho⟩
  dsimp only [dat5]
  isplitl [HΦ]; · iexact HΦ
  isplitl [Hw]; · iexact Hw
  iframe

end Cert.KernelIdeal.Hand
-- ==== Proof.KI.Chain5.lean ====
import proofs.«137621_j4303557230930_1_alg».proof.Proof.KI.Chain4
import proofs.«137621_j4303557230930_1_alg».proof.Proof.KI.Bn5

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

abbrev entryVal5 (c : Dev nD) : Valuation τ sig (Elt F) := StableHlo.after hostOps5 (exitVal4 m c)
abbrev entry5 : (c : Dev nD) → (b : Ref sig .tc) → Buf (Elt F) ((c : Thread nD τ).loc b) := fun c b => entryVal5 m c b
def exitVal5 (c : Dev nD) : Valuation τ sig (Elt F) :=
  Pipeline.withArrays spec5 c (entryVal5 m c) fun w => (dat5 (entry5 m) c).arrAt w cfg5.N
theorem exitVal5_arr (c : Dev nD) (w : Fin cfg5.W) :
    exitVal5 m c (Proc.devRef .tc (Pipeline.arrRef spec5 w)) = (dat5 (entry5 m) c).arrAt w cfg5.N :=
  Pipeline.withArrays_arr spec5 launch5.win.arr_inj c _ _ w

end Cert.KernelIdeal.Hand

end
-- ==== Proof.KI.Family.lean ====
import proofs.«137621_j4303557230930_1_alg».proof.Proof.KI.Chain5

set_option maxRecDepth 16384

noncomputable section

namespace Cert.KernelIdeal.Hand

open Cert.KernelIdeal Cert.KernelIdeal.Gen
open Idealize.ShloMosaic Idealize.ShloMosaic.TcCoe
open Idealize.SL Idealize.SL.BI Idealize.SL.BI.BIBase
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
  | ⟨4, _⟩ => fun c => dat4 (entry4 m) c
  | ⟨5, _⟩ => fun c => dat5 (entry5 m) c
abbrev noVariants : Variants := Variants.none
abbrev noLevels : GSem nD τ sig → Finset Unit := fun _ => ∅
abbrev lvl0 : GSem nD τ sig → Unit → ℕ := fun _ _ => 0
abbrev riding (c : Dev nD) : sProp 𝕄 := iprop((∃ r, prngReg c r) ∗ ∃ W, owes (c : Thread nD τ) (0 : CellTallies nD τ sig Unit) W)

end Cert.KernelIdeal.Hand

end
-- ==== Proof.KI.Region.lean ====
import proofs.«137621_j4303557230930_1_alg».proof.Proof.KI.Family

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev RegionAt (p : Fin 6) := Pipeline.RegionSeg (pcfgs (F := F)) adm (pdats m) () defs₀ noVariants noLevels lvl0 p

def regionOf {p : Fin 6} (launch : Pipeline.LaunchFacts (nD := nD) (τ := τ) cfgs p) (entryVal exitVal : Dev nD → Valuation τ sig (Elt F))
    (hbody : ∀ c, BodyObligation (pdats m p c) defs₀ noVariants () Set.univ)
    (howed : ∀ c t, (pdats m p c).owed t = 0) (hrec : ∀ c x, x ∈ (pdats m p c).recorded 0)
    (hq : ∀ c w, (pdats m p c).q w = fullShare)
    (hA : ∀ c w, (pdats m p c).A w = entryVal c (Pipeline.arrRef (Pipeline.pin (pcfgs (F := F)) adm p).spec w))
    (hin : ∀ c, Pipeline.ΦA (Pipeline.pin (pcfgs (F := F)) adm p).spec c ⊢ (pdats m p c).Φ 0)
    (hout : ∀ c, (pdats m p c).Φ (Fin.last _) ⊢ Pipeline.ΦA (Pipeline.pin (pcfgs (F := F)) adm p).spec c)
    (harr : ∀ c w, exitVal c (Proc.devRef .tc (Pipeline.arrRef (Pipeline.pin (pcfgs (F := F)) adm p).spec w)) = (pdats m p c).arrAt w (Pipeline.pin (pcfgs (F := F)) adm p).N)
    (hrest : ∀ c b, (∀ w, Pipeline.arrRef (Pipeline.pin (pcfgs (F := F)) adm p).spec w ≠ b) → exitVal c (Proc.devRef .tc b) = entryVal c (Proc.devRef .tc b)) :
    RegionAt m p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ noLevels lvl0 p howed
  pre c := iprop(StableHlo.held (c : Thread nD τ) (Pipeline.ucRefs τ sig) (entryVal c) ∗ riding c)
  post c := iprop(StableHlo.held (c : Thread nD τ) (Pipeline.ucRefs τ sig) (exitVal c) ∗ riding c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => entryVal c b)
  hentry c := by
    unfold Pipeline.Dat.owesAt Pipeline.owesWithin; rw [howed c 0]
    have hsplit := Pipeline.arrays_of_unscopedBufs (p := p) (pcfgs (F := F)) adm (pdats m) launch.win launch.arr_whole c
      ((pdats m p c).share_full (hq c)) (fun b => entryVal c b) (hA c)
    rw [Pipeline.unscopedBufs_held] at hsplit
    iintro ⟨⟨Hub, Hp, %W, HO⟩, -⟩
    ihave H := hsplit $$ Hub
    icases H with ⟨Ha, Hz⟩
    imodintro
    isplitl [Ha]; · iexact Ha
    isplitr; · istop; exact .rfl
    isplitl [HO]
    · iexists W; isplitr; · ipureintro; exact fun _ _ => Or.inl (hrec c _)
      iexact HO
    isplitl [Hp] <;> iassumption
  hin c := ((sep_mono_r ((sep_mono_l affine).trans emp_sep_elim)).trans sep_comm).trans (hin c)
  hout c := by
    rw [Pipeline.ownSems0_none]
    exact (hout c).trans (sep_comm.trans (sep_mono_r emp_sep_intro))
  hexit c := by
    unfold Pipeline.Dat.owesAt Pipeline.owesWithin; rw [howed c (Fin.last _)]
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => entryVal c b) (fun b => exitVal c b) ((pdats m p c).arrAt · (Pipeline.pin (pcfgs (F := F)) adm p).N) (fun w => (harr c w).symm)
      fun b hb => hrest c b fun w e => hb (Finset.mem_image.mpr ⟨w, Finset.mem_univ _, e⟩)
    rw [Pipeline.unscopedBufs_held] at hjoin
    iintro ⟨Ha, ⟨%W, -, HO⟩, HY, Hz⟩
    imodintro
    isplitl [Ha Hz]
    · iapply hjoin; isplitl [Ha] <;> iassumption
    isplitl [HY]; · iexact HY
    iexists W; iexact HO

end Cert.KernelIdeal.Hand

end
-- ==== Proof.KI.Reg0.lean ====
import proofs.«137621_j4303557230930_1_alg».proof.Proof.KI.Region

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region0 : RegionAt m (p := 0) :=
  regionOf m (p := 0) launch0 (entryVal0 m) (exitVal0 m) (body_obligation0 (entry0 m)) (owed0 (entry0 m)) (fun _ _ => trivial)
    (share0 (entry0 m)) (A_eq0 (entry0 m)) (Phi0_in (entry0 m)) (Phi0_out (entry0 m)) (exitVal0_arr m)
    fun c b hb => Pipeline.withArrays_of_ne spec0 c _ _ b hb

end Cert.KernelIdeal.Hand

end
-- ==== Proof.KI.Reg1.lean ====
import proofs.«137621_j4303557230930_1_alg».proof.Proof.KI.Region

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region1 : RegionAt m (p := 1) :=
  regionOf m (p := 1) launch1 (entryVal1 m) (exitVal1 m) (body_obligation1 (entry1 m)) (owed1 (entry1 m)) (fun _ _ => trivial)
    (share1 (entry1 m)) (A_eq1 (entry1 m)) (Phi1_in (entry1 m)) (Phi1_out (entry1 m)) (exitVal1_arr m)
    fun c b hb => Pipeline.withArrays_of_ne spec1 c _ _ b hb

end Cert.KernelIdeal.Hand

end
-- ==== Proof.KI.Reg2.lean ====
import proofs.«137621_j4303557230930_1_alg».proof.Proof.KI.Region

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region2 : RegionAt m (p := 2) :=
  regionOf m (p := 2) launch2 (entryVal2 m) (exitVal2 m) (body_obligation2 (entry2 m)) (owed2 (entry2 m)) (fun _ _ => trivial)
    (share2 (entry2 m)) (A_eq2 (entry2 m)) (Phi2_in (entry2 m)) (Phi2_out (entry2 m)) (exitVal2_arr m)
    fun c b hb => Pipeline.withArrays_of_ne spec2 c _ _ b hb

end Cert.KernelIdeal.Hand

end
-- ==== Proof.KI.Reg3.lean ====
import proofs.«137621_j4303557230930_1_alg».proof.Proof.KI.Region

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region3 : RegionAt m (p := 3) :=
  regionOf m (p := 3) launch3 (entryVal3 m) (exitVal3 m) (body_obligation3 (entry3 m)) (owed3 (entry3 m)) (fun _ _ => trivial)
    (share3 (entry3 m)) (A_eq3 (entry3 m)) (Phi3_in (entry3 m)) (Phi3_out (entry3 m)) (exitVal3_arr m)
    fun c b hb => Pipeline.withArrays_of_ne spec3 c _ _ b hb

end Cert.KernelIdeal.Hand

end
-- ==== Proof.KI.Reg4.lean ====
import proofs.«137621_j4303557230930_1_alg».proof.Proof.KI.Region

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region4 : RegionAt m (p := 4) :=
  regionOf m (p := 4) launch4 (entryVal4 m) (exitVal4 m) (body_obligation4 (entry4 m)) (owed4 (entry4 m)) (fun _ _ => trivial)
    (share4 (entry4 m)) (A_eq4 (entry4 m)) (Phi4_in (entry4 m)) (Phi4_out (entry4 m)) (exitVal4_arr m)
    fun c b hb => Pipeline.withArrays_of_ne spec4 c _ _ b hb

end Cert.KernelIdeal.Hand

end
-- ==== Proof.KI.Reg5.lean ====
import proofs.«137621_j4303557230930_1_alg».proof.Proof.KI.Region

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

set_option backward.isDefEq.respectTransparency.types false in
def region5 : RegionAt m (p := 5) :=
  regionOf m (p := 5) launch5 (entryVal5 m) (exitVal5 m) (body_obligation5 (entry5 m)) (owed5 (entry5 m)) (fun _ _ => trivial)
    (share5 (entry5 m)) (A_eq5 (entry5 m)) (Phi5_in (entry5 m)) (Phi5_out (entry5 m)) (exitVal5_arr m)
    fun c b hb => Pipeline.withArrays_of_ne spec5 c _ _ b hb

end Cert.KernelIdeal.Hand

end
-- ==== Proof.KI.Kept.lean ====
import proofs.«137621_j4303557230930_1_alg».proof.Proof.Gen.KernelIdeal.Regions
import proofs.«137621_j4303557230930_1_alg».proof.Proof.KI.Chain5

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

abbrev argRefs : List (Ref sig .tc) :=
  [main_arg0, main_arg1, main_arg2, main_arg3, main_arg4, main_arg5, main_arg6, main_arg7]

abbrev edgeRefs : List (Ref sig .tc) := [main_v1, main_v3]

theorem keep {gr n : ℕ} {win : Fin n → Pipeline.WinSpec sig gr} {ops : List (HloOp τ sig (Elt F))} {W L : List (Ref sig .tc)}
    (hW : ops.Forall fun op => op.writes ⊆ (W.map (Proc.devRef (τ := τ) .tc)).toFinset)
    (h : ∀ r ∈ L, r ∉ W ∧ ∀ w, Pipeline.arrRef win w ≠ r) {c : Dev nD} {V : Valuation τ sig (Elt F)} {A} {r : Ref sig .tc} (hr : r ∈ L) :
    Pipeline.withArrays win c (StableHlo.after ops V) A (Proc.devRef .tc r) = V (Proc.devRef .tc r) :=
  (Pipeline.withArrays_of_ne win c _ A r (h r hr).2).trans (StableHlo.after_of_writes_sub ops V hW (h r hr).1)

theorem kept0_args (c : Dev nD) (r : Ref sig .tc) (hr : r ∈ argRefs) :
    exitVal0 m c (Proc.devRef .tc r) = m ((c : Thread nD τ).loc r) := by
  rcases List.mem_cons.mp hr with rfl | hr'
  · exact (exitVal0_arr m c 0).trans <| ((dat0 (entry0 m) c).arrAt_in 0 rfl _).trans <| (A_eq0 (entry0 m) c 0).trans <|
      StableHlo.after_of_writes_sub hostOps0 _ hostOps0_writes (by decide)
  · exact keep (win := spec0) hostOps0_writes (by decide) hr'

theorem kept1_args (c : Dev nD) (r : Ref sig .tc) (hr : r ∈ argRefs) :
    exitVal1 m c (Proc.devRef .tc r) = m ((c : Thread nD τ).loc r) :=
  (keep (win := spec1) hostOps1_writes (by decide) hr).trans (kept0_args m c r hr)

theorem kept2_args (c : Dev nD) (r : Ref sig .tc) (hr : r ∈ argRefs) :
    exitVal2 m c (Proc.devRef .tc r) = m ((c : Thread nD τ).loc r) :=
  (keep (win := spec2) hostOps2_writes (by decide) hr).trans (kept1_args m c r hr)

theorem kept3_args (c : Dev nD) (r : Ref sig .tc) (hr : r ∈ argRefs) :
    exitVal3 m c (Proc.devRef .tc r) = m ((c : Thread nD τ).loc r) :=
  (keep (win := spec3) hostOps3_writes (by decide) hr).trans (kept2_args m c r hr)

theorem kept4_args (c : Dev nD) (r : Ref sig .tc) (hr : r ∈ argRefs) :
    exitVal4 m c (Proc.devRef .tc r) = m ((c : Thread nD τ).loc r) :=
  (keep (win := spec4) hostOps4_writes (by decide) hr).trans (kept3_args m c r hr)

theorem kept5_args (c : Dev nD) (r : Ref sig .tc) (hr : r ∈ argRefs) :
    exitVal5 m c (Proc.devRef .tc r) = m ((c : Thread nD τ).loc r) :=
  (keep (win := spec5) hostOps5_writes (by decide) hr).trans (kept4_args m c r hr)

theorem kept1_edges (c : Dev nD) (r : Ref sig .tc) (hr : r ∈ edgeRefs) :
    exitVal1 m c (Proc.devRef .tc r) = entryVal0 m c (Proc.devRef .tc r) :=
  (keep (win := spec1) hostOps1_writes (by decide) hr).trans
    (Pipeline.withArrays_of_ne spec0 c _ _ r ((by decide : ∀ r ∈ edgeRefs, ∀ w, Pipeline.arrRef spec0 w ≠ r) r hr))

theorem kept3_edges (c : Dev nD) (r : Ref sig .tc) (hr : r ∈ edgeRefs) :
    exitVal3 m c (Proc.devRef .tc r) = entryVal0 m c (Proc.devRef .tc r) :=
  (keep (win := spec3) hostOps3_writes (by decide) hr).trans <|
    (keep (win := spec2) hostOps2_writes (by decide) hr).trans (kept1_edges m c r hr)

end Cert.KernelIdeal.Hand

end
-- ==== Proof.Spec.lean ====
import Idealize.ShloMosaic.PureOps.Ideal
import Idealize.ShloMosaic.Lib.ValueIdx

noncomputable section

open scoped BigOperators

namespace GinSpec

open Idealize.ShloMosaic Idealize.ShloMosaic.ValueIdx

abbrev Mat : Type := Fin 100000 → Fin 128 → EReal
abbrev Wt : Type := Fin 128 → Fin 128 → EReal
abbrev Row : Type := Fin 128 → EReal

abbrev SND : Shape := ⟨2, ![100000, 128]⟩

def toMat (x : SND.Idx → EReal) : Mat := fun r c => x (ix2 r c)
def ofMat (a : Mat) : SND.Idx → EReal := fun i => a (i 0) (i 1)

theorem ofMat_toMat (x : SND.Idx → EReal) : ofMat (toMat x) = x := by
  funext i; exact congrArg x (eq_ix2 i).symm
theorem toMat_ofMat (a : Mat) : toMat (ofMat a) = a := rfl

def sl3 (w : (⟨3, ![3, 128, 128]⟩ : Shape).Idx → EReal) : Fin 3 → Wt := fun i j k => w (ix3 i j k)
def sl2 (b : (⟨2, ![3, 128]⟩ : Shape).Idx → EReal) : Fin 3 → Row := fun i k => b (ix2 i k)

def row1 (x : (⟨2, ![1, 128]⟩ : Shape).Idx → EReal) : Row := fun k => x (ix2 0 k)
def toWt (x : (⟨2, ![128, 128]⟩ : Shape).Idx → EReal) : Wt := fun j k => x (ix2 j k)

def eps : EReal := Ideal.ofBits .f32 0x3727C5AC#32
def cnt : EReal := Ideal.ofBits .f32 0x47C35000#32

def mlp (a : Mat) (w1 : Wt) (b1 : Row) (w2 : Wt) (b2 : Row) : Mat :=
  fun r c => (∑ k : Fin 128, max ((∑ j : Fin 128, a r j * w1 j k) + b1 k) 0 * w2 k c) + b2 c

def colSum (z : Mat) : Row := fun c => ∑ r : Fin 100000, z r c
def meanOf (z : Mat) : Row := fun c => Ideal.div (colSum z c) cnt
def varK (z : Mat) : Row := fun c => Ideal.div (colSum (fun r c => z r c * z r c) c) cnt - meanOf z c * meanOf z c
def varR (z : Mat) : Row :=
  fun c => Ideal.div (colSum (fun r c => (z r c - meanOf z c) * (z r c - meanOf z c)) c) cnt

def bn (z : Mat) (mean var g b : Row) : Mat :=
  fun r c => max (g c * (z r c - mean c) * Ideal.rsqrt (var c + eps) + b c) 0

def layerK (M : Mat → Mat) (h : Mat) (w1 : Wt) (b1 : Row) (w2 : Wt) (b2 g b : Row) : Mat :=
  bn (mlp (fun r c => h r c + M h r c) w1 b1 w2 b2) (meanOf (mlp (fun r c => h r c + M h r c) w1 b1 w2 b2))
    (varK (mlp (fun r c => h r c + M h r c) w1 b1 w2 b2)) g b
def layerR (M : Mat → Mat) (h : Mat) (w1 : Wt) (b1 : Row) (w2 : Wt) (b2 g b : Row) : Mat :=
  bn (mlp (fun r c => h r c + M h r c) w1 b1 w2 b2) (meanOf (mlp (fun r c => h r c + M h r c) w1 b1 w2 b2))
    (varR (mlp (fun r c => h r c + M h r c) w1 b1 w2 b2)) g b

def netK (M : Mat → Mat) (x : Mat) (W1 : Fin 3 → Wt) (B1 : Fin 3 → Row) (W2 : Fin 3 → Wt) (B2 G B : Fin 3 → Row) : Mat :=
  layerK M (layerK M (layerK M x (W1 0) (B1 0) (W2 0) (B2 0) (G 0) (B 0)) (W1 1) (B1 1) (W2 1) (B2 1) (G 1) (B 1))
    (W1 2) (B1 2) (W2 2) (B2 2) (G 2) (B 2)
def netR (M : Mat → Mat) (x : Mat) (W1 : Fin 3 → Wt) (B1 : Fin 3 → Row) (W2 : Fin 3 → Wt) (B2 G B : Fin 3 → Row) : Mat :=
  layerR M (layerR M (layerR M x (W1 0) (B1 0) (W2 0) (B2 0) (G 0) (B 0)) (W1 1) (B1 1) (W2 1) (B2 1) (G 1) (B 1))
    (W1 2) (B1 2) (W2 2) (B2 2) (G 2) (B 2)

end GinSpec

end
-- ==== Proof.KI.HostVals.lean ====
import proofs.«137621_j4303557230930_1_alg».proof.Proof.Gen.KernelIdeal.Regions
import proofs.«137621_j4303557230930_1_alg».proof.Proof.Spec
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

def srcRow (e : IVec S2x800000 32) : IVec S800000 32 :=
  shapeCast S800000 (extractStridedSlice S1x800000 ![0, 0] e slices_S2x800000_S1x800000_0_0) shapeCasts_S1x800000_S800000

def dstRow (e : IVec S2x800000 32) : IVec S800000 32 :=
  shapeCast S800000 (extractStridedSlice S1x800000 ![1, 0] e slices_S2x800000_S1x800000_1_0) shapeCasts_S1x800000_S800000

def wrapIdx (s : IVec S800000 32) : IVec S800000 32 :=
  select (cmpi .slt s (broadcastInDim S800000 ![] bcast_S_S800000 (constantI S_ 32 0#32)))
    (addi s (broadcastInDim S800000 ![] bcast_S_S800000 (constantI S_ 32 100000#32))) s

def msgOf (s d : IVec S800000 32) (h : FVec F S100000x128 .f32) : FVec F S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 d)
    (Host.gather gather_S100000x128_S800000x1_S800000x128_1_0_n_n_0_1_1128 h
      (broadcastInDim S800000x1 ![0] bcast_S800000_S800000x1_0 (wrapIdx s)))

def msgK (e : IVec S2x800000 32) (h : FVec F S100000x128 .f32) : FVec F S100000x128 .f32 :=
  msgOf (srcRow e) (dstRow e) h

-- Layer `l` of a stack of three matrices, cut out and viewed as a matrix, is that layer's matrix.
theorem wt_read (w : S3x128x128.Idx → EReal) (l : Fin 3) (h : S3x128x128.Slices ![l.val, 0, 0] S1x128x128)
    (hc : S1x128x128.ShapeCasts S128x128) :
    GinSpec.toWt (shapeCast S128x128 (extractStridedSlice S1x128x128 ![l.val, 0, 0] w h) hc) = GinSpec.sl3 w l := by
  funext j k
  exact (shapeCast_1ab_ab_apply _ hc j k).trans (extractStridedSlice_apply _ w h _ (ix3 l j k) fun a => match a with
    | ⟨0, _⟩ => (Nat.add_zero _).symm
    | ⟨1, _⟩ => (Nat.zero_add _).symm
    | ⟨2, _⟩ => (Nat.zero_add _).symm)

-- Layer `l` of a stack of three rows, cut out, flattened and viewed as one row again, is that layer's row.
theorem row_read (b : S3x128.Idx → EReal) (l : Fin 3) (h : S3x128.Slices ![l.val, 0] S1x128)
    (h1 : S1x128.ShapeCasts S128) (h2 : S128.ShapeCasts S1x128) :
    GinSpec.row1 (shapeCast S1x128 (shapeCast S128 (extractStridedSlice S1x128 ![l.val, 0] b h) h1) h2) = GinSpec.sl2 b l := by
  funext k
  exact (shapeCast_a_1a_apply _ h2 0 k).trans ((shapeCast_1a_a_apply _ h1 k).trans
    (slice2_axis0_apply l.val b h 0 k l (Nat.add_zero _).symm))

section
variable (W : Valuation τ sig (Elt F))

theorem host0_src :
    StableHlo.after hostOps0 W (Proc.devRef .tc main_v1) = srcRow (W (Proc.devRef .tc main_arg1)) := by
  after_results; rfl

theorem host0_dst :
    StableHlo.after hostOps0 W (Proc.devRef .tc main_v3) = dstRow (W (Proc.devRef .tc main_arg1)) := by
  after_results; rfl

theorem host0_msg :
    StableHlo.after hostOps0 W (Proc.devRef .tc main_v13) = msgK (W (Proc.devRef .tc main_arg1)) (W (Proc.devRef .tc main_arg0)) := by
  after_results_simp; rfl

theorem host0_h :
    StableHlo.after hostOps0 W (Proc.devRef .tc main_arg0) = W (Proc.devRef .tc main_arg0) :=
  StableHlo.after_of_writes_sub hostOps0 W hostOps0_writes (by decide)

theorem host1_z :
    StableHlo.after hostOps1 W (Proc.devRef .tc main_v24_0) = W (Proc.devRef .tc main_v24_0) :=
  StableHlo.after_of_writes_sub hostOps1 W hostOps1_writes (by decide)

theorem host2_msgK (e : IVec S2x800000 32)
    (hs : W (Proc.devRef .tc main_v1) = srcRow e) (hd : W (Proc.devRef .tc main_v3) = dstRow e) :
    StableHlo.after hostOps2 W (Proc.devRef .tc main_v47) = msgK e (W (Proc.devRef .tc main_v37)) := by
  after_results_simp; rw [hs, hd]; rfl

theorem host2_h :
    StableHlo.after hostOps2 W (Proc.devRef .tc main_v37) = W (Proc.devRef .tc main_v37) :=
  StableHlo.after_of_writes_sub hostOps2 W hostOps2_writes (by decide)

theorem host3_z :
    StableHlo.after hostOps3 W (Proc.devRef .tc main_v58_0) = W (Proc.devRef .tc main_v58_0) :=
  StableHlo.after_of_writes_sub hostOps3 W hostOps3_writes (by decide)

theorem host4_msgK (e : IVec S2x800000 32)
    (hs : W (Proc.devRef .tc main_v1) = srcRow e) (hd : W (Proc.devRef .tc main_v3) = dstRow e) :
    StableHlo.after hostOps4 W (Proc.devRef .tc main_v81) = msgK e (W (Proc.devRef .tc main_v71)) := by
  after_results_simp; rw [hs, hd]; rfl

theorem host4_h :
    StableHlo.after hostOps4 W (Proc.devRef .tc main_v71) = W (Proc.devRef .tc main_v71) :=
  StableHlo.after_of_writes_sub hostOps4 W hostOps4_writes (by decide)

theorem host5_z :
    StableHlo.after hostOps5 W (Proc.devRef .tc main_v92_0) = W (Proc.devRef .tc main_v92_0) :=
  StableHlo.after_of_writes_sub hostOps5 W hostOps5_writes (by decide)

end

variable (W : Valuation τ sig (Elt Ideal))

theorem host0_w1_toWt :
    GinSpec.toWt (StableHlo.after hostOps0 W (Proc.devRef .tc main_v15)) = GinSpec.sl3 (W (Proc.devRef .tc main_arg2)) 0 := by
  after_results
  exact wt_read _ 0 _ _

theorem host0_b1 :
    GinSpec.row1 (StableHlo.after hostOps0 W (Proc.devRef .tc main_v18)) = GinSpec.sl2 (W (Proc.devRef .tc main_arg3)) 0 := by
  after_results
  exact row_read _ 0 _ _ _

theorem host0_w2_toWt :
    GinSpec.toWt (StableHlo.after hostOps0 W (Proc.devRef .tc main_v20)) = GinSpec.sl3 (W (Proc.devRef .tc main_arg4)) 0 := by
  after_results
  exact wt_read _ 0 _ _

theorem host0_b2 :
    GinSpec.row1 (StableHlo.after hostOps0 W (Proc.devRef .tc main_v23)) = GinSpec.sl2 (W (Proc.devRef .tc main_arg5)) 0 := by
  after_results
  exact row_read _ 0 _ _ _

theorem host1_mean :
    GinSpec.row1 (StableHlo.after hostOps1 W (Proc.devRef .tc main_v26))
      = fun k => Ideal.div (GinSpec.row1 (W (Proc.devRef .tc main_v24_1)) k) GinSpec.cnt := by
  after_results; rfl

theorem host1_var :
    GinSpec.row1 (StableHlo.after hostOps1 W (Proc.devRef .tc main_v30))
      = fun k => Ideal.div (GinSpec.row1 (W (Proc.devRef .tc main_v24_2)) k) GinSpec.cnt
          - Ideal.div (GinSpec.row1 (W (Proc.devRef .tc main_v24_1)) k) GinSpec.cnt
            * Ideal.div (GinSpec.row1 (W (Proc.devRef .tc main_v24_1)) k) GinSpec.cnt := by
  after_results; rfl

theorem host1_gamma :
    GinSpec.row1 (StableHlo.after hostOps1 W (Proc.devRef .tc main_v33)) = GinSpec.sl2 (W (Proc.devRef .tc main_arg6)) 0 := by
  after_results
  exact row_read _ 0 _ _ _

theorem host1_beta :
    GinSpec.row1 (StableHlo.after hostOps1 W (Proc.devRef .tc main_v36)) = GinSpec.sl2 (W (Proc.devRef .tc main_arg7)) 0 := by
  after_results
  exact row_read _ 0 _ _ _

theorem host2_w1_toWt :
    GinSpec.toWt (StableHlo.after hostOps2 W (Proc.devRef .tc main_v49)) = GinSpec.sl3 (W (Proc.devRef .tc main_arg2)) 1 := by
  after_results
  exact wt_read _ 1 _ _

theorem host2_b1 :
    GinSpec.row1 (StableHlo.after hostOps2 W (Proc.devRef .tc main_v52)) = GinSpec.sl2 (W (Proc.devRef .tc main_arg3)) 1 := by
  after_results
  exact row_read _ 1 _ _ _

theorem host2_w2_toWt :
    GinSpec.toWt (StableHlo.after hostOps2 W (Proc.devRef .tc main_v54)) = GinSpec.sl3 (W (Proc.devRef .tc main_arg4)) 1 := by
  after_results
  exact wt_read _ 1 _ _

theorem host2_b2 :
    GinSpec.row1 (StableHlo.after hostOps2 W (Proc.devRef .tc main_v57)) = GinSpec.sl2 (W (Proc.devRef .tc main_arg5)) 1 := by
  after_results
  exact row_read _ 1 _ _ _

theorem host3_mean :
    GinSpec.row1 (StableHlo.after hostOps3 W (Proc.devRef .tc main_v60))
      = fun k => Ideal.div (GinSpec.row1 (W (Proc.devRef .tc main_v58_1)) k) GinSpec.cnt := by
  after_results; rfl

theorem host3_var :
    GinSpec.row1 (StableHlo.after hostOps3 W (Proc.devRef .tc main_v64))
      = fun k => Ideal.div (GinSpec.row1 (W (Proc.devRef .tc main_v58_2)) k) GinSpec.cnt
          - Ideal.div (GinSpec.row1 (W (Proc.devRef .tc main_v58_1)) k) GinSpec.cnt
            * Ideal.div (GinSpec.row1 (W (Proc.devRef .tc main_v58_1)) k) GinSpec.cnt := by
  after_results; rfl

theorem host3_gamma :
    GinSpec.row1 (StableHlo.after hostOps3 W (Proc.devRef .tc main_v67)) = GinSpec.sl2 (W (Proc.devRef .tc main_arg6)) 1 := by
  after_results
  exact row_read _ 1 _ _ _

theorem host3_beta :
    GinSpec.row1 (StableHlo.after hostOps3 W (Proc.devRef .tc main_v70)) = GinSpec.sl2 (W (Proc.devRef .tc main_arg7)) 1 := by
  after_results
  exact row_read _ 1 _ _ _

theorem host4_w1_toWt :
    GinSpec.toWt (StableHlo.after hostOps4 W (Proc.devRef .tc main_v83)) = GinSpec.sl3 (W (Proc.devRef .tc main_arg2)) 2 := by
  after_results
  exact wt_read _ 2 _ _

theorem host4_b1 :
    GinSpec.row1 (StableHlo.after hostOps4 W (Proc.devRef .tc main_v86)) = GinSpec.sl2 (W (Proc.devRef .tc main_arg3)) 2 := by
  after_results
  exact row_read _ 2 _ _ _

theorem host4_w2_toWt :
    GinSpec.toWt (StableHlo.after hostOps4 W (Proc.devRef .tc main_v88)) = GinSpec.sl3 (W (Proc.devRef .tc main_arg4)) 2 := by
  after_results
  exact wt_read _ 2 _ _

theorem host4_b2 :
    GinSpec.row1 (StableHlo.after hostOps4 W (Proc.devRef .tc main_v91)) = GinSpec.sl2 (W (Proc.devRef .tc main_arg5)) 2 := by
  after_results
  exact row_read _ 2 _ _ _

theorem host5_mean :
    GinSpec.row1 (StableHlo.after hostOps5 W (Proc.devRef .tc main_v94))
      = fun k => Ideal.div (GinSpec.row1 (W (Proc.devRef .tc main_v92_1)) k) GinSpec.cnt := by
  after_results; rfl

theorem host5_var :
    GinSpec.row1 (StableHlo.after hostOps5 W (Proc.devRef .tc main_v98))
      = fun k => Ideal.div (GinSpec.row1 (W (Proc.devRef .tc main_v92_2)) k) GinSpec.cnt
          - Ideal.div (GinSpec.row1 (W (Proc.devRef .tc main_v92_1)) k) GinSpec.cnt
            * Ideal.div (GinSpec.row1 (W (Proc.devRef .tc main_v92_1)) k) GinSpec.cnt := by
  after_results; rfl

theorem host5_gamma :
    GinSpec.row1 (StableHlo.after hostOps5 W (Proc.devRef .tc main_v101)) = GinSpec.sl2 (W (Proc.devRef .tc main_arg6)) 2 := by
  after_results
  exact row_read _ 2 _ _ _

theorem host5_beta :
    GinSpec.row1 (StableHlo.after hostOps5 W (Proc.devRef .tc main_v104)) = GinSpec.sl2 (W (Proc.devRef .tc main_arg7)) 2 := by
  after_results
  exact row_read _ 2 _ _ _

end Cert.KernelIdeal.Hand

end
-- ==== Proof.Ref.Terms.lean ====
import proofs.«137621_j4303557230930_1_alg».proof.ReferenceIdeal
import Idealize.ShloMosaic.PureOps.Ideal

noncomputable section

namespace Cert.ReferenceIdeal.Hand

open Idealize.ShloMosaic Idealize.SL.Sem
open Cert.ReferenceIdeal.Facts₀ Cert.ReferenceIdeal.Facts

variable [hP : Cert.ReferenceIdeal.Facts]

def srcRow (e : IVec S2x800000 32) : IVec S800000 32 :=
  fun i => shapeCast S800000 (extractStridedSlice S1x800000 ![0, 0] e slices_S2x800000_S1x800000_0_0) shapeCasts_S1x800000_S800000 i

def dstRow (e : IVec S2x800000 32) : IVec S800000 32 :=
  fun i => shapeCast S800000 (extractStridedSlice S1x800000 ![1, 0] e slices_S2x800000_S1x800000_1_0) shapeCasts_S1x800000_S800000 i

-- A negative source number counts from the end: s + 100000 where s < 0, else s.
def srcWrap (e : IVec S2x800000 32) : IVec S800000 32 :=
  select (cmpi .slt (srcRow e) (broadcastInDim S800000 ![] bcast_S_S800000 (constantI S_ 32 0#32)))
    (addi (srcRow e) (broadcastInDim S800000 ![] bcast_S_S800000 (constantI S_ 32 100000#32)))
    (srcRow e)

def zeroFeat : FVec Ideal S100000x128 .f32 :=
  broadcastInDim S100000x128 ![] bcast_S_S100000x128 (constant S_ .f32 0x00000000#32)

def rowsOf (v : FVec Ideal S128 .f32) : FVec Ideal S100000x128 .f32 :=
  broadcastInDim S100000x128 ![0, 1] bcast_S1x128_S100000x128_0_1 (broadcastInDim S1x128 ![1] bcast_S128_S1x128_1 v)

def matAt (k : Nat) (hk : S3x128x128.Slices ![k, 0, 0] S1x128x128) (W : FVec Ideal S3x128x128 .f32) : FVec Ideal S128x128 .f32 :=
  fun i => shapeCast S128x128 (extractStridedSlice S1x128x128 ![k, 0, 0] W hk) shapeCasts_S1x128x128_S128x128 i

def rowAt (k : Nat) (hk : S3x128.Slices ![k, 0] S1x128) (b : FVec Ideal S3x128 .f32) : FVec Ideal S128 .f32 :=
  fun i => shapeCast S128 (extractStridedSlice S1x128 ![k, 0] b hk) shapeCasts_S1x128_S128 i

-- Row d of the messages: the sum, over the edges into d, of the source's row of h.
def msgT (e : IVec S2x800000 32) (h : FVec Ideal S100000x128 .f32) : FVec Ideal S100000x128 .f32 :=
  Host.scatterAdd scatter_S100000x128_S800000x1_S800000x128_1_0_0_1
    zeroFeat
    (broadcastInDim S800000x1 ![0] bcast_S800000_S800000x1_0 (dstRow e))
    (Host.gather gather_S100000x128_S800000x1_S800000x128_1_0_n_n_0_1_1128 h
      (broadcastInDim S800000x1 ![0] bcast_S800000_S800000x1_0 (srcWrap e)))

def colSum (z : FVec Ideal S100000x128 .f32) : FVec Ideal S128 .f32 :=
  Host.reduceAdd z (constant S_ .f32 0x00000000#32) reducesTo_S100000x128_S128_d0 h_S_

def meanT (z : FVec Ideal S100000x128 .f32) : FVec Ideal S128 .f32 :=
  Host.divf (colSum z) (broadcastInDim S128 ![] bcast_S_S128 (constant S_ .f32 0x47C35000#32))

-- The variance's divisor: the row count less a correction of zero.
def countT : FVec Ideal S_ .f32 :=
  subf (constant S_ .f32 0x47C35000#32) (sitofp .f32 (constantI S_ 32 0#32))

-- z less its column means, the means taken through a 1 × 128 row.
def centredT (z : FVec Ideal S100000x128 .f32) : FVec Ideal S100000x128 .f32 :=
  subf z
    (broadcastInDim S100000x128 ![0, 1] bcast_S1x128_S100000x128_0_1
      (Host.divf (broadcastInDim S1x128 ![1] bcast_S128_S1x128_1 (colSum z))
        (broadcastInDim S1x128 ![] bcast_S_S1x128 (constant S_ .f32 0x47C35000#32))))

-- The column sums of the squared centred values over the divisor, guarded by the divisor being positive.
def varT (z : FVec Ideal S100000x128 .f32) : FVec Ideal S128 .f32 :=
  select (broadcastInDim S128 ![] bcast_S_S128 (cmpf .ogt countT (constant S_ .f32 0x00000000#32)))
    (Host.divf (colSum (mulf (centredT z) (centredT z))) (broadcastInDim S128 ![] bcast_S_S128 countT))
    (broadcastInDim S128 ![] bcast_S_S128 (id (constant S_ .f32 0x7FC00000#32)))

-- max(0, g · (z − mean z) · rsqrt(var z + ε) + b)
def normT (z : FVec Ideal S100000x128 .f32) (g b : FVec Ideal S128 .f32) : FVec Ideal S100000x128 .f32 :=
  maximumf
    (addf
      (mulf (mulf (rowsOf g) (subf z (rowsOf (meanT z))))
        (rowsOf (Host.rsqrt (addf (varT z) (broadcastInDim S128 ![] bcast_S_S128 (constant S_ .f32 0x3727C5AC#32))))))
      (rowsOf b))
    zeroFeat

variable (k : Nat) (hW : S3x128x128.Slices ![k, 0, 0] S1x128x128) (hb : S3x128.Slices ![k, 0] S1x128)
  (h : FVec Ideal S100000x128 .f32) (e : IVec S2x800000 32) (W1 : FVec Ideal S3x128x128 .f32) (b1 : FVec Ideal S3x128 .f32)
  (W2 : FVec Ideal S3x128x128 .f32) (b2 g b : FVec Ideal S3x128 .f32)

-- x · Wₖ + bₖ on every row
def dense (x : FVec Ideal S100000x128 .f32) (W : FVec Ideal S3x128x128 .f32) (c : FVec Ideal S3x128 .f32) :
    FVec Ideal S100000x128 .f32 :=
  addf (Host.dotGeneral dot_S100000x128_S128x128_S100000x128_1_0_0_1_n_n none x (matAt k hW W)) (rowsOf (rowAt k hb c))

-- Layer k's perceptron of features plus messages.
def zT : FVec Ideal S100000x128 .f32 :=
  dense k hW hb (maximumf (dense k hW hb (addf h (msgT e h)) W1 b1) zeroFeat) W2 b2

def layerT : FVec Ideal S100000x128 .f32 :=
  normT (zT k hW hb h e W1 b1 W2 b2) (rowAt k hb g) (rowAt k hb b)

-- Three layers over the same edges, each with its own slice of the parameters.
def resT : FVec Ideal S100000x128 .f32 :=
  layerT 2 slices_S3x128x128_S1x128x128_2_0_0 slices_S3x128_S1x128_2_0
    (layerT 1 slices_S3x128x128_S1x128x128_1_0_0 slices_S3x128_S1x128_1_0
      (layerT 0 slices_S3x128x128_S1x128x128_0_0_0 slices_S3x128_S1x128_0_0 h e W1 b1 W2 b2 g b) e W1 b1 W2 b2 g b)
    e W1 b1 W2 b2 g b

end Cert.ReferenceIdeal.Hand

end
-- ==== Proof.LibRealClosure.lean ====
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic

@[reducible] def IsReal (x : EReal) : Prop := ∃ r : ℝ, x = (r : EReal)

theorem isReal_coe (r : ℝ) : IsReal (r : EReal) := ⟨r, rfl⟩
theorem isReal_zero : IsReal 0 := ⟨0, rfl⟩
theorem isReal_of_ne {x : EReal} (hb : x ≠ ⊥) (ht : x ≠ ⊤) : IsReal x :=
  ⟨x.toReal, (EReal.coe_toReal ht hb).symm⟩
theorem IsReal.coe_toReal {x : EReal} (h : IsReal x) : (x.toReal : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, rfl⟩
theorem IsReal.sub {x y : EReal} (hx : IsReal x) (hy : IsReal y) : IsReal (x - y) := by
  obtain ⟨a, rfl⟩ := hx; obtain ⟨b, rfl⟩ := hy; exact ⟨a - b, rfl⟩
theorem IsReal.mul {x y : EReal} (hx : IsReal x) (hy : IsReal y) : IsReal (x * y) := by
  obtain ⟨a, rfl⟩ := hx; obtain ⟨b, rfl⟩ := hy; exact ⟨a * b, rfl⟩
theorem IsReal.max {x y : EReal} (hx : IsReal x) (hy : IsReal y) : IsReal (max x y) := by
  rcases max_choice x y with h | h <;> rw [h] <;> assumption

theorem isReal_sum {ι : Type*} (s : Finset ι) (f : ι → EReal) (h : ∀ i ∈ s, IsReal (f i)) :
    IsReal (∑ i ∈ s, f i) :=
  Finset.sum_induction f IsReal (fun _ _ => IsReal.add) isReal_zero h
theorem isReal_sum_univ {ι : Type*} [Fintype ι] (f : ι → EReal) (h : ∀ i, IsReal (f i)) :
    IsReal (∑ i, f i) := isReal_sum _ f fun i _ => h i
theorem coe_finset_sum {ι : Type*} (s : Finset ι) (f : ι → ℝ) :
    ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩

theorem cmp_ogt_eq_one_iff {a b : EReal} : Ideal.cmp .ogt a b = 1#1 ↔ b < a := by
  show BitVec.ofBool (decide (b < a)) = 1#1 ↔ b < a
  by_cases h : b < a <;> simp [h]

theorem ofBits_zero_f32 : Ideal.ofBits .f32 0x00000000#32 = 0 := Ideal.ofBits_zero_f32
theorem ofBits_pos_inf_f32 : Ideal.ofBits .f32 0x7F800000#32 = ⊤ := by simp [Ideal.ofBits, Ideal.ieee]

theorem isReal_scatterAdd {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  (hx i).add (isReal_sum _ _ fun j _ => hu j)

end RealClosure
-- ==== Proof.Ref.Reads.lean ====
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.Lib.StackMember
import Idealize.ShloMosaic.PureOps.Ideal.Laws
import proofs.«137621_j4303557230930_1_alg».proof.ReferenceIdeal
import proofs.«137621_j4303557230930_1_alg».proof.Proof.Gen.ReferenceIdeal
import proofs.«137621_j4303557230930_1_alg».proof.Proof.Spec
import proofs.«137621_j4303557230930_1_alg».proof.Proof.LibRealClosure
import proofs.«137621_j4303557230930_1_alg».proof.Proof.Ref.Terms

noncomputable section

open scoped BigOperators

namespace Cert.ReferenceIdeal.Hand

open Idealize.ShloMosaic Idealize.ShloMosaic.ValueIdx
open Cert.ReferenceIdeal Cert.ReferenceIdeal.Facts₀

variable [hP : Cert.ReferenceIdeal.Facts]

-- The program's product is the plain one: rows times a square matrix.
theorem dot_apply (x : FVec Ideal S100000x128 .f32) (w : FVec Ideal S128x128 .f32) (r : Fin 100000) (c : Fin 128) :
    Host.dotGeneral (F := Ideal) dot_S100000x128_S128x128_S100000x128_1_0_0_1_n_n none x w (ix2 r c)
      = ∑ k : Fin 128, x (ix2 r k) * w (ix2 k c) :=
  StackMember.dotGeneral_plain_apply none x w r c

theorem reduce_zero_apply (x : FVec Ideal S100000x128 .f32) (c : Fin 128) :
    Host.reduceAdd (F := Ideal) x (constant S_ .f32 0x00000000#32) reducesTo_S100000x128_S128_d0 h_S_ (ix1 c)
      = ∑ r : Fin 100000, x (ix2 r c) := by
  rw [hostReduceAdd_apply, Ideal.hostReduceAdd_single reducesTo_S100000x128_S128_d0 (by decide), constant_apply,
    Ideal.ofBits_zero_f32, zero_add]
  exact Finset.sum_congr rfl fun r _ => congrArg x (funext fun a => match a with | ⟨0, _⟩ => rfl | ⟨1, _⟩ => rfl)

theorem bcast_row_apply {α : Type} (v : S128.Idx → α) (u : Fin 1) (c : Fin 128) :
    broadcastInDim S1x128 ![1] bcast_S128_S1x128_1 v (ix2 u c) = v (ix1 c) :=
  broadcastInDim_apply _ _ v _ (ix1 c) fun a => match a with | ⟨0, _⟩ => rfl

theorem matAt_apply (k : Nat) (hW : S3x128x128.Slices ![k, 0, 0] S1x128x128) (W : FVec Ideal S3x128x128 .f32)
    (i : Fin 3) (hi : i.val = k) (j c : Fin 128) : matAt k hW W (ix2 j c) = W (ix3 i j c) := by
  refine (shapeCast_1ab_ab_apply _ _ j c).trans (extractStridedSlice_apply _ W hW _ (ix3 i j c) fun a => ?_)
  match a with
  | ⟨0, _⟩ => exact hi.trans (Nat.add_zero k).symm
  | ⟨1, _⟩ => exact (Nat.zero_add _).symm
  | ⟨2, _⟩ => exact (Nat.zero_add _).symm

theorem rowAt_apply (k : Nat) (hb : S3x128.Slices ![k, 0] S1x128) (b : FVec Ideal S3x128 .f32)
    (i : Fin 3) (hi : i.val = k) (c : Fin 128) : rowAt k hb b (ix1 c) = b (ix2 i c) := by
  refine (shapeCast_1a_a_apply _ _ c).trans (extractStridedSlice_apply _ b hb _ (ix2 i c) fun a => ?_)
  match a with
  | ⟨0, _⟩ => exact hi.trans (Nat.add_zero k).symm
  | ⟨1, _⟩ => exact (Nat.zero_add _).symm

theorem hostRsqrt_apply {s : Shape} (a : FVec Ideal s .f32) (i : s.Idx) : Host.rsqrt a i = Ideal.rsqrt (a i) := rfl

-- The row count is the real number 100000, which is positive.
theorem cnt_pos : (0 : EReal) < GinSpec.cnt := by
  have h : GinSpec.cnt = ((100000 : ℝ) : EReal) := by simp [GinSpec.cnt, Ideal.ofBits, Ideal.ieee, -EReal.coe_mul]; norm_num
  rw [h]; exact_mod_cast (by norm_num : (0 : ℝ) < 100000)

-- The variance's divisor, the row count less the integer 0 converted, is the row count.
theorem guard_count (j : S_.Idx) :
    subf (F := Ideal) (constant S_ .f32 0x47C35000#32) (sitofp .f32 (constantI S_ 32 0#32)) j = GinSpec.cnt := by
  show Ideal.ofBits .f32 0x47C35000#32 - (((0#32 : BitVec 32).toInt : ℝ) : EReal) = GinSpec.cnt
  have : ((0#32 : BitVec 32).toInt : ℝ) = 0 := by norm_num
  rw [this, EReal.coe_zero, sub_zero]; rfl

-- The divisor exceeds zero, so the guarded choice is the quotient.
theorem guard_select (q e : FVec Ideal S128 .f32) (j : S128.Idx) :
    select (broadcastInDim S128 ![] bcast_S_S128
        (cmpf (F := Ideal) .ogt (subf (constant S_ .f32 0x47C35000#32) (sitofp .f32 (constantI S_ 32 0#32)))
          (constant S_ .f32 0x00000000#32))) q e j = q j := by
  rw [select_apply, broadcastInDim_scalar_apply]
  show Scalar.select (Ideal.cmp .ogt (subf (F := Ideal) (constant S_ .f32 0x47C35000#32) (sitofp .f32 (constantI S_ 32 0#32)) ix0)
    (Ideal.ofBits .f32 0x00000000#32)) _ _ = _
  rw [guard_count, Ideal.ofBits_zero_f32, RealClosure.cmp_ogt_eq_one_iff.2 cnt_pos, select_one]

end Cert.ReferenceIdeal.Hand

end
-- ==== Proof.Ref.Value.lean ====
import proofs.«137621_j4303557230930_1_alg».proof.Proof.Ref.Reads
import proofs.«137621_j4303557230930_1_alg».proof.Proof.Ref.Terms

noncomputable section

open scoped BigOperators

namespace Cert.ReferenceIdeal.Hand

open Idealize.ShloMosaic Idealize.ShloMosaic.ValueIdx
open Cert.ReferenceIdeal Cert.ReferenceIdeal.Facts₀

variable [hP : Cert.ReferenceIdeal.Facts]

def msgR (e : IVec Cert.ReferenceIdeal.S2x800000 32) : GinSpec.Mat → GinSpec.Mat :=
  fun h => GinSpec.toMat (msgT e (GinSpec.ofMat h))

-- An array that reads as a function of row and column is that function's array.
theorem eq_ofMat {x : FVec Ideal S100000x128 .f32} {a : GinSpec.Mat} (h : ∀ r c, x (ix2 r c) = a r c) : x = GinSpec.ofMat a :=
  (GinSpec.ofMat_toMat x).symm.trans (congrArg GinSpec.ofMat (funext₂ h))

theorem zeroFeat_apply (i : S100000x128.Idx) : zeroFeat i = 0 :=
  (broadcastInDim_scalar_apply _ _ i).trans Ideal.ofBits_zero_f32

theorem rowsOf_apply (v : FVec Ideal S128 .f32) (r : Fin 100000) (c : Fin 128) : rowsOf v (ix2 r c) = v (ix1 c) :=
  (broadcastInDim_oneRow_apply _ _ r c).trans (bcast_row_apply v 0 c)

theorem colSum_apply (z : FVec Ideal S100000x128 .f32) (c : Fin 128) :
    colSum z (ix1 c) = GinSpec.colSum (GinSpec.toMat z) c :=
  reduce_zero_apply z c

-- The variance's own centring, its mean taken through a one-row array, is by the column mean.
theorem centredT_apply (z : FVec Ideal S100000x128 .f32) (r : Fin 100000) (c : Fin 128) :
    centredT z (ix2 r c) = GinSpec.toMat z r c - GinSpec.meanOf (GinSpec.toMat z) c := by
  unfold centredT
  rw [subf_apply, broadcastInDim_oneRow_apply, hostDivf_apply, bcast_row_apply, colSum_apply, broadcastInDim_scalar_apply]
  rfl

-- The guarded variance is the mean of the squared deviations from the column mean.
theorem varT_apply (z : FVec Ideal S100000x128 .f32) (c : Fin 128) :
    varT z (ix1 c) = GinSpec.varR (GinSpec.toMat z) c := by
  unfold varT countT
  rw [guard_select, hostDivf_apply, colSum_apply, broadcastInDim_scalar_apply, guard_count]
  unfold GinSpec.varR GinSpec.colSum GinSpec.toMat
  simp only [mulf_apply, centredT_apply]
  rfl

theorem normT_eq (z : FVec Ideal S100000x128 .f32) (g b : FVec Ideal S128 .f32) :
    normT z g b = GinSpec.ofMat (GinSpec.bn (GinSpec.toMat z) (GinSpec.meanOf (GinSpec.toMat z))
      (GinSpec.varR (GinSpec.toMat z)) (fun c => g (ix1 c)) (fun c => b (ix1 c))) := by
  refine eq_ofMat fun r c => ?_
  unfold normT meanT
  rw [maximumf_apply, addf_apply, mulf_apply, mulf_apply, subf_apply, rowsOf_apply, rowsOf_apply, rowsOf_apply,
    rowsOf_apply, hostDivf_apply, colSum_apply, broadcastInDim_scalar_apply, hostRsqrt_apply, addf_apply, varT_apply,
    broadcastInDim_scalar_apply, zeroFeat_apply]
  rfl

variable (k : Nat) (hW : S3x128x128.Slices ![k, 0, 0] S1x128x128) (hb : S3x128.Slices ![k, 0] S1x128) (i : Fin 3)
  {h : FVec Ideal S100000x128 .f32} {e : IVec S2x800000 32} {W1 W2 : FVec Ideal S3x128x128 .f32} {b1 b2 g b : FVec Ideal S3x128 .f32}

theorem zT_eq (hi : i.val = k) :
    zT k hW hb h e W1 b1 W2 b2
      = GinSpec.ofMat (GinSpec.mlp (fun r c => GinSpec.toMat h r c + msgR e (GinSpec.toMat h) r c)
          (GinSpec.sl3 W1 i) (GinSpec.sl2 b1 i) (GinSpec.sl3 W2 i) (GinSpec.sl2 b2 i)) := by
  refine eq_ofMat fun r c => ?_
  unfold zT dense
  simp only [addf_apply, maximumf_apply, dot_apply, rowsOf_apply, rowAt_apply k hb _ i hi, matAt_apply k hW _ i hi,
    zeroFeat_apply]
  unfold GinSpec.mlp msgR
  simp only [GinSpec.ofMat_toMat]
  rfl

theorem layerT_eq (hi : i.val = k) :
    layerT k hW hb h e W1 b1 W2 b2 g b
      = GinSpec.ofMat (GinSpec.layerR (msgR e) (GinSpec.toMat h) (GinSpec.sl3 W1 i) (GinSpec.sl2 b1 i)
          (GinSpec.sl3 W2 i) (GinSpec.sl2 b2 i) (GinSpec.sl2 g i) (GinSpec.sl2 b i)) := by
  have hr (c : FVec Ideal S3x128 .f32) : (fun j => rowAt k hb c (ix1 j)) = GinSpec.sl2 c i :=
    funext (rowAt_apply k hb c i hi)
  unfold layerT
  rw [normT_eq, zT_eq k hW hb i hi, GinSpec.toMat_ofMat, hr g, hr b]
  rfl

theorem resT_eq (a0 : FVec Ideal S100000x128 .f32) (a1 : IVec S2x800000 32)
    (a2 : FVec Ideal S3x128x128 .f32) (a3 : FVec Ideal S3x128 .f32)
    (a4 : FVec Ideal S3x128x128 .f32) (a5 : FVec Ideal S3x128 .f32)
    (a6 a7 : FVec Ideal S3x128 .f32) :
    resT a0 a1 a2 a3 a4 a5 a6 a7
      = GinSpec.ofMat (GinSpec.netR (msgR a1) (GinSpec.toMat a0) (GinSpec.sl3 a2) (GinSpec.sl2 a3) (GinSpec.sl3 a4)
          (GinSpec.sl2 a5) (GinSpec.sl2 a6) (GinSpec.sl2 a7)) := by
  unfold resT
  rw [layerT_eq 0 _ _ 0 rfl, layerT_eq 1 _ _ 1 rfl, layerT_eq 2 _ _ 2 rfl]
  rfl

end Cert.ReferenceIdeal.Hand

end
-- ==== Proof.MsgReal.lean ====
import proofs.«137621_j4303557230930_1_alg».proof.Proof.KI.HostVals
import proofs.«137621_j4303557230930_1_alg».proof.Proof.Ref.Terms
import proofs.«137621_j4303557230930_1_alg».proof.Proof.Ref.Value
import proofs.«137621_j4303557230930_1_alg».proof.Proof.Spec
import proofs.«137621_j4303557230930_1_alg».proof.Proof.LibRealClosure

noncomputable section

namespace Cert.KernelIdeal.Hand

open Idealize.ShloMosaic Cert.KernelIdeal RealClosure

variable [hK : Cert.KernelIdeal.Facts]

def msgKM (e : IVec S2x800000 32) : GinSpec.Mat → GinSpec.Mat := fun h => GinSpec.toMat (msgK (F := Ideal) e (GinSpec.ofMat h))

-- A scatter-add of gathered entries onto zeros adds finitely many real entries to a real one.
theorem msgKM_real (e : IVec S2x800000 32) (h : GinSpec.Mat) (hh : ∀ r c, IsReal (h r c)) : ∀ r c, IsReal (msgKM e h r c) :=
  fun _ _ => isReal_scatterAdd _ _ _ _ (fun _ => ⟨0, ofBits_zero_f32⟩) (fun _ => hh _ _) _

end Cert.KernelIdeal.Hand

namespace Cert.ReferenceIdeal.Hand

open Idealize.ShloMosaic

theorem msgR_eq [hR : Cert.ReferenceIdeal.Facts] [hK : Cert.KernelIdeal.Facts] (e : IVec Cert.ReferenceIdeal.S2x800000 32) :
    msgR e = Cert.KernelIdeal.Hand.msgKM e := rfl

end Cert.ReferenceIdeal.Hand

end
-- ==== Proof.KI.Stats0Outs.lean ====
import proofs.«137621_j4303557230930_1_alg».proof.Proof.KI.Stats0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem zeros0 : (![0, 0] : Fin 2 → Nat) = fun _ => 0 := funext fun a => by fin_cases a <;> rfl

theorem k0_pay1_self (v : FVec F S1x128 .f32) : k0_pay1 v = v := shapeCast_self _ _

variable (V : (c : Dev nD) → (b : Ref sig .tc) → Buf (Elt F) ((c : Thread nD τ).loc b)) (c : Dev nD)

-- `o` is what point `t` makes of accumulators `s`, `q`: its output block, and its column sums and squared column sums added onto them.
def IsStep0 (t : Fin cfg0.N) (s q : Vec F S1x128 .f32) (o : Vec F S2000x128 .f32 × Vec F S1x128 .f32 × Vec F S1x128 .f32 × Vec F S1x128 .f32 × Vec F S1x128 .f32) : Prop :=
  o.1 = k0_pay5 (iblk0 V c 0 t) (iblk0 V c 1 t) (iblk0 V c 2 t) (iblk0 V c 3 t) (iblk0 V c 4 t) (iblk0 V c 5 t) ∧ o.2.2.2.1 = k0_pay6 (iblk0 V c 0 t) (iblk0 V c 1 t) (iblk0 V c 2 t) (iblk0 V c 3 t) (iblk0 V c 4 t) (iblk0 V c 5 t) s
    ∧ o.2.2.2.2 = k0_pay2 (k0_pay5 (iblk0 V c 0 t) (iblk0 V c 1 t) (iblk0 V c 2 t) (iblk0 V c 3 t) (iblk0 V c 4 t) (iblk0 V c 5 t)) q

-- A list of stores whose last store covers every index reads back as that store's payload: so each control case is a step, and at the last point each statistics output equals its accumulator's new contents.
theorem steps0 (t : Fin cfg0.N) (s q : Vec F S1x128 .f32) :
    (∀ hf hl, IsStep0 V c t k0_pay3 k0_pay4 (firstOuts0 V c t hf hl)) ∧ (∀ hf hl, IsStep0 V c t s q (midOuts0 V c t hf hl s q))
      ∧ ∀ hf hl, IsStep0 V c t s q (lastOuts0 V c t hf hl s q) ∧ (lastOuts0 V c t hf hl s q).2.1 = (lastOuts0 V c t hf hl s q).2.2.2.1
        ∧ (lastOuts0 V c t hf hl s q).2.2.1 = (lastOuts0 V c t hf hl s q).2.2.2.2 := by
  unfold IsStep0 firstOuts0 midOuts0 lastOuts0 firstAt0 midAt0 lastAt0 runFirst0 runMid0 runLast0
  sl_unfold_words
  simp only [View.readAt_eq_ld, Memref.IsWhole.read_unread, Memref.IsWhole.read_unread (m := sumRef0), Memref.IsWhole.read_unread (m := sqRef0),
    View.ld_unit_zero (S := S2000x128) zeros0, View.ld_unit_zero (S := S128x128) zeros0, View.ld_unit_zero (S := S1x128) zeros0,
    View.readCov_unit_zero (S := S1x128) _ zeros0, View.canon_cons_unit_zero (S := S2000x128) zeros0, View.canon_cons_unit_zero (S := S1x128) zeros0,
    k0_pay1_self, and_self, implies_true]

theorem outsAt0_step (n : ℕ) (h : n + 1 < cfg0.N) :
    IsStep0 V c ⟨n + 1, h⟩ (outsAt0 V c n (Nat.lt_of_succ_lt h)).2.2.2.1 (outsAt0 V c n (Nat.lt_of_succ_lt h)).2.2.2.2 (outsAt0 V c (n + 1) h) := by
  rw [outsAt0]; split
  · exact ((steps0 V c ..).2.2 _ _).1
  · exact (steps0 V c ..).2.1 _ _

theorem sum0_first (h : 0 < cfg0.N) :
    (outsAt0 V c 0 h).2.2.2.1 = k0_pay6 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay3 (F := F)) :=
  ((steps0 V c ⟨0, h⟩ k0_pay3 k0_pay4).1 _ _).2.1

theorem sumsq0_first (h : 0 < cfg0.N) :
    (outsAt0 V c 0 h).2.2.2.2 = k0_pay2 (k0_pay5 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩)) (k0_pay4 (F := F)) :=
  ((steps0 V c ⟨0, h⟩ k0_pay3 k0_pay4).1 _ _).2.2

theorem sum0_step (n : ℕ) (h : n + 1 < cfg0.N) :
    (outsAt0 V c (n + 1) h).2.2.2.1 = k0_pay6 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.2.1 :=
  (outsAt0_step V c n h).2.1

theorem sumsq0_step (n : ℕ) (h : n + 1 < cfg0.N) :
    (outsAt0 V c (n + 1) h).2.2.2.2 = k0_pay2 (k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩)) (outsAt0 V c n (Nat.lt_of_succ_lt h)).2.2.2.2 :=
  (outsAt0_step V c n h).2.2

theorem z0_at (t : Fin cfg0.N) : (outsAt0 V c t.val t.isLt).1 = k0_pay5 (iblk0 V c 0 t) (iblk0 V c 1 t) (iblk0 V c 2 t) (iblk0 V c 3 t) (iblk0 V c 4 t) (iblk0 V c 5 t) := by
  obtain ⟨n, hn⟩ := t
  cases n with
  | zero => exact ((steps0 V c ⟨0, hn⟩ k0_pay3 k0_pay4).1 _ _).1
  | succ n => exact (outsAt0_step V c n hn).1

theorem last0_out7 (t : Fin cfg0.N) (ht : t.val = 49) :
    (outsAt0 V c t.val t.isLt).2.1 = k0_pay1 (outsAt0 V c t.val t.isLt).2.2.2.1 := by
  rw [outsAt0_last V c t ht, k0_pay1_self]; exact ((steps0 V c ..).2.2 _ _).2.1

theorem last0_out8 (t : Fin cfg0.N) (ht : t.val = 49) :
    (outsAt0 V c t.val t.isLt).2.2.1 = (outsAt0 V c t.val t.isLt).2.2.2.2 := by
  rw [outsAt0_last V c t ht]; exact ((steps0 V c ..).2.2 _ _).2.2

end Cert.KernelIdeal.Hand
-- ==== Proof.KI.StatsCommon.lean ====
import proofs.«137621_j4303557230930_1_alg».proof.Proof.Gen.KernelIdeal.Skeleton
import proofs.«137621_j4303557230930_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Basic

set_option maxRecDepth 16384

noncomputable section

open scoped BigOperators

namespace Cert.KernelIdeal.Hand

open Cert.KernelIdeal Cert.KernelIdeal.Gen
open Idealize.ShloMosaic Idealize.ShloMosaic.ValueIdx

-- A product into the zero accumulator at row `q`, column `c`: the sum over the 128 contracted positions.
theorem prod_apply (a : FVec Ideal S2000x128 .bf16) (w : FVec Ideal S128x128 .bf16) (q : Fin 2000) (c : Fin 128) :
    matmul dot_S2000x128_S128x128_S2000x128_1_0_0_1_n_n none a w (constant (F := Ideal) S2000x128 .f32 0x00000000#32) (ix2 q c)
      = ∑ k : Fin 128, a (ix2 q k) * w (ix2 k c) := by
  refine (Ideal.matmul_constant_zero_apply dot_S2000x128_S128x128_S2000x128_1_0_0_1_n_n none a w (ix2 q c)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  exact congrArg₂ (· * ·) (congrArg a (Shape.idx_ext₂ rfl hk)) (congrArg w (Shape.idx_ext₂ hk rfl))

-- The rows of a block summed into one row: at column `c` the sum of the block's column `c`.
theorem colSum_apply (z : FVec Ideal S2000x128 .f32) (hφ : FKind.Formats .f32)
    (hacc : (0x00000000#32 : BitVec 32) = FKind.add.neutral .f32 hφ) (c : Fin 128) :
    shapeCast S1x128 (multiReduction (F := Ideal) .add [0] S128 z 0x00000000#32 reduces_S2000x128_S128 hφ hacc)
        shapeCasts_S128_S1x128 (ix2 0 c)
      = ∑ q : Fin 2000, z (ix2 q c) :=
  (shapeCast_a_1a_apply _ shapeCasts_S128_S1x128 0 c).trans <|
    (Ideal.multiReduction_add_single z 0x00000000#32 reduces_S2000x128_S128 hφ hacc (ix1 c)).trans <|
      Finset.sum_congr rfl fun q _ => congrArg z (Shape.idx_ext₂ rfl rfl)

-- The 100000 rows are 50 blocks of 2000: row `2000 * t + q` is row `q` of block `t`.
theorem sum_blocks (f : Fin 100000 → EReal) :
    (∑ t : Fin 50, ∑ q : Fin 2000, f ⟨2000 * t.val + q.val, by have := t.isLt; have := q.isLt; omega⟩)
      = ∑ r : Fin 100000, f r := by
  rw [← Equiv.sum_comp (finProdFinEquiv : Fin 50 × Fin 2000 ≃ Fin 100000) f, Fintype.sum_prod_type]
  exact Finset.sum_congr rfl fun t _ => Finset.sum_congr rfl fun q _ => congrArg f (Fin.ext (Nat.add_comm _ _))

def rowAt (n : ℕ) (hn : n < 50) (q : Fin 2000) : Fin 100000 := ⟨2000 * n + q.val, by have := q.isLt; omega⟩

abbrev mlpOf (X M : S100000x128.Idx → EReal) (W1 : S128x128.Idx → EReal) (B1 : S1x128.Idx → EReal)
    (W2 : S128x128.Idx → EReal) (B2 : S1x128.Idx → EReal) : GinSpec.Mat :=
  GinSpec.mlp (fun r k => GinSpec.toMat X r k + GinSpec.toMat M r k) (GinSpec.toWt W1) (GinSpec.row1 B1)
    (GinSpec.toWt W2) (GinSpec.row1 B2)

-- A running value that starts from zero plus block 0's column sum and adds block `n + 1`'s at point `n + 1` is a partial column sum.
theorem runSum_upto (Z : GinSpec.Mat) (k : Fin 128) (a : (n : ℕ) → n < 50 → EReal)
    (h0 : ∀ h, a 0 h = 0 + ∑ q : Fin 2000, Z (rowAt 0 h q) k)
    (hs : ∀ (n : ℕ) (h : n + 1 < 50), a (n + 1) h = a n (Nat.lt_of_succ_lt h) + ∑ q : Fin 2000, Z (rowAt (n + 1) h q) k) :
    ∀ (n : ℕ) (h : n < 50), a n h = ∑ t : Fin (n + 1), ∑ q : Fin 2000, Z (rowAt t.val (Nat.lt_of_lt_of_le t.isLt h) q) k
  | 0, h => by
    rw [h0 h, zero_add, Fin.sum_univ_one]
    rfl
  | n + 1, h => by
    rw [Fin.sum_univ_castSucc, hs n h, runSum_upto Z k a h0 hs n (Nat.lt_of_succ_lt h)]
    rfl

theorem runSum_last (Z : GinSpec.Mat) (k : Fin 128) (a : (n : ℕ) → n < 50 → EReal)
    (h0 : ∀ h, a 0 h = 0 + ∑ q : Fin 2000, Z (rowAt 0 h q) k)
    (hs : ∀ (n : ℕ) (h : n + 1 < 50), a (n + 1) h = a n (Nat.lt_of_succ_lt h) + ∑ q : Fin 2000, Z (rowAt (n + 1) h q) k) :
    a 49 (by decide) = GinSpec.colSum Z k :=
  (runSum_upto Z k a h0 hs 49 (by decide)).trans (sum_blocks fun r => Z r k)

end Cert.KernelIdeal.Hand

end
-- ==== Proof.KI.Stats0Pay.lean ====
import proofs.«137621_j4303557230930_1_alg».proof.Proof.KI.StatsCommon

set_option maxRecDepth 16384

noncomputable section

open scoped BigOperators

namespace Cert.KernelIdeal.Hand

open Cert.KernelIdeal Cert.KernelIdeal.Gen
open Idealize.ShloMosaic Idealize.ShloMosaic.ValueIdx

-- The block `relu ((x + msg) · w1 + b1) · w2 + b2` of blocks holding rows of `X` and `M` is the perceptron of `X + M` at those rows.
theorem k0_pay5_rows (X M : S100000x128.Idx → EReal) (W1 : S128x128.Idx → EReal) (B1 : S1x128.Idx → EReal)
    (W2 : S128x128.Idx → EReal) (B2 : S1x128.Idx → EReal) (x msg : Vec Ideal S2000x128 .f32) (n : ℕ) (hn : n < 50)
    (hx : ∀ (q : Fin 2000) (j : Fin 128), x (ix2 q j) = X (ix2 (rowAt n hn q) j))
    (hm : ∀ (q : Fin 2000) (j : Fin 128), msg (ix2 q j) = M (ix2 (rowAt n hn q) j)) (q : Fin 2000) (c : Fin 128) :
    k0_pay5 x msg W1 B1 W2 B2 (ix2 q c) = mlpOf X M W1 B1 W2 B2 (rowAt n hn q) c := by
  simp only [k0_pay5, shapeCast_self, addf_apply, maximumf_apply, truncf_apply, prod_apply, broadcastTo_1b_ab_apply,
    broadcast_apply, hx, hm]
  exact congrArg (fun z : EReal => (∑ k : Fin 128, max ((∑ j : Fin 128, (X (ix2 (rowAt n hn q) j) + M (ix2 (rowAt n hn q) j))
    * W1 (ix2 j k)) + B1 (ix2 0 k)) z * W2 (ix2 k c)) + B2 (ix2 0 c)) Ideal.ofBits_zero_f32

theorem k0_pay6_apply (x msg : Vec Ideal S2000x128 .f32) (w1 : Vec Ideal S128x128 .f32) (b1 : Vec Ideal S1x128 .f32)
    (w2 : Vec Ideal S128x128 .f32) (b2 : Vec Ideal S1x128 .f32) (acc : Vec Ideal S1x128 .f32) (c : Fin 128) :
    k0_pay6 x msg w1 b1 w2 b2 acc (ix2 0 c)
      = acc (ix2 0 c) + ∑ q : Fin 2000, k0_pay5 x msg w1 b1 w2 b2 (ix2 q c) :=
  congrArg (acc (ix2 0 c) + ·) (colSum_apply (k0_pay5 x msg w1 b1 w2 b2) _ _ c)

theorem k0_pay2_apply (z : FVec Ideal S2000x128 .f32) (acc : Vec Ideal S1x128 .f32) (c : Fin 128) :
    k0_pay2 z acc (ix2 0 c) = acc (ix2 0 c) + ∑ q : Fin 2000, z (ix2 q c) * z (ix2 q c) := by
  unfold k0_pay2
  exact (congrFun (shapeCast_self _ shapeCasts_S1x128_S1x128) (ix2 0 c)).trans
    (congrArg (acc (ix2 0 c) + ·) (colSum_apply (mulf z z) _ _ c))

theorem k0_pay1_eq (v : FVec Ideal S1x128 .f32) : k0_pay1 v = v :=
  shapeCast_self v shapeCasts_S1x128_S1x128

theorem k0_pay3_apply (i : S1x128.Idx) : k0_pay3 (F := Ideal) i = 0 := by
  unfold k0_pay3
  exact (congrFun (shapeCast_self _ shapeCasts_S1x128_S1x128) i).trans Ideal.ofBits_zero_f32

-- Both running rows start from the same zero row.
theorem k0_pay4_apply (i : S1x128.Idx) : k0_pay4 (F := Ideal) i = 0 :=
  k0_pay3_apply i

end Cert.KernelIdeal.Hand

end
-- ==== Proof.KI.Stats0Value.lean ====
import proofs.«137621_j4303557230930_1_alg».proof.Proof.KI.Stats0
import proofs.«137621_j4303557230930_1_alg».proof.Proof.KI.Stats0Outs
import proofs.«137621_j4303557230930_1_alg».proof.Proof.KI.Stats0Pay
import proofs.«137621_j4303557230930_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem idx0_facts : ∀ (t : Fin cfg0.N) (w : Fin cfg0.W) (a : Fin (cfg0.win w).shape.rank),
    (cfg0.win w).index t a = if w.val ∈ [0, 1, 6] ∧ a.val = 0 then t.val else 0 :=
  (by decide +kernel : ∀ (t : Fin grid0.N) (w : Fin cfg0.W) (a : Fin (cfg0.win w).shape.rank), _)

theorem point_lt0 (t : Fin cfg0.N) : t.val < 50 := t.isLt.trans_eq N_0

theorem lt_points0 {n : ℕ} (h : n < 50) : n < cfg0.N := h.trans_eq N_0.symm

def lastPoint0 : Fin cfg0.N := ⟨49, lt_points0 (by decide)⟩

-- Where the block index is zero, a block element's coordinate is its coordinate in the array.
theorem emb0_fix (w : Fin cfg0.W) (a : Fin (cfg0.win w).shape.rank) (h : w.val ∉ [0, 1, 6] ∨ a.val ≠ 0) (t : Fin cfg0.N)
    (y : ((cfg0.win w).xblock (grid0.coords t)).Idx) : (((cfg0.win w).rect t).emb y a : ℕ) = y a :=
  (cfg0.win w).rect_emb_val_of_index_zero t a ((idx0_facts t w a).trans (if_neg fun g => h.elim (· g.1) (· g.2))) y

-- Where the block index is the point's number, row `q` of the block at point `t` is row `extent * t + q` of the array.
theorem emb0_row (w : Fin cfg0.W) (a : Fin (cfg0.win w).shape.rank) (h : w.val ∈ [0, 1, 6] ∧ a.val = 0) (t : Fin cfg0.N)
    (y : ((cfg0.win w).xblock (grid0.coords t)).Idx) :
    (((cfg0.win w).rect t).emb y a : ℕ) = (cfg0.win w).size a * t.val + y a := by
  rw [Window.rect_emb_val, idx0_facts t w a, if_pos h, Nat.mul_comm]

theorem emb0_z (t : Fin cfg0.N) (q : Fin 2000) (k : Fin 128) :
    ((cfg0.win 6).blk t).view.emb (ix2 q k) = ix2 (rowAt t.val (point_lt0 t) q) k :=
  Shape.idx_ext₂ (emb0_row 6 (0 : Fin 2) (by decide) t _) (emb0_fix 6 (1 : Fin 2) (.inr (by decide)) t _)

-- Row `r` lies in the block of rows of point `r / 2000`.
theorem cover0_z (i : S100000x128.Idx) :
    ∃ t : Fin cfg0.N, (cfg0.win 6).flush t = true ∧ i ∈ ((cfg0.win 6).blk t).view.set := by
  obtain ⟨p, k, rfl⟩ : ∃ (p : Fin 100000) (k : Fin 128), i = ix2 p k := ⟨i 0, i 1, eq_ix2 i⟩
  obtain ⟨t, q, rfl⟩ : ∃ (t : Fin 50) (q : Fin 2000), p = rowAt t.val t.isLt q :=
    ⟨⟨p.val / 2000, Nat.div_lt_of_lt_mul p.isLt⟩, ⟨p.val % 2000, Nat.mod_lt _ (by decide)⟩, Fin.ext (Nat.div_add_mod _ _).symm⟩
  refine ⟨⟨t.val, lt_points0 t.isLt⟩, flush0_6 _, ?_⟩
  rw [← emb0_z ⟨t.val, lt_points0 t.isLt⟩ q k]
  exact View.emb_mem_set _ _

theorem eq_last0 (t : Fin cfg0.N) (h : t.val % 50 = 49) : t = lastPoint0 :=
  Fin.ext (by have := point_lt0 t; show t.val = 49; omega)

section Arrays

variable {c : Dev nD} (dat : Dat τ (Elt Ideal) Unit ℕ (UR sig nD τ) ℕ cfg0 c)

theorem arrAt0_z (G : S100000x128.Idx → EReal)
    (h : ∀ (t : Fin cfg0.N) (q : Fin 2000) (k : Fin 128), dat.after 6 t (ix2 q k) = G (ix2 (rowAt t.val (point_lt0 t) q) k)) :
    dat.arrAt 6 cfg0.N = G :=
  dat.arrAt_eq_of_cover 6 G (fun t _ => funext fun y => by
    rw [eq_ix2 y]
    exact (h t (y 0) (y 1)).trans (congrArg G (emb0_z t _ _).symm)) cover0_z

theorem arrAt0_sum (G : S1x128.Idx → EReal) (hafter : dat.after 7 lastPoint0 = G) : dat.arrAt 7 cfg0.N = G :=
  have e (y : S1x128.Idx) : ((cfg0.win 7).blk lastPoint0).view.emb y = y :=
    funext fun a => Fin.ext (emb0_fix 7 a (.inl (by decide)) _ y)
  dat.arrAt_eq_of_cover 7 G (fun t hf => funext fun y => by
    obtain rfl := eq_last0 t ((flush0_7 t).mp hf)
    exact (congrFun hafter y).trans (congrArg G (e y).symm))
    fun i => ⟨lastPoint0, (flush0_7 _).mpr rfl, e i ▸ View.emb_mem_set _ i⟩

theorem arrAt0_sumsq (G : S1x128.Idx → EReal) (hafter : dat.after 8 lastPoint0 = G) : dat.arrAt 8 cfg0.N = G :=
  have e (y : S1x128.Idx) : ((cfg0.win 8).blk lastPoint0).view.emb y = y :=
    funext fun a => Fin.ext (emb0_fix 8 a (.inl (by decide)) _ y)
  dat.arrAt_eq_of_cover 8 G (fun t hf => funext fun y => by
    obtain rfl := eq_last0 t ((flush0_8 t).mp hf)
    exact (congrFun hafter y).trans (congrArg G (e y).symm))
    fun i => ⟨lastPoint0, (flush0_8 _).mpr rfl, e i ▸ View.emb_mem_set _ i⟩

end Arrays

section Values

variable (V : (c : Dev nD) → (b : Ref sig .tc) → Buf (Elt Ideal) ((c : Thread nD τ).loc b))

theorem iblk0_x (c : Dev nD) (t : Fin cfg0.N) (q : Fin 2000) (j : Fin 128) :
    (iblk0 V c 0 t : Vec Ideal S2000x128 .f32) (ix2 q j) = V c main_arg0 (ix2 (rowAt t.val (point_lt0 t) q) j) :=
  congrArg (V c main_arg0)
    (Shape.idx_ext₂ (emb0_row 0 (0 : Fin 2) (by decide) t _) (emb0_fix 0 (1 : Fin 2) (.inr (by decide)) t _))

theorem iblk0_msg (c : Dev nD) (t : Fin cfg0.N) (q : Fin 2000) (j : Fin 128) :
    (iblk0 V c 1 t : Vec Ideal S2000x128 .f32) (ix2 q j) = V c main_v13 (ix2 (rowAt t.val (point_lt0 t) q) j) :=
  congrArg (V c main_v13)
    (Shape.idx_ext₂ (emb0_row 1 (0 : Fin 2) (by decide) t _) (emb0_fix 1 (1 : Fin 2) (.inr (by decide)) t _))

theorem iblk0_wa (c : Dev nD) (t : Fin cfg0.N) : (iblk0 V c 2 t : Vec Ideal S128x128 .f32) = V c main_v15 :=
  funext fun y => congrArg (V c main_v15)
    (funext fun a => Fin.ext (emb0_fix 2 a (.inl (by decide)) t y))

theorem iblk0_ba (c : Dev nD) (t : Fin cfg0.N) : (iblk0 V c 3 t : Vec Ideal S1x128 .f32) = V c main_v18 :=
  funext fun y => congrArg (V c main_v18)
    (funext fun a => Fin.ext (emb0_fix 3 a (.inl (by decide)) t y))

theorem iblk0_wb (c : Dev nD) (t : Fin cfg0.N) : (iblk0 V c 4 t : Vec Ideal S128x128 .f32) = V c main_v20 :=
  funext fun y => congrArg (V c main_v20)
    (funext fun a => Fin.ext (emb0_fix 4 a (.inl (by decide)) t y))

theorem iblk0_bb (c : Dev nD) (t : Fin cfg0.N) : (iblk0 V c 5 t : Vec Ideal S1x128 .f32) = V c main_v23 :=
  funext fun y => congrArg (V c main_v23)
    (funext fun a => Fin.ext (emb0_fix 5 a (.inl (by decide)) t y))

abbrev mlp0 (c : Dev nD) : GinSpec.Mat :=
  mlpOf (V c main_arg0) (V c main_v13) (V c main_v15) (V c main_v18) (V c main_v20) (V c main_v23)

abbrev zblk0 (c : Dev nD) (t : Fin cfg0.N) : FVec Ideal S2000x128 .f32 :=
  k0_pay5 (iblk0 V c 0 t) (iblk0 V c 1 t) (iblk0 V c 2 t) (iblk0 V c 3 t) (iblk0 V c 4 t) (iblk0 V c 5 t)

theorem zblk0_apply (c : Dev nD) (t : Fin cfg0.N) (q : Fin 2000) (k : Fin 128) :
    zblk0 V c t (ix2 q k) = mlp0 V c (rowAt t.val (point_lt0 t) q) k := by
  unfold zblk0
  rw [iblk0_wa V c t, iblk0_ba V c t, iblk0_wb V c t, iblk0_bb V c t]
  exact k0_pay5_rows _ _ _ _ _ _ _ _ t.val (point_lt0 t) (iblk0_x V c t) (iblk0_msg V c t) q k

theorem sumStep0 (c : Dev nD) (t : Fin cfg0.N) (acc : Vec Ideal S1x128 .f32) (k : Fin 128) :
    k0_pay6 (iblk0 V c 0 t) (iblk0 V c 1 t) (iblk0 V c 2 t) (iblk0 V c 3 t) (iblk0 V c 4 t) (iblk0 V c 5 t) acc (ix2 0 k)
      = acc (ix2 0 k) + ∑ q : Fin 2000, mlp0 V c (rowAt t.val (point_lt0 t) q) k :=
  (k0_pay6_apply _ _ _ _ _ _ acc k).trans
    (congrArg (acc (ix2 0 k) + ·) (Finset.sum_congr rfl fun q _ => zblk0_apply V c t q k))

theorem sqStep0 (c : Dev nD) (t : Fin cfg0.N) (acc : Vec Ideal S1x128 .f32) (k : Fin 128) :
    k0_pay2 (zblk0 V c t) acc (ix2 0 k)
      = acc (ix2 0 k) + ∑ q : Fin 2000, mlp0 V c (rowAt t.val (point_lt0 t) q) k * mlp0 V c (rowAt t.val (point_lt0 t) q) k :=
  (k0_pay2_apply (zblk0 V c t) acc k).trans (congrArg (acc (ix2 0 k) + ·) (Finset.sum_congr rfl fun q _ =>
    congrArg₂ (· * ·) (zblk0_apply V c t q k) (zblk0_apply V c t q k)))

-- A running row that starts from zero and gains one block's column sums per point ends as the column sums over all rows.
theorem sumRow0_last (c : Dev nD) (k : Fin 128) :
    (outsAt0 V c 49 (lt_points0 (by decide))).2.2.2.1 (ix2 0 k) = GinSpec.colSum (mlp0 V c) k :=
  runSum_last (mlp0 V c) k (fun n h => (outsAt0 V c n (lt_points0 h)).2.2.2.1 (ix2 0 k))
    (fun h => (congrFun (sum0_first V c (lt_points0 h)) (ix2 0 k)).trans <|
      (sumStep0 V c ⟨0, lt_points0 h⟩ _ k).trans (congrArg (· + _) (k0_pay3_apply _)))
    (fun n h => (congrFun (sum0_step V c n (lt_points0 h)) (ix2 0 k)).trans (sumStep0 V c ⟨n + 1, lt_points0 h⟩ _ k))

theorem sqRow0_last (c : Dev nD) (k : Fin 128) :
    (outsAt0 V c 49 (lt_points0 (by decide))).2.2.2.2 (ix2 0 k)
      = GinSpec.colSum (fun r j => mlp0 V c r j * mlp0 V c r j) k :=
  runSum_last (fun r j => mlp0 V c r j * mlp0 V c r j) k (fun n h => (outsAt0 V c n (lt_points0 h)).2.2.2.2 (ix2 0 k))
    (fun h => (congrFun (sumsq0_first V c (lt_points0 h)) (ix2 0 k)).trans <|
      (sqStep0 V c ⟨0, lt_points0 h⟩ _ k).trans (congrArg (· + _) (k0_pay4_apply _)))
    (fun n h => (congrFun (sumsq0_step V c n (lt_points0 h)) (ix2 0 k)).trans (sqStep0 V c ⟨n + 1, lt_points0 h⟩ _ k))

theorem outsAtLastPoint0 (c : Dev nD) :
    outsAt0 V c lastPoint0.val lastPoint0.isLt = outsAt0 V c 49 (lt_points0 (by decide)) := rfl

theorem row_ix0 (y : S1x128.Idx) : y = ix2 0 (y 1) :=
  (eq_ix2 y).trans (congrArg (ix2 · (y 1)) (Fin.eq_zero (y 0)))

theorem z0_value (c : Dev nD) :
    (dat0 (F := Ideal) V c).arrAt 6 cfg0.N
      = GinSpec.ofMat (GinSpec.mlp (fun r k => GinSpec.toMat (V c main_arg0) r k + GinSpec.toMat (V c main_v13) r k)
          (GinSpec.toWt (V c main_v15)) (GinSpec.row1 (V c main_v18)) (GinSpec.toWt (V c main_v20)) (GinSpec.row1 (V c main_v23))) :=
  arrAt0_z (dat0 V c) (GinSpec.ofMat (mlp0 V c)) fun t q k =>
    (congrFun ((after0_6 V c t).trans (z0_at V c t)) _).trans (zblk0_apply V c t q k)

theorem sum0_value (c : Dev nD) :
    (dat0 (F := Ideal) V c).arrAt 7 cfg0.N
      = fun i : S1x128.Idx => GinSpec.colSum (GinSpec.mlp (fun r k => GinSpec.toMat (V c main_arg0) r k + GinSpec.toMat (V c main_v13) r k)
          (GinSpec.toWt (V c main_v15)) (GinSpec.row1 (V c main_v18)) (GinSpec.toWt (V c main_v20)) (GinSpec.row1 (V c main_v23))) (i 1) := by
  refine arrAt0_sum (dat0 V c) (fun i : S1x128.Idx => GinSpec.colSum (mlp0 V c) (i 1)) ?_
  rw [after0_7, last0_out7 V c lastPoint0 rfl, k0_pay1_eq]
  funext y
  rw [row_ix0 y]
  exact (congrArg (fun p => p.2.2.2.1 (ix2 0 (y 1))) (outsAtLastPoint0 V c)).trans (sumRow0_last V c (y 1))

theorem sumsq0_value (c : Dev nD) :
    (dat0 (F := Ideal) V c).arrAt 8 cfg0.N
      = fun i : S1x128.Idx => GinSpec.colSum (fun r k =>
          GinSpec.mlp (fun r k => GinSpec.toMat (V c main_arg0) r k + GinSpec.toMat (V c main_v13) r k)
            (GinSpec.toWt (V c main_v15)) (GinSpec.row1 (V c main_v18)) (GinSpec.toWt (V c main_v20)) (GinSpec.row1 (V c main_v23)) r k
          * GinSpec.mlp (fun r k => GinSpec.toMat (V c main_arg0) r k + GinSpec.toMat (V c main_v13) r k)
            (GinSpec.toWt (V c main_v15)) (GinSpec.row1 (V c main_v18)) (GinSpec.toWt (V c main_v20)) (GinSpec.row1 (V c main_v23)) r k) (i 1) := by
  refine arrAt0_sumsq (dat0 V c) (fun i : S1x128.Idx => GinSpec.colSum (fun r j => mlp0 V c r j * mlp0 V c r j) (i 1)) ?_
  rw [after0_8, last0_out8 V c lastPoint0 rfl]
  funext y
  rw [row_ix0 y]
  exact (congrArg (fun p => p.2.2.2.2 (ix2 0 (y 1))) (outsAtLastPoint0 V c)).trans (sqRow0_last V c (y 1))

end Values

end Cert.KernelIdeal.Hand

end
-- ==== Proof.KI.Stats2Outs.lean ====
import proofs.«137621_j4303557230930_1_alg».proof.Proof.KI.Stats2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem zeros2 : (![0, 0] : Fin 2 → Nat) = fun _ => 0 := funext fun a => by fin_cases a <;> rfl

theorem k2_pay1_self (v : FVec F S1x128 .f32) : k2_pay1 v = v := shapeCast_self _ _

variable (V : (c : Dev nD) → (b : Ref sig .tc) → Buf (Elt F) ((c : Thread nD τ).loc b)) (c : Dev nD)

-- `o` is what point `t` makes of accumulators `s`, `q`: its output block, and its column sums and squared column sums added onto them.
def IsStep2 (t : Fin cfg2.N) (s q : Vec F S1x128 .f32) (o : Vec F S2000x128 .f32 × Vec F S1x128 .f32 × Vec F S1x128 .f32 × Vec F S1x128 .f32 × Vec F S1x128 .f32) : Prop :=
  o.1 = k2_pay5 (iblk2 V c 0 t) (iblk2 V c 1 t) (iblk2 V c 2 t) (iblk2 V c 3 t) (iblk2 V c 4 t) (iblk2 V c 5 t) ∧ o.2.2.2.1 = k2_pay6 (iblk2 V c 0 t) (iblk2 V c 1 t) (iblk2 V c 2 t) (iblk2 V c 3 t) (iblk2 V c 4 t) (iblk2 V c 5 t) s
    ∧ o.2.2.2.2 = k2_pay2 (k2_pay5 (iblk2 V c 0 t) (iblk2 V c 1 t) (iblk2 V c 2 t) (iblk2 V c 3 t) (iblk2 V c 4 t) (iblk2 V c 5 t)) q

-- A list of stores whose last store covers every index reads back as that store's payload: so each control case is a step, and at the last point each statistics output equals its accumulator's new contents.
theorem steps2 (t : Fin cfg2.N) (s q : Vec F S1x128 .f32) :
    (∀ hf hl, IsStep2 V c t k2_pay3 k2_pay4 (firstOuts2 V c t hf hl)) ∧ (∀ hf hl, IsStep2 V c t s q (midOuts2 V c t hf hl s q))
      ∧ ∀ hf hl, IsStep2 V c t s q (lastOuts2 V c t hf hl s q) ∧ (lastOuts2 V c t hf hl s q).2.1 = (lastOuts2 V c t hf hl s q).2.2.2.1
        ∧ (lastOuts2 V c t hf hl s q).2.2.1 = (lastOuts2 V c t hf hl s q).2.2.2.2 := by
  unfold IsStep2 firstOuts2 midOuts2 lastOuts2 firstAt2 midAt2 lastAt2 runFirst2 runMid2 runLast2
  sl_unfold_words
  simp only [View.readAt_eq_ld, Memref.IsWhole.read_unread, Memref.IsWhole.read_unread (m := sumRef2), Memref.IsWhole.read_unread (m := sqRef2),
    View.ld_unit_zero (S := S2000x128) zeros2, View.ld_unit_zero (S := S128x128) zeros2, View.ld_unit_zero (S := S1x128) zeros2,
    View.readCov_unit_zero (S := S1x128) _ zeros2, View.canon_cons_unit_zero (S := S2000x128) zeros2, View.canon_cons_unit_zero (S := S1x128) zeros2,
    k2_pay1_self, and_self, implies_true]

theorem outsAt2_step (n : ℕ) (h : n + 1 < cfg2.N) :
    IsStep2 V c ⟨n + 1, h⟩ (outsAt2 V c n (Nat.lt_of_succ_lt h)).2.2.2.1 (outsAt2 V c n (Nat.lt_of_succ_lt h)).2.2.2.2 (outsAt2 V c (n + 1) h) := by
  rw [outsAt2]; split
  · exact ((steps2 V c ..).2.2 _ _).1
  · exact (steps2 V c ..).2.1 _ _

theorem sum2_first (h : 0 < cfg2.N) :
    (outsAt2 V c 0 h).2.2.2.1 = k2_pay6 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay3 (F := F)) :=
  ((steps2 V c ⟨0, h⟩ k2_pay3 k2_pay4).1 _ _).2.1

theorem sumsq2_first (h : 0 < cfg2.N) :
    (outsAt2 V c 0 h).2.2.2.2 = k2_pay2 (k2_pay5 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)) (k2_pay4 (F := F)) :=
  ((steps2 V c ⟨0, h⟩ k2_pay3 k2_pay4).1 _ _).2.2

theorem sum2_step (n : ℕ) (h : n + 1 < cfg2.N) :
    (outsAt2 V c (n + 1) h).2.2.2.1 = k2_pay6 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.2.2.1 :=
  (outsAt2_step V c n h).2.1

theorem sumsq2_step (n : ℕ) (h : n + 1 < cfg2.N) :
    (outsAt2 V c (n + 1) h).2.2.2.2 = k2_pay2 (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩)) (outsAt2 V c n (Nat.lt_of_succ_lt h)).2.2.2.2 :=
  (outsAt2_step V c n h).2.2

theorem z2_at (t : Fin cfg2.N) : (outsAt2 V c t.val t.isLt).1 = k2_pay5 (iblk2 V c 0 t) (iblk2 V c 1 t) (iblk2 V c 2 t) (iblk2 V c 3 t) (iblk2 V c 4 t) (iblk2 V c 5 t) := by
  obtain ⟨n, hn⟩ := t
  cases n with
  | zero => exact ((steps2 V c ⟨0, hn⟩ k2_pay3 k2_pay4).1 _ _).1
  | succ n => exact (outsAt2_step V c n hn).1

theorem last2_out7 (t : Fin cfg2.N) (ht : t.val = 49) :
    (outsAt2 V c t.val t.isLt).2.1 = k2_pay1 (outsAt2 V c t.val t.isLt).2.2.2.1 := by
  rw [outsAt2_last V c t ht, k2_pay1_self]; exact ((steps2 V c ..).2.2 _ _).2.1

theorem last2_out8 (t : Fin cfg2.N) (ht : t.val = 49) :
    (outsAt2 V c t.val t.isLt).2.2.1 = (outsAt2 V c t.val t.isLt).2.2.2.2 := by
  rw [outsAt2_last V c t ht]; exact ((steps2 V c ..).2.2 _ _).2.2

end Cert.KernelIdeal.Hand
-- ==== Proof.KI.Stats2Pay.lean ====
import proofs.«137621_j4303557230930_1_alg».proof.Proof.KI.StatsCommon

set_option maxRecDepth 16384

noncomputable section

open scoped BigOperators

namespace Cert.KernelIdeal.Hand

open Cert.KernelIdeal Cert.KernelIdeal.Gen
open Idealize.ShloMosaic Idealize.ShloMosaic.ValueIdx

-- The block `relu ((x + msg) · w1 + b1) · w2 + b2` of blocks holding rows of `X` and `M` is the perceptron of `X + M` at those rows.
theorem k2_pay5_rows (X M : S100000x128.Idx → EReal) (W1 : S128x128.Idx → EReal) (B1 : S1x128.Idx → EReal)
    (W2 : S128x128.Idx → EReal) (B2 : S1x128.Idx → EReal) (x msg : Vec Ideal S2000x128 .f32) (n : ℕ) (hn : n < 50)
    (hx : ∀ (q : Fin 2000) (j : Fin 128), x (ix2 q j) = X (ix2 (rowAt n hn q) j))
    (hm : ∀ (q : Fin 2000) (j : Fin 128), msg (ix2 q j) = M (ix2 (rowAt n hn q) j)) (q : Fin 2000) (c : Fin 128) :
    k2_pay5 x msg W1 B1 W2 B2 (ix2 q c) = mlpOf X M W1 B1 W2 B2 (rowAt n hn q) c := by
  simp only [k2_pay5, shapeCast_self, addf_apply, maximumf_apply, truncf_apply, prod_apply, broadcastTo_1b_ab_apply,
    broadcast_apply, hx, hm]
  exact congrArg (fun z : EReal => (∑ k : Fin 128, max ((∑ j : Fin 128, (X (ix2 (rowAt n hn q) j) + M (ix2 (rowAt n hn q) j))
    * W1 (ix2 j k)) + B1 (ix2 0 k)) z * W2 (ix2 k c)) + B2 (ix2 0 c)) Ideal.ofBits_zero_f32

theorem k2_pay6_apply (x msg : Vec Ideal S2000x128 .f32) (w1 : Vec Ideal S128x128 .f32) (b1 : Vec Ideal S1x128 .f32)
    (w2 : Vec Ideal S128x128 .f32) (b2 : Vec Ideal S1x128 .f32) (acc : Vec Ideal S1x128 .f32) (c : Fin 128) :
    k2_pay6 x msg w1 b1 w2 b2 acc (ix2 0 c)
      = acc (ix2 0 c) + ∑ q : Fin 2000, k2_pay5 x msg w1 b1 w2 b2 (ix2 q c) :=
  congrArg (acc (ix2 0 c) + ·) (colSum_apply (k2_pay5 x msg w1 b1 w2 b2) _ _ c)

theorem k2_pay2_apply (z : FVec Ideal S2000x128 .f32) (acc : Vec Ideal S1x128 .f32) (c : Fin 128) :
    k2_pay2 z acc (ix2 0 c) = acc (ix2 0 c) + ∑ q : Fin 2000, z (ix2 q c) * z (ix2 q c) := by
  unfold k2_pay2
  exact (congrFun (shapeCast_self _ shapeCasts_S1x128_S1x128) (ix2 0 c)).trans
    (congrArg (acc (ix2 0 c) + ·) (colSum_apply (mulf z z) _ _ c))

theorem k2_pay1_eq (v : FVec Ideal S1x128 .f32) : k2_pay1 v = v :=
  shapeCast_self v shapeCasts_S1x128_S1x128

theorem k2_pay3_apply (i : S1x128.Idx) : k2_pay3 (F := Ideal) i = 0 := by
  unfold k2_pay3
  exact (congrFun (shapeCast_self _ shapeCasts_S1x128_S1x128) i).trans Ideal.ofBits_zero_f32

-- Both running rows start from the same zero row.
theorem k2_pay4_apply (i : S1x128.Idx) : k2_pay4 (F := Ideal) i = 0 :=
  k2_pay3_apply i

end Cert.KernelIdeal.Hand

end
-- ==== Proof.KI.Stats2Value.lean ====
import proofs.«137621_j4303557230930_1_alg».proof.Proof.KI.Stats2
import proofs.«137621_j4303557230930_1_alg».proof.Proof.KI.Stats2Outs
import proofs.«137621_j4303557230930_1_alg».proof.Proof.KI.Stats2Pay
import proofs.«137621_j4303557230930_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem idx2_facts : ∀ (t : Fin cfg2.N) (w : Fin cfg2.W) (a : Fin (cfg2.win w).shape.rank),
    (cfg2.win w).index t a = if w.val ∈ [0, 1, 6] ∧ a.val = 0 then t.val else 0 :=
  (by decide +kernel : ∀ (t : Fin grid2.N) (w : Fin cfg2.W) (a : Fin (cfg2.win w).shape.rank), _)

theorem point_lt2 (t : Fin cfg2.N) : t.val < 50 := t.isLt.trans_eq N_2

theorem lt_points2 {n : ℕ} (h : n < 50) : n < cfg2.N := h.trans_eq N_2.symm

def lastPoint2 : Fin cfg2.N := ⟨49, lt_points2 (by decide)⟩

-- Where the block index is zero, a block element's coordinate is its coordinate in the array.
theorem emb2_fix (w : Fin cfg2.W) (a : Fin (cfg2.win w).shape.rank) (h : w.val ∉ [0, 1, 6] ∨ a.val ≠ 0) (t : Fin cfg2.N)
    (y : ((cfg2.win w).xblock (grid2.coords t)).Idx) : (((cfg2.win w).rect t).emb y a : ℕ) = y a :=
  (cfg2.win w).rect_emb_val_of_index_zero t a ((idx2_facts t w a).trans (if_neg fun g => h.elim (· g.1) (· g.2))) y

-- Where the block index is the point's number, row `q` of the block at point `t` is row `extent * t + q` of the array.
theorem emb2_row (w : Fin cfg2.W) (a : Fin (cfg2.win w).shape.rank) (h : w.val ∈ [0, 1, 6] ∧ a.val = 0) (t : Fin cfg2.N)
    (y : ((cfg2.win w).xblock (grid2.coords t)).Idx) :
    (((cfg2.win w).rect t).emb y a : ℕ) = (cfg2.win w).size a * t.val + y a := by
  rw [Window.rect_emb_val, idx2_facts t w a, if_pos h, Nat.mul_comm]

theorem emb2_z (t : Fin cfg2.N) (q : Fin 2000) (k : Fin 128) :
    ((cfg2.win 6).blk t).view.emb (ix2 q k) = ix2 (rowAt t.val (point_lt2 t) q) k :=
  Shape.idx_ext₂ (emb2_row 6 (0 : Fin 2) (by decide) t _) (emb2_fix 6 (1 : Fin 2) (.inr (by decide)) t _)

-- Row `r` lies in the block of rows of point `r / 2000`.
theorem cover2_z (i : S100000x128.Idx) :
    ∃ t : Fin cfg2.N, (cfg2.win 6).flush t = true ∧ i ∈ ((cfg2.win 6).blk t).view.set := by
  obtain ⟨p, k, rfl⟩ : ∃ (p : Fin 100000) (k : Fin 128), i = ix2 p k := ⟨i 0, i 1, eq_ix2 i⟩
  obtain ⟨t, q, rfl⟩ : ∃ (t : Fin 50) (q : Fin 2000), p = rowAt t.val t.isLt q :=
    ⟨⟨p.val / 2000, Nat.div_lt_of_lt_mul p.isLt⟩, ⟨p.val % 2000, Nat.mod_lt _ (by decide)⟩, Fin.ext (Nat.div_add_mod _ _).symm⟩
  refine ⟨⟨t.val, lt_points2 t.isLt⟩, flush2_6 _, ?_⟩
  rw [← emb2_z ⟨t.val, lt_points2 t.isLt⟩ q k]
  exact View.emb_mem_set _ _

theorem eq_last2 (t : Fin cfg2.N) (h : t.val % 50 = 49) : t = lastPoint2 :=
  Fin.ext (by have := point_lt2 t; show t.val = 49; omega)

section Arrays

variable {c : Dev nD} (dat : Dat τ (Elt Ideal) Unit ℕ (UR sig nD τ) ℕ cfg2 c)

theorem arrAt2_z (G : S100000x128.Idx → EReal)
    (h : ∀ (t : Fin cfg2.N) (q : Fin 2000) (k : Fin 128), dat.after 6 t (ix2 q k) = G (ix2 (rowAt t.val (point_lt2 t) q) k)) :
    dat.arrAt 6 cfg2.N = G :=
  dat.arrAt_eq_of_cover 6 G (fun t _ => funext fun y => by
    rw [eq_ix2 y]
    exact (h t (y 0) (y 1)).trans (congrArg G (emb2_z t _ _).symm)) cover2_z

theorem arrAt2_sum (G : S1x128.Idx → EReal) (hafter : dat.after 7 lastPoint2 = G) : dat.arrAt 7 cfg2.N = G :=
  have e (y : S1x128.Idx) : ((cfg2.win 7).blk lastPoint2).view.emb y = y :=
    funext fun a => Fin.ext (emb2_fix 7 a (.inl (by decide)) _ y)
  dat.arrAt_eq_of_cover 7 G (fun t hf => funext fun y => by
    obtain rfl := eq_last2 t ((flush2_7 t).mp hf)
    exact (congrFun hafter y).trans (congrArg G (e y).symm))
    fun i => ⟨lastPoint2, (flush2_7 _).mpr rfl, e i ▸ View.emb_mem_set _ i⟩

theorem arrAt2_sumsq (G : S1x128.Idx → EReal) (hafter : dat.after 8 lastPoint2 = G) : dat.arrAt 8 cfg2.N = G :=
  have e (y : S1x128.Idx) : ((cfg2.win 8).blk lastPoint2).view.emb y = y :=
    funext fun a => Fin.ext (emb2_fix 8 a (.inl (by decide)) _ y)
  dat.arrAt_eq_of_cover 8 G (fun t hf => funext fun y => by
    obtain rfl := eq_last2 t ((flush2_8 t).mp hf)
    exact (congrFun hafter y).trans (congrArg G (e y).symm))
    fun i => ⟨lastPoint2, (flush2_8 _).mpr rfl, e i ▸ View.emb_mem_set _ i⟩

end Arrays

section Values

variable (V : (c : Dev nD) → (b : Ref sig .tc) → Buf (Elt Ideal) ((c : Thread nD τ).loc b))

theorem iblk2_x (c : Dev nD) (t : Fin cfg2.N) (q : Fin 2000) (j : Fin 128) :
    (iblk2 V c 0 t : Vec Ideal S2000x128 .f32) (ix2 q j) = V c main_v37 (ix2 (rowAt t.val (point_lt2 t) q) j) :=
  congrArg (V c main_v37)
    (Shape.idx_ext₂ (emb2_row 0 (0 : Fin 2) (by decide) t _) (emb2_fix 0 (1 : Fin 2) (.inr (by decide)) t _))

theorem iblk2_msg (c : Dev nD) (t : Fin cfg2.N) (q : Fin 2000) (j : Fin 128) :
    (iblk2 V c 1 t : Vec Ideal S2000x128 .f32) (ix2 q j) = V c main_v47 (ix2 (rowAt t.val (point_lt2 t) q) j) :=
  congrArg (V c main_v47)
    (Shape.idx_ext₂ (emb2_row 1 (0 : Fin 2) (by decide) t _) (emb2_fix 1 (1 : Fin 2) (.inr (by decide)) t _))

theorem iblk2_wa (c : Dev nD) (t : Fin cfg2.N) : (iblk2 V c 2 t : Vec Ideal S128x128 .f32) = V c main_v49 :=
  funext fun y => congrArg (V c main_v49)
    (funext fun a => Fin.ext (emb2_fix 2 a (.inl (by decide)) t y))

theorem iblk2_ba (c : Dev nD) (t : Fin cfg2.N) : (iblk2 V c 3 t : Vec Ideal S1x128 .f32) = V c main_v52 :=
  funext fun y => congrArg (V c main_v52)
    (funext fun a => Fin.ext (emb2_fix 3 a (.inl (by decide)) t y))

theorem iblk2_wb (c : Dev nD) (t : Fin cfg2.N) : (iblk2 V c 4 t : Vec Ideal S128x128 .f32) = V c main_v54 :=
  funext fun y => congrArg (V c main_v54)
    (funext fun a => Fin.ext (emb2_fix 4 a (.inl (by decide)) t y))

theorem iblk2_bb (c : Dev nD) (t : Fin cfg2.N) : (iblk2 V c 5 t : Vec Ideal S1x128 .f32) = V c main_v57 :=
  funext fun y => congrArg (V c main_v57)
    (funext fun a => Fin.ext (emb2_fix 5 a (.inl (by decide)) t y))

abbrev mlp2 (c : Dev nD) : GinSpec.Mat :=
  mlpOf (V c main_v37) (V c main_v47) (V c main_v49) (V c main_v52) (V c main_v54) (V c main_v57)

abbrev zblk2 (c : Dev nD) (t : Fin cfg2.N) : FVec Ideal S2000x128 .f32 :=
  k2_pay5 (iblk2 V c 0 t) (iblk2 V c 1 t) (iblk2 V c 2 t) (iblk2 V c 3 t) (iblk2 V c 4 t) (iblk2 V c 5 t)

theorem zblk2_apply (c : Dev nD) (t : Fin cfg2.N) (q : Fin 2000) (k : Fin 128) :
    zblk2 V c t (ix2 q k) = mlp2 V c (rowAt t.val (point_lt2 t) q) k := by
  unfold zblk2
  rw [iblk2_wa V c t, iblk2_ba V c t, iblk2_wb V c t, iblk2_bb V c t]
  exact k2_pay5_rows _ _ _ _ _ _ _ _ t.val (point_lt2 t) (iblk2_x V c t) (iblk2_msg V c t) q k

theorem sumStep2 (c : Dev nD) (t : Fin cfg2.N) (acc : Vec Ideal S1x128 .f32) (k : Fin 128) :
    k2_pay6 (iblk2 V c 0 t) (iblk2 V c 1 t) (iblk2 V c 2 t) (iblk2 V c 3 t) (iblk2 V c 4 t) (iblk2 V c 5 t) acc (ix2 0 k)
      = acc (ix2 0 k) + ∑ q : Fin 2000, mlp2 V c (rowAt t.val (point_lt2 t) q) k :=
  (k2_pay6_apply _ _ _ _ _ _ acc k).trans
    (congrArg (acc (ix2 0 k) + ·) (Finset.sum_congr rfl fun q _ => zblk2_apply V c t q k))

theorem sqStep2 (c : Dev nD) (t : Fin cfg2.N) (acc : Vec Ideal S1x128 .f32) (k : Fin 128) :
    k2_pay2 (zblk2 V c t) acc (ix2 0 k)
      = acc (ix2 0 k) + ∑ q : Fin 2000, mlp2 V c (rowAt t.val (point_lt2 t) q) k * mlp2 V c (rowAt t.val (point_lt2 t) q) k :=
  (k2_pay2_apply (zblk2 V c t) acc k).trans (congrArg (acc (ix2 0 k) + ·) (Finset.sum_congr rfl fun q _ =>
    congrArg₂ (· * ·) (zblk2_apply V c t q k) (zblk2_apply V c t q k)))

-- A running row that starts from zero and gains one block's column sums per point ends as the column sums over all rows.
theorem sumRow2_last (c : Dev nD) (k : Fin 128) :
    (outsAt2 V c 49 (lt_points2 (by decide))).2.2.2.1 (ix2 0 k) = GinSpec.colSum (mlp2 V c) k :=
  runSum_last (mlp2 V c) k (fun n h => (outsAt2 V c n (lt_points2 h)).2.2.2.1 (ix2 0 k))
    (fun h => (congrFun (sum2_first V c (lt_points2 h)) (ix2 0 k)).trans <|
      (sumStep2 V c ⟨0, lt_points2 h⟩ _ k).trans (congrArg (· + _) (k2_pay3_apply _)))
    (fun n h => (congrFun (sum2_step V c n (lt_points2 h)) (ix2 0 k)).trans (sumStep2 V c ⟨n + 1, lt_points2 h⟩ _ k))

theorem sqRow2_last (c : Dev nD) (k : Fin 128) :
    (outsAt2 V c 49 (lt_points2 (by decide))).2.2.2.2 (ix2 0 k)
      = GinSpec.colSum (fun r j => mlp2 V c r j * mlp2 V c r j) k :=
  runSum_last (fun r j => mlp2 V c r j * mlp2 V c r j) k (fun n h => (outsAt2 V c n (lt_points2 h)).2.2.2.2 (ix2 0 k))
    (fun h => (congrFun (sumsq2_first V c (lt_points2 h)) (ix2 0 k)).trans <|
      (sqStep2 V c ⟨0, lt_points2 h⟩ _ k).trans (congrArg (· + _) (k2_pay4_apply _)))
    (fun n h => (congrFun (sumsq2_step V c n (lt_points2 h)) (ix2 0 k)).trans (sqStep2 V c ⟨n + 1, lt_points2 h⟩ _ k))

theorem outsAtLastPoint2 (c : Dev nD) :
    outsAt2 V c lastPoint2.val lastPoint2.isLt = outsAt2 V c 49 (lt_points2 (by decide)) := rfl

theorem row_ix2 (y : S1x128.Idx) : y = ix2 0 (y 1) :=
  (eq_ix2 y).trans (congrArg (ix2 · (y 1)) (Fin.eq_zero (y 0)))

theorem z2_value (c : Dev nD) :
    (dat2 (F := Ideal) V c).arrAt 6 cfg2.N
      = GinSpec.ofMat (GinSpec.mlp (fun r k => GinSpec.toMat (V c main_v37) r k + GinSpec.toMat (V c main_v47) r k)
          (GinSpec.toWt (V c main_v49)) (GinSpec.row1 (V c main_v52)) (GinSpec.toWt (V c main_v54)) (GinSpec.row1 (V c main_v57))) :=
  arrAt2_z (dat2 V c) (GinSpec.ofMat (mlp2 V c)) fun t q k =>
    (congrFun ((after2_6 V c t).trans (z2_at V c t)) _).trans (zblk2_apply V c t q k)

theorem sum2_value (c : Dev nD) :
    (dat2 (F := Ideal) V c).arrAt 7 cfg2.N
      = fun i : S1x128.Idx => GinSpec.colSum (GinSpec.mlp (fun r k => GinSpec.toMat (V c main_v37) r k + GinSpec.toMat (V c main_v47) r k)
          (GinSpec.toWt (V c main_v49)) (GinSpec.row1 (V c main_v52)) (GinSpec.toWt (V c main_v54)) (GinSpec.row1 (V c main_v57))) (i 1) := by
  refine arrAt2_sum (dat2 V c) (fun i : S1x128.Idx => GinSpec.colSum (mlp2 V c) (i 1)) ?_
  rw [after2_7, last2_out7 V c lastPoint2 rfl, k2_pay1_eq]
  funext y
  rw [row_ix2 y]
  exact (congrArg (fun p => p.2.2.2.1 (ix2 0 (y 1))) (outsAtLastPoint2 V c)).trans (sumRow2_last V c (y 1))

theorem sumsq2_value (c : Dev nD) :
    (dat2 (F := Ideal) V c).arrAt 8 cfg2.N
      = fun i : S1x128.Idx => GinSpec.colSum (fun r k =>
          GinSpec.mlp (fun r k => GinSpec.toMat (V c main_v37) r k + GinSpec.toMat (V c main_v47) r k)
            (GinSpec.toWt (V c main_v49)) (GinSpec.row1 (V c main_v52)) (GinSpec.toWt (V c main_v54)) (GinSpec.row1 (V c main_v57)) r k
          * GinSpec.mlp (fun r k => GinSpec.toMat (V c main_v37) r k + GinSpec.toMat (V c main_v47) r k)
            (GinSpec.toWt (V c main_v49)) (GinSpec.row1 (V c main_v52)) (GinSpec.toWt (V c main_v54)) (GinSpec.row1 (V c main_v57)) r k) (i 1) := by
  refine arrAt2_sumsq (dat2 V c) (fun i : S1x128.Idx => GinSpec.colSum (fun r j => mlp2 V c r j * mlp2 V c r j) (i 1)) ?_
  rw [after2_8, last2_out8 V c lastPoint2 rfl]
  funext y
  rw [row_ix2 y]
  exact (congrArg (fun p => p.2.2.2.2 (ix2 0 (y 1))) (outsAtLastPoint2 V c)).trans (sqRow2_last V c (y 1))

end Values

end Cert.KernelIdeal.Hand

end
-- ==== Proof.KI.Stats4Outs.lean ====
import proofs.«137621_j4303557230930_1_alg».proof.Proof.KI.Stats4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem zeros4 : (![0, 0] : Fin 2 → Nat) = fun _ => 0 := funext fun a => by fin_cases a <;> rfl

theorem k4_pay1_self (v : FVec F S1x128 .f32) : k4_pay1 v = v := shapeCast_self _ _

variable (V : (c : Dev nD) → (b : Ref sig .tc) → Buf (Elt F) ((c : Thread nD τ).loc b)) (c : Dev nD)

-- `o` is what point `t` makes of accumulators `s`, `q`: its output block, and its column sums and squared column sums added onto them.
def IsStep4 (t : Fin cfg4.N) (s q : Vec F S1x128 .f32) (o : Vec F S2000x128 .f32 × Vec F S1x128 .f32 × Vec F S1x128 .f32 × Vec F S1x128 .f32 × Vec F S1x128 .f32) : Prop :=
  o.1 = k4_pay5 (iblk4 V c 0 t) (iblk4 V c 1 t) (iblk4 V c 2 t) (iblk4 V c 3 t) (iblk4 V c 4 t) (iblk4 V c 5 t) ∧ o.2.2.2.1 = k4_pay6 (iblk4 V c 0 t) (iblk4 V c 1 t) (iblk4 V c 2 t) (iblk4 V c 3 t) (iblk4 V c 4 t) (iblk4 V c 5 t) s
    ∧ o.2.2.2.2 = k4_pay2 (k4_pay5 (iblk4 V c 0 t) (iblk4 V c 1 t) (iblk4 V c 2 t) (iblk4 V c 3 t) (iblk4 V c 4 t) (iblk4 V c 5 t)) q

-- A list of stores whose last store covers every index reads back as that store's payload: so each control case is a step, and at the last point each statistics output equals its accumulator's new contents.
theorem steps4 (t : Fin cfg4.N) (s q : Vec F S1x128 .f32) :
    (∀ hf hl, IsStep4 V c t k4_pay3 k4_pay4 (firstOuts4 V c t hf hl)) ∧ (∀ hf hl, IsStep4 V c t s q (midOuts4 V c t hf hl s q))
      ∧ ∀ hf hl, IsStep4 V c t s q (lastOuts4 V c t hf hl s q) ∧ (lastOuts4 V c t hf hl s q).2.1 = (lastOuts4 V c t hf hl s q).2.2.2.1
        ∧ (lastOuts4 V c t hf hl s q).2.2.1 = (lastOuts4 V c t hf hl s q).2.2.2.2 := by
  unfold IsStep4 firstOuts4 midOuts4 lastOuts4 firstAt4 midAt4 lastAt4 runFirst4 runMid4 runLast4
  sl_unfold_words
  simp only [View.readAt_eq_ld, Memref.IsWhole.read_unread, Memref.IsWhole.read_unread (m := sumRef4), Memref.IsWhole.read_unread (m := sqRef4),
    View.ld_unit_zero (S := S2000x128) zeros4, View.ld_unit_zero (S := S128x128) zeros4, View.ld_unit_zero (S := S1x128) zeros4,
    View.readCov_unit_zero (S := S1x128) _ zeros4, View.canon_cons_unit_zero (S := S2000x128) zeros4, View.canon_cons_unit_zero (S := S1x128) zeros4,
    k4_pay1_self, and_self, implies_true]

theorem outsAt4_step (n : ℕ) (h : n + 1 < cfg4.N) :
    IsStep4 V c ⟨n + 1, h⟩ (outsAt4 V c n (Nat.lt_of_succ_lt h)).2.2.2.1 (outsAt4 V c n (Nat.lt_of_succ_lt h)).2.2.2.2 (outsAt4 V c (n + 1) h) := by
  rw [outsAt4]; split
  · exact ((steps4 V c ..).2.2 _ _).1
  · exact (steps4 V c ..).2.1 _ _

theorem sum4_first (h : 0 < cfg4.N) :
    (outsAt4 V c 0 h).2.2.2.1 = k4_pay6 (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (k4_pay3 (F := F)) :=
  ((steps4 V c ⟨0, h⟩ k4_pay3 k4_pay4).1 _ _).2.1

theorem sumsq4_first (h : 0 < cfg4.N) :
    (outsAt4 V c 0 h).2.2.2.2 = k4_pay2 (k4_pay5 (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩)) (k4_pay4 (F := F)) :=
  ((steps4 V c ⟨0, h⟩ k4_pay3 k4_pay4).1 _ _).2.2

theorem sum4_step (n : ℕ) (h : n + 1 < cfg4.N) :
    (outsAt4 V c (n + 1) h).2.2.2.1 = k4_pay6 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.2.2.1 :=
  (outsAt4_step V c n h).2.1

theorem sumsq4_step (n : ℕ) (h : n + 1 < cfg4.N) :
    (outsAt4 V c (n + 1) h).2.2.2.2 = k4_pay2 (k4_pay5 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩)) (outsAt4 V c n (Nat.lt_of_succ_lt h)).2.2.2.2 :=
  (outsAt4_step V c n h).2.2

theorem z4_at (t : Fin cfg4.N) : (outsAt4 V c t.val t.isLt).1 = k4_pay5 (iblk4 V c 0 t) (iblk4 V c 1 t) (iblk4 V c 2 t) (iblk4 V c 3 t) (iblk4 V c 4 t) (iblk4 V c 5 t) := by
  obtain ⟨n, hn⟩ := t
  cases n with
  | zero => exact ((steps4 V c ⟨0, hn⟩ k4_pay3 k4_pay4).1 _ _).1
  | succ n => exact (outsAt4_step V c n hn).1

theorem last4_out7 (t : Fin cfg4.N) (ht : t.val = 49) :
    (outsAt4 V c t.val t.isLt).2.1 = k4_pay1 (outsAt4 V c t.val t.isLt).2.2.2.1 := by
  rw [outsAt4_last V c t ht, k4_pay1_self]; exact ((steps4 V c ..).2.2 _ _).2.1

theorem last4_out8 (t : Fin cfg4.N) (ht : t.val = 49) :
    (outsAt4 V c t.val t.isLt).2.2.1 = (outsAt4 V c t.val t.isLt).2.2.2.2 := by
  rw [outsAt4_last V c t ht]; exact ((steps4 V c ..).2.2 _ _).2.2

end Cert.KernelIdeal.Hand
-- ==== Proof.KI.Stats4Pay.lean ====
import proofs.«137621_j4303557230930_1_alg».proof.Proof.KI.StatsCommon

set_option maxRecDepth 16384

noncomputable section

open scoped BigOperators

namespace Cert.KernelIdeal.Hand

open Cert.KernelIdeal Cert.KernelIdeal.Gen
open Idealize.ShloMosaic Idealize.ShloMosaic.ValueIdx

-- The block `relu ((x + msg) · w1 + b1) · w2 + b2` of blocks holding rows of `X` and `M` is the perceptron of `X + M` at those rows.
theorem k4_pay5_rows (X M : S100000x128.Idx → EReal) (W1 : S128x128.Idx → EReal) (B1 : S1x128.Idx → EReal)
    (W2 : S128x128.Idx → EReal) (B2 : S1x128.Idx → EReal) (x msg : Vec Ideal S2000x128 .f32) (n : ℕ) (hn : n < 50)
    (hx : ∀ (q : Fin 2000) (j : Fin 128), x (ix2 q j) = X (ix2 (rowAt n hn q) j))
    (hm : ∀ (q : Fin 2000) (j : Fin 128), msg (ix2 q j) = M (ix2 (rowAt n hn q) j)) (q : Fin 2000) (c : Fin 128) :
    k4_pay5 x msg W1 B1 W2 B2 (ix2 q c) = mlpOf X M W1 B1 W2 B2 (rowAt n hn q) c := by
  simp only [k4_pay5, shapeCast_self, addf_apply, maximumf_apply, truncf_apply, prod_apply, broadcastTo_1b_ab_apply,
    broadcast_apply, hx, hm]
  exact congrArg (fun z : EReal => (∑ k : Fin 128, max ((∑ j : Fin 128, (X (ix2 (rowAt n hn q) j) + M (ix2 (rowAt n hn q) j))
    * W1 (ix2 j k)) + B1 (ix2 0 k)) z * W2 (ix2 k c)) + B2 (ix2 0 c)) Ideal.ofBits_zero_f32

theorem k4_pay6_apply (x msg : Vec Ideal S2000x128 .f32) (w1 : Vec Ideal S128x128 .f32) (b1 : Vec Ideal S1x128 .f32)
    (w2 : Vec Ideal S128x128 .f32) (b2 : Vec Ideal S1x128 .f32) (acc : Vec Ideal S1x128 .f32) (c : Fin 128) :
    k4_pay6 x msg w1 b1 w2 b2 acc (ix2 0 c)
      = acc (ix2 0 c) + ∑ q : Fin 2000, k4_pay5 x msg w1 b1 w2 b2 (ix2 q c) :=
  congrArg (acc (ix2 0 c) + ·) (colSum_apply (k4_pay5 x msg w1 b1 w2 b2) _ _ c)

theorem k4_pay2_apply (z : FVec Ideal S2000x128 .f32) (acc : Vec Ideal S1x128 .f32) (c : Fin 128) :
    k4_pay2 z acc (ix2 0 c) = acc (ix2 0 c) + ∑ q : Fin 2000, z (ix2 q c) * z (ix2 q c) := by
  unfold k4_pay2
  exact (congrFun (shapeCast_self _ shapeCasts_S1x128_S1x128) (ix2 0 c)).trans
    (congrArg (acc (ix2 0 c) + ·) (colSum_apply (mulf z z) _ _ c))

theorem k4_pay1_eq (v : FVec Ideal S1x128 .f32) : k4_pay1 v = v :=
  shapeCast_self v shapeCasts_S1x128_S1x128

theorem k4_pay3_apply (i : S1x128.Idx) : k4_pay3 (F := Ideal) i = 0 := by
  unfold k4_pay3
  exact (congrFun (shapeCast_self _ shapeCasts_S1x128_S1x128) i).trans Ideal.ofBits_zero_f32

-- Both running rows start from the same zero row.
theorem k4_pay4_apply (i : S1x128.Idx) : k4_pay4 (F := Ideal) i = 0 :=
  k4_pay3_apply i

end Cert.KernelIdeal.Hand

end
-- ==== Proof.KI.Stats4Value.lean ====
import proofs.«137621_j4303557230930_1_alg».proof.Proof.KI.Stats4
import proofs.«137621_j4303557230930_1_alg».proof.Proof.KI.Stats4Outs
import proofs.«137621_j4303557230930_1_alg».proof.Proof.KI.Stats4Pay
import proofs.«137621_j4303557230930_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem idx4_facts : ∀ (t : Fin cfg4.N) (w : Fin cfg4.W) (a : Fin (cfg4.win w).shape.rank),
    (cfg4.win w).index t a = if w.val ∈ [0, 1, 6] ∧ a.val = 0 then t.val else 0 :=
  (by decide +kernel : ∀ (t : Fin grid4.N) (w : Fin cfg4.W) (a : Fin (cfg4.win w).shape.rank), _)

theorem point_lt4 (t : Fin cfg4.N) : t.val < 50 := t.isLt.trans_eq N_4

theorem lt_points4 {n : ℕ} (h : n < 50) : n < cfg4.N := h.trans_eq N_4.symm

def lastPoint4 : Fin cfg4.N := ⟨49, lt_points4 (by decide)⟩

-- Where the block index is zero, a block element's coordinate is its coordinate in the array.
theorem emb4_fix (w : Fin cfg4.W) (a : Fin (cfg4.win w).shape.rank) (h : w.val ∉ [0, 1, 6] ∨ a.val ≠ 0) (t : Fin cfg4.N)
    (y : ((cfg4.win w).xblock (grid4.coords t)).Idx) : (((cfg4.win w).rect t).emb y a : ℕ) = y a :=
  (cfg4.win w).rect_emb_val_of_index_zero t a ((idx4_facts t w a).trans (if_neg fun g => h.elim (· g.1) (· g.2))) y

-- Where the block index is the point's number, row `q` of the block at point `t` is row `extent * t + q` of the array.
theorem emb4_row (w : Fin cfg4.W) (a : Fin (cfg4.win w).shape.rank) (h : w.val ∈ [0, 1, 6] ∧ a.val = 0) (t : Fin cfg4.N)
    (y : ((cfg4.win w).xblock (grid4.coords t)).Idx) :
    (((cfg4.win w).rect t).emb y a : ℕ) = (cfg4.win w).size a * t.val + y a := by
  rw [Window.rect_emb_val, idx4_facts t w a, if_pos h, Nat.mul_comm]

theorem emb4_z (t : Fin cfg4.N) (q : Fin 2000) (k : Fin 128) :
    ((cfg4.win 6).blk t).view.emb (ix2 q k) = ix2 (rowAt t.val (point_lt4 t) q) k :=
  Shape.idx_ext₂ (emb4_row 6 (0 : Fin 2) (by decide) t _) (emb4_fix 6 (1 : Fin 2) (.inr (by decide)) t _)

-- Row `r` lies in the block of rows of point `r / 2000`.
theorem cover4_z (i : S100000x128.Idx) :
    ∃ t : Fin cfg4.N, (cfg4.win 6).flush t = true ∧ i ∈ ((cfg4.win 6).blk t).view.set := by
  obtain ⟨p, k, rfl⟩ : ∃ (p : Fin 100000) (k : Fin 128), i = ix2 p k := ⟨i 0, i 1, eq_ix2 i⟩
  obtain ⟨t, q, rfl⟩ : ∃ (t : Fin 50) (q : Fin 2000), p = rowAt t.val t.isLt q :=
    ⟨⟨p.val / 2000, Nat.div_lt_of_lt_mul p.isLt⟩, ⟨p.val % 2000, Nat.mod_lt _ (by decide)⟩, Fin.ext (Nat.div_add_mod _ _).symm⟩
  refine ⟨⟨t.val, lt_points4 t.isLt⟩, flush4_6 _, ?_⟩
  rw [← emb4_z ⟨t.val, lt_points4 t.isLt⟩ q k]
  exact View.emb_mem_set _ _

theorem eq_last4 (t : Fin cfg4.N) (h : t.val % 50 = 49) : t = lastPoint4 :=
  Fin.ext (by have := point_lt4 t; show t.val = 49; omega)

section Arrays

variable {c : Dev nD} (dat : Dat τ (Elt Ideal) Unit ℕ (UR sig nD τ) ℕ cfg4 c)

theorem arrAt4_z (G : S100000x128.Idx → EReal)
    (h : ∀ (t : Fin cfg4.N) (q : Fin 2000) (k : Fin 128), dat.after 6 t (ix2 q k) = G (ix2 (rowAt t.val (point_lt4 t) q) k)) :
    dat.arrAt 6 cfg4.N = G :=
  dat.arrAt_eq_of_cover 6 G (fun t _ => funext fun y => by
    rw [eq_ix2 y]
    exact (h t (y 0) (y 1)).trans (congrArg G (emb4_z t _ _).symm)) cover4_z

theorem arrAt4_sum (G : S1x128.Idx → EReal) (hafter : dat.after 7 lastPoint4 = G) : dat.arrAt 7 cfg4.N = G :=
  have e (y : S1x128.Idx) : ((cfg4.win 7).blk lastPoint4).view.emb y = y :=
    funext fun a => Fin.ext (emb4_fix 7 a (.inl (by decide)) _ y)
  dat.arrAt_eq_of_cover 7 G (fun t hf => funext fun y => by
    obtain rfl := eq_last4 t ((flush4_7 t).mp hf)
    exact (congrFun hafter y).trans (congrArg G (e y).symm))
    fun i => ⟨lastPoint4, (flush4_7 _).mpr rfl, e i ▸ View.emb_mem_set _ i⟩

theorem arrAt4_sumsq (G : S1x128.Idx → EReal) (hafter : dat.after 8 lastPoint4 = G) : dat.arrAt 8 cfg4.N = G :=
  have e (y : S1x128.Idx) : ((cfg4.win 8).blk lastPoint4).view.emb y = y :=
    funext fun a => Fin.ext (emb4_fix 8 a (.inl (by decide)) _ y)
  dat.arrAt_eq_of_cover 8 G (fun t hf => funext fun y => by
    obtain rfl := eq_last4 t ((flush4_8 t).mp hf)
    exact (congrFun hafter y).trans (congrArg G (e y).symm))
    fun i => ⟨lastPoint4, (flush4_8 _).mpr rfl, e i ▸ View.emb_mem_set _ i⟩

end Arrays

section Values

variable (V : (c : Dev nD) → (b : Ref sig .tc) → Buf (Elt Ideal) ((c : Thread nD τ).loc b))

theorem iblk4_x (c : Dev nD) (t : Fin cfg4.N) (q : Fin 2000) (j : Fin 128) :
    (iblk4 V c 0 t : Vec Ideal S2000x128 .f32) (ix2 q j) = V c main_v71 (ix2 (rowAt t.val (point_lt4 t) q) j) :=
  congrArg (V c main_v71)
    (Shape.idx_ext₂ (emb4_row 0 (0 : Fin 2) (by decide) t _) (emb4_fix 0 (1 : Fin 2) (.inr (by decide)) t _))

theorem iblk4_msg (c : Dev nD) (t : Fin cfg4.N) (q : Fin 2000) (j : Fin 128) :
    (iblk4 V c 1 t : Vec Ideal S2000x128 .f32) (ix2 q j) = V c main_v81 (ix2 (rowAt t.val (point_lt4 t) q) j) :=
  congrArg (V c main_v81)
    (Shape.idx_ext₂ (emb4_row 1 (0 : Fin 2) (by decide) t _) (emb4_fix 1 (1 : Fin 2) (.inr (by decide)) t _))

theorem iblk4_wa (c : Dev nD) (t : Fin cfg4.N) : (iblk4 V c 2 t : Vec Ideal S128x128 .f32) = V c main_v83 :=
  funext fun y => congrArg (V c main_v83)
    (funext fun a => Fin.ext (emb4_fix 2 a (.inl (by decide)) t y))

theorem iblk4_ba (c : Dev nD) (t : Fin cfg4.N) : (iblk4 V c 3 t : Vec Ideal S1x128 .f32) = V c main_v86 :=
  funext fun y => congrArg (V c main_v86)
    (funext fun a => Fin.ext (emb4_fix 3 a (.inl (by decide)) t y))

theorem iblk4_wb (c : Dev nD) (t : Fin cfg4.N) : (iblk4 V c 4 t : Vec Ideal S128x128 .f32) = V c main_v88 :=
  funext fun y => congrArg (V c main_v88)
    (funext fun a => Fin.ext (emb4_fix 4 a (.inl (by decide)) t y))

theorem iblk4_bb (c : Dev nD) (t : Fin cfg4.N) : (iblk4 V c 5 t : Vec Ideal S1x128 .f32) = V c main_v91 :=
  funext fun y => congrArg (V c main_v91)
    (funext fun a => Fin.ext (emb4_fix 5 a (.inl (by decide)) t y))

abbrev mlp4 (c : Dev nD) : GinSpec.Mat :=
  mlpOf (V c main_v71) (V c main_v81) (V c main_v83) (V c main_v86) (V c main_v88) (V c main_v91)

abbrev zblk4 (c : Dev nD) (t : Fin cfg4.N) : FVec Ideal S2000x128 .f32 :=
  k4_pay5 (iblk4 V c 0 t) (iblk4 V c 1 t) (iblk4 V c 2 t) (iblk4 V c 3 t) (iblk4 V c 4 t) (iblk4 V c 5 t)

theorem zblk4_apply (c : Dev nD) (t : Fin cfg4.N) (q : Fin 2000) (k : Fin 128) :
    zblk4 V c t (ix2 q k) = mlp4 V c (rowAt t.val (point_lt4 t) q) k := by
  unfold zblk4
  rw [iblk4_wa V c t, iblk4_ba V c t, iblk4_wb V c t, iblk4_bb V c t]
  exact k4_pay5_rows _ _ _ _ _ _ _ _ t.val (point_lt4 t) (iblk4_x V c t) (iblk4_msg V c t) q k

theorem sumStep4 (c : Dev nD) (t : Fin cfg4.N) (acc : Vec Ideal S1x128 .f32) (k : Fin 128) :
    k4_pay6 (iblk4 V c 0 t) (iblk4 V c 1 t) (iblk4 V c 2 t) (iblk4 V c 3 t) (iblk4 V c 4 t) (iblk4 V c 5 t) acc (ix2 0 k)
      = acc (ix2 0 k) + ∑ q : Fin 2000, mlp4 V c (rowAt t.val (point_lt4 t) q) k :=
  (k4_pay6_apply _ _ _ _ _ _ acc k).trans
    (congrArg (acc (ix2 0 k) + ·) (Finset.sum_congr rfl fun q _ => zblk4_apply V c t q k))

theorem sqStep4 (c : Dev nD) (t : Fin cfg4.N) (acc : Vec Ideal S1x128 .f32) (k : Fin 128) :
    k4_pay2 (zblk4 V c t) acc (ix2 0 k)
      = acc (ix2 0 k) + ∑ q : Fin 2000, mlp4 V c (rowAt t.val (point_lt4 t) q) k * mlp4 V c (rowAt t.val (point_lt4 t) q) k :=
  (k4_pay2_apply (zblk4 V c t) acc k).trans (congrArg (acc (ix2 0 k) + ·) (Finset.sum_congr rfl fun q _ =>
    congrArg₂ (· * ·) (zblk4_apply V c t q k) (zblk4_apply V c t q k)))

-- A running row that starts from zero and gains one block's column sums per point ends as the column sums over all rows.
theorem sumRow4_last (c : Dev nD) (k : Fin 128) :
    (outsAt4 V c 49 (lt_points4 (by decide))).2.2.2.1 (ix2 0 k) = GinSpec.colSum (mlp4 V c) k :=
  runSum_last (mlp4 V c) k (fun n h => (outsAt4 V c n (lt_points4 h)).2.2.2.1 (ix2 0 k))
    (fun h => (congrFun (sum4_first V c (lt_points4 h)) (ix2 0 k)).trans <|
      (sumStep4 V c ⟨0, lt_points4 h⟩ _ k).trans (congrArg (· + _) (k4_pay3_apply _)))
    (fun n h => (congrFun (sum4_step V c n (lt_points4 h)) (ix2 0 k)).trans (sumStep4 V c ⟨n + 1, lt_points4 h⟩ _ k))

theorem sqRow4_last (c : Dev nD) (k : Fin 128) :
    (outsAt4 V c 49 (lt_points4 (by decide))).2.2.2.2 (ix2 0 k)
      = GinSpec.colSum (fun r j => mlp4 V c r j * mlp4 V c r j) k :=
  runSum_last (fun r j => mlp4 V c r j * mlp4 V c r j) k (fun n h => (outsAt4 V c n (lt_points4 h)).2.2.2.2 (ix2 0 k))
    (fun h => (congrFun (sumsq4_first V c (lt_points4 h)) (ix2 0 k)).trans <|
      (sqStep4 V c ⟨0, lt_points4 h⟩ _ k).trans (congrArg (· + _) (k4_pay4_apply _)))
    (fun n h => (congrFun (sumsq4_step V c n (lt_points4 h)) (ix2 0 k)).trans (sqStep4 V c ⟨n + 1, lt_points4 h⟩ _ k))

theorem outsAtLastPoint4 (c : Dev nD) :
    outsAt4 V c lastPoint4.val lastPoint4.isLt = outsAt4 V c 49 (lt_points4 (by decide)) := rfl

theorem row_ix4 (y : S1x128.Idx) : y = ix2 0 (y 1) :=
  (eq_ix2 y).trans (congrArg (ix2 · (y 1)) (Fin.eq_zero (y 0)))

theorem z4_value (c : Dev nD) :
    (dat4 (F := Ideal) V c).arrAt 6 cfg4.N
      = GinSpec.ofMat (GinSpec.mlp (fun r k => GinSpec.toMat (V c main_v71) r k + GinSpec.toMat (V c main_v81) r k)
          (GinSpec.toWt (V c main_v83)) (GinSpec.row1 (V c main_v86)) (GinSpec.toWt (V c main_v88)) (GinSpec.row1 (V c main_v91))) :=
  arrAt4_z (dat4 V c) (GinSpec.ofMat (mlp4 V c)) fun t q k =>
    (congrFun ((after4_6 V c t).trans (z4_at V c t)) _).trans (zblk4_apply V c t q k)

theorem sum4_value (c : Dev nD) :
    (dat4 (F := Ideal) V c).arrAt 7 cfg4.N
      = fun i : S1x128.Idx => GinSpec.colSum (GinSpec.mlp (fun r k => GinSpec.toMat (V c main_v71) r k + GinSpec.toMat (V c main_v81) r k)
          (GinSpec.toWt (V c main_v83)) (GinSpec.row1 (V c main_v86)) (GinSpec.toWt (V c main_v88)) (GinSpec.row1 (V c main_v91))) (i 1) := by
  refine arrAt4_sum (dat4 V c) (fun i : S1x128.Idx => GinSpec.colSum (mlp4 V c) (i 1)) ?_
  rw [after4_7, last4_out7 V c lastPoint4 rfl, k4_pay1_eq]
  funext y
  rw [row_ix4 y]
  exact (congrArg (fun p => p.2.2.2.1 (ix2 0 (y 1))) (outsAtLastPoint4 V c)).trans (sumRow4_last V c (y 1))

theorem sumsq4_value (c : Dev nD) :
    (dat4 (F := Ideal) V c).arrAt 8 cfg4.N
      = fun i : S1x128.Idx => GinSpec.colSum (fun r k =>
          GinSpec.mlp (fun r k => GinSpec.toMat (V c main_v71) r k + GinSpec.toMat (V c main_v81) r k)
            (GinSpec.toWt (V c main_v83)) (GinSpec.row1 (V c main_v86)) (GinSpec.toWt (V c main_v88)) (GinSpec.row1 (V c main_v91)) r k
          * GinSpec.mlp (fun r k => GinSpec.toMat (V c main_v71) r k + GinSpec.toMat (V c main_v81) r k)
            (GinSpec.toWt (V c main_v83)) (GinSpec.row1 (V c main_v86)) (GinSpec.toWt (V c main_v88)) (GinSpec.row1 (V c main_v91)) r k) (i 1) := by
  refine arrAt4_sumsq (dat4 V c) (fun i : S1x128.Idx => GinSpec.colSum (fun r j => mlp4 V c r j * mlp4 V c r j) (i 1)) ?_
  rw [after4_8, last4_out8 V c lastPoint4 rfl]
  funext y
  rw [row_ix4 y]
  exact (congrArg (fun p => p.2.2.2.2 (ix2 0 (y 1))) (outsAtLastPoint4 V c)).trans (sqRow4_last V c (y 1))

end Values

end Cert.KernelIdeal.Hand

end
-- ==== Proof.KI.Bn1Value.lean ====
import proofs.«137621_j4303557230930_1_alg».proof.Proof.KI.Bn1
import proofs.«137621_j4303557230930_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem spread_row1_apply (x : S1x128.Idx → EReal) (p : Fin 2000) (q : Fin 128) :
    broadcastTo S2000x128 x broadcasts_S1x128_S2000x128 (ix2 p q) = x (ix2 0 q) :=
  broadcastTo_apply x broadcasts_S1x128_S2000x128 (ix2 p q) (ix2 0 q) fun | ⟨0, _⟩ => rfl | ⟨1, _⟩ => rfl

theorem oblk1_apply (xz : S2000x128.Idx → EReal) (xm xv xg xb : S1x128.Idx → EReal) (p : Fin 2000) (q : Fin 128) :
    oblk1 (F := Ideal) xz xm xv xg xb (ix2 p q)
      = max (xg (ix2 0 q) * (xz (ix2 p q) - xm (ix2 0 q)) * Ideal.rsqrt (xv (ix2 0 q) + GinSpec.eps) + xb (ix2 0 q)) 0 := by
  unfold oblk1 k1_pay1
  rw [View.canon_unit_zero zero_off1]
  simp only [View.ld_unit_zero (S := S2000x128) zero_off1, View.ld_unit_zero (S := S1x128) zero_off1, shapeCast_self,
    maximumf_apply, addf_apply, mulf_apply, subf_apply, broadcast_apply, spread_row1_apply, Ideal.ofBits_def, Ideal.ofBits_zero_f32]
  rfl

theorem block_index1 : ∀ t : Fin cfg1.N, win1_0.index t 0 = t.val ∧ win1_5.index t 0 = t.val :=
  (by decide +kernel : ∀ t : Fin grid1.N, _)

theorem pos1 (t : Fin cfg1.N) (p : Fin 2000) (q : Fin 128) (r : Fin 100000) (hr : r.val = 2000 * t.val + p.val) :
    ((cfg1.win 0).blk t).view.emb (ix2 p q) = (ix2 r q : S100000x128.Idx)
    ∧ ((cfg1.win 5).blk t).view.emb (ix2 p q) = (ix2 r q : S100000x128.Idx) := by
  obtain ⟨e0, e5⟩ := block_index1 t
  exact ⟨Shape.idx_ext₂ (show win1_0.index t 0 * 2000 + 1 * p.val = r.val by omega) (show 0 * 128 + 1 * q.val = q.val by omega),
    Shape.idx_ext₂ (show win1_5.index t 0 * 2000 + 1 * p.val = r.val by omega) (show 0 * 128 + 1 * q.val = q.val by omega)⟩

theorem rows1 (t : Fin cfg1.N) (y : S1x128.Idx) :
    ((cfg1.win 1).blk t).view.emb y = y ∧ ((cfg1.win 2).blk t).view.emb y = y
    ∧ ((cfg1.win 3).blk t).view.emb y = y ∧ ((cfg1.win 4).blk t).view.emb y = y := by
  refine ⟨?_, ?_, ?_, ?_⟩ <;>
    exact Shape.idx_ext₂ (show 0 * 1 + 1 * (y 0).val = _ by omega) (show 0 * 128 + 1 * (y 1).val = _ by omega)

theorem rows_covered1 (i : S100000x128.Idx) :
    ∃ t : Fin cfg1.N, (cfg1.win 5).flush t = true ∧ i ∈ ((cfg1.win 5).blk t).view.set :=
  have ht : (i 0).val / 2000 < cfg1.N := by have := idx2_lt0 i; show _ < grid1.N; rw [N_1]; omega
  have key : ∀ (t : Fin cfg1.N) (p : Fin 2000), (i 0).val = 2000 * t.val + p.val → i ∈ ((cfg1.win 5).blk t).view.set :=
    fun t p h => ((pos1 t p (i 1) (i 0) h).2.trans (eq_ix2 i).symm) ▸ View.emb_mem_set _ _
  ⟨⟨_, ht⟩, flush1_5 _, key _ ⟨(i 0).val % 2000, Nat.mod_lt _ (by decide)⟩ (Nat.div_add_mod _ _).symm⟩

theorem iblk1_0_apply (c : Dev nD) (t : Fin cfg1.N) (p : Fin 2000) (q : Fin 128) (r : Fin 100000) (hr : r.val = 2000 * t.val + p.val) :
    (iblk1 V c 0 t : S2000x128.Idx → EReal) (ix2 p q) = (V c main_v24_0 : S100000x128.Idx → EReal) (ix2 r q) :=
  congrArg (V c main_v24_0 : S100000x128.Idx → EReal) (pos1 t p q r hr).1

theorem iblk1_1_apply (c : Dev nD) (t : Fin cfg1.N) (q : Fin 128) :
    (iblk1 V c 1 t : S1x128.Idx → EReal) (ix2 0 q) = (V c main_v26 : S1x128.Idx → EReal) (ix2 0 q) :=
  congrArg (V c main_v26 : S1x128.Idx → EReal) (rows1 t _).1

theorem iblk1_2_apply (c : Dev nD) (t : Fin cfg1.N) (q : Fin 128) :
    (iblk1 V c 2 t : S1x128.Idx → EReal) (ix2 0 q) = (V c main_v30 : S1x128.Idx → EReal) (ix2 0 q) :=
  congrArg (V c main_v30 : S1x128.Idx → EReal) (rows1 t _).2.1

theorem iblk1_3_apply (c : Dev nD) (t : Fin cfg1.N) (q : Fin 128) :
    (iblk1 V c 3 t : S1x128.Idx → EReal) (ix2 0 q) = (V c main_v33 : S1x128.Idx → EReal) (ix2 0 q) :=
  congrArg (V c main_v33 : S1x128.Idx → EReal) (rows1 t _).2.2.1

theorem iblk1_4_apply (c : Dev nD) (t : Fin cfg1.N) (q : Fin 128) :
    (iblk1 V c 4 t : S1x128.Idx → EReal) (ix2 0 q) = (V c main_v36 : S1x128.Idx → EReal) (ix2 0 q) :=
  congrArg (V c main_v36 : S1x128.Idx → EReal) (rows1 t _).2.2.2

def bnArr1 (c : Dev nD) : S100000x128.Idx → EReal :=
  GinSpec.ofMat (GinSpec.bn (GinSpec.toMat (V c main_v24_0)) (GinSpec.row1 (V c main_v26)) (GinSpec.row1 (V c main_v30))
    (GinSpec.row1 (V c main_v33)) (GinSpec.row1 (V c main_v36)))

theorem flushed1_eq (c : Dev nD) (t : Fin cfg1.N) :
    (dat1 V c).flushed 5 t = ((cfg1.win 5).blk t).view.read (Elt Ideal) (bnArr1 V c) := by
  funext y
  obtain ⟨p, q, rfl⟩ : ∃ (p : Fin 2000) (q : Fin 128), y = ix2 p q := ⟨y 0, y 1, eq_ix2 y⟩
  have h : 2000 * t.val + p.val < 100000 := by have := lt_of_lt_of_eq t.isLt N_1; have := p.isLt; omega
  show (dat1 V c).after 5 t (ix2 p q) = bnArr1 V c (((cfg1.win 5).blk t).view.emb (ix2 p q))
  dsimp only [dat1]
  rw [oblk1_apply, (pos1 t p q ⟨_, h⟩ rfl).2]
  rw [iblk1_0_apply V c t p q ⟨_, h⟩ rfl, iblk1_1_apply, iblk1_2_apply, iblk1_3_apply, iblk1_4_apply]
  rfl

theorem bn1_value (c : Dev nD) : (dat1 (F := Ideal) V c).arrAt 5 cfg1.N
    = GinSpec.ofMat (GinSpec.bn (GinSpec.toMat (V c main_v24_0)) (GinSpec.row1 (V c main_v26)) (GinSpec.row1 (V c main_v30))
        (GinSpec.row1 (V c main_v33)) (GinSpec.row1 (V c main_v36))) :=
  (dat1 V c).arrAt_eq_of_cover 5 (bnArr1 V c) (fun t _ => flushed1_eq V c t) (rows_covered1)

end Cert.KernelIdeal.Hand
-- ==== Proof.KI.Bn3Value.lean ====
import proofs.«137621_j4303557230930_1_alg».proof.Proof.KI.Bn3
import proofs.«137621_j4303557230930_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem spread_row3_apply (x : S1x128.Idx → EReal) (p : Fin 2000) (q : Fin 128) :
    broadcastTo S2000x128 x broadcasts_S1x128_S2000x128 (ix2 p q) = x (ix2 0 q) :=
  broadcastTo_apply x broadcasts_S1x128_S2000x128 (ix2 p q) (ix2 0 q) fun | ⟨0, _⟩ => rfl | ⟨1, _⟩ => rfl

theorem oblk3_apply (xz : S2000x128.Idx → EReal) (xm xv xg xb : S1x128.Idx → EReal) (p : Fin 2000) (q : Fin 128) :
    oblk3 (F := Ideal) xz xm xv xg xb (ix2 p q)
      = max (xg (ix2 0 q) * (xz (ix2 p q) - xm (ix2 0 q)) * Ideal.rsqrt (xv (ix2 0 q) + GinSpec.eps) + xb (ix2 0 q)) 0 := by
  unfold oblk3 k3_pay1
  rw [View.canon_unit_zero zero_off3]
  simp only [View.ld_unit_zero (S := S2000x128) zero_off3, View.ld_unit_zero (S := S1x128) zero_off3, shapeCast_self,
    maximumf_apply, addf_apply, mulf_apply, subf_apply, broadcast_apply, spread_row3_apply, Ideal.ofBits_def, Ideal.ofBits_zero_f32]
  rfl

theorem block_index3 : ∀ t : Fin cfg3.N, win3_0.index t 0 = t.val ∧ win3_5.index t 0 = t.val :=
  (by decide +kernel : ∀ t : Fin grid3.N, _)

theorem pos3 (t : Fin cfg3.N) (p : Fin 2000) (q : Fin 128) (r : Fin 100000) (hr : r.val = 2000 * t.val + p.val) :
    ((cfg3.win 0).blk t).view.emb (ix2 p q) = (ix2 r q : S100000x128.Idx)
    ∧ ((cfg3.win 5).blk t).view.emb (ix2 p q) = (ix2 r q : S100000x128.Idx) := by
  obtain ⟨e0, e5⟩ := block_index3 t
  exact ⟨Shape.idx_ext₂ (show win3_0.index t 0 * 2000 + 1 * p.val = r.val by omega) (show 0 * 128 + 1 * q.val = q.val by omega),
    Shape.idx_ext₂ (show win3_5.index t 0 * 2000 + 1 * p.val = r.val by omega) (show 0 * 128 + 1 * q.val = q.val by omega)⟩

theorem rows3 (t : Fin cfg3.N) (y : S1x128.Idx) :
    ((cfg3.win 1).blk t).view.emb y = y ∧ ((cfg3.win 2).blk t).view.emb y = y
    ∧ ((cfg3.win 3).blk t).view.emb y = y ∧ ((cfg3.win 4).blk t).view.emb y = y := by
  refine ⟨?_, ?_, ?_, ?_⟩ <;>
    exact Shape.idx_ext₂ (show 0 * 1 + 1 * (y 0).val = _ by omega) (show 0 * 128 + 1 * (y 1).val = _ by omega)

theorem rows_covered3 (i : S100000x128.Idx) :
    ∃ t : Fin cfg3.N, (cfg3.win 5).flush t = true ∧ i ∈ ((cfg3.win 5).blk t).view.set :=
  have ht : (i 0).val / 2000 < cfg3.N := by have := idx2_lt0 i; show _ < grid3.N; rw [N_3]; omega
  have key : ∀ (t : Fin cfg3.N) (p : Fin 2000), (i 0).val = 2000 * t.val + p.val → i ∈ ((cfg3.win 5).blk t).view.set :=
    fun t p h => ((pos3 t p (i 1) (i 0) h).2.trans (eq_ix2 i).symm) ▸ View.emb_mem_set _ _
  ⟨⟨_, ht⟩, flush3_5 _, key _ ⟨(i 0).val % 2000, Nat.mod_lt _ (by decide)⟩ (Nat.div_add_mod _ _).symm⟩

theorem iblk3_0_apply (c : Dev nD) (t : Fin cfg3.N) (p : Fin 2000) (q : Fin 128) (r : Fin 100000) (hr : r.val = 2000 * t.val + p.val) :
    (iblk3 V c 0 t : S2000x128.Idx → EReal) (ix2 p q) = (V c main_v58_0 : S100000x128.Idx → EReal) (ix2 r q) :=
  congrArg (V c main_v58_0 : S100000x128.Idx → EReal) (pos3 t p q r hr).1

theorem iblk3_1_apply (c : Dev nD) (t : Fin cfg3.N) (q : Fin 128) :
    (iblk3 V c 1 t : S1x128.Idx → EReal) (ix2 0 q) = (V c main_v60 : S1x128.Idx → EReal) (ix2 0 q) :=
  congrArg (V c main_v60 : S1x128.Idx → EReal) (rows3 t _).1

theorem iblk3_2_apply (c : Dev nD) (t : Fin cfg3.N) (q : Fin 128) :
    (iblk3 V c 2 t : S1x128.Idx → EReal) (ix2 0 q) = (V c main_v64 : S1x128.Idx → EReal) (ix2 0 q) :=
  congrArg (V c main_v64 : S1x128.Idx → EReal) (rows3 t _).2.1

theorem iblk3_3_apply (c : Dev nD) (t : Fin cfg3.N) (q : Fin 128) :
    (iblk3 V c 3 t : S1x128.Idx → EReal) (ix2 0 q) = (V c main_v67 : S1x128.Idx → EReal) (ix2 0 q) :=
  congrArg (V c main_v67 : S1x128.Idx → EReal) (rows3 t _).2.2.1

theorem iblk3_4_apply (c : Dev nD) (t : Fin cfg3.N) (q : Fin 128) :
    (iblk3 V c 4 t : S1x128.Idx → EReal) (ix2 0 q) = (V c main_v70 : S1x128.Idx → EReal) (ix2 0 q) :=
  congrArg (V c main_v70 : S1x128.Idx → EReal) (rows3 t _).2.2.2

def bnArr3 (c : Dev nD) : S100000x128.Idx → EReal :=
  GinSpec.ofMat (GinSpec.bn (GinSpec.toMat (V c main_v58_0)) (GinSpec.row1 (V c main_v60)) (GinSpec.row1 (V c main_v64))
    (GinSpec.row1 (V c main_v67)) (GinSpec.row1 (V c main_v70)))

theorem flushed3_eq (c : Dev nD) (t : Fin cfg3.N) :
    (dat3 V c).flushed 5 t = ((cfg3.win 5).blk t).view.read (Elt Ideal) (bnArr3 V c) := by
  funext y
  obtain ⟨p, q, rfl⟩ : ∃ (p : Fin 2000) (q : Fin 128), y = ix2 p q := ⟨y 0, y 1, eq_ix2 y⟩
  have h : 2000 * t.val + p.val < 100000 := by have := lt_of_lt_of_eq t.isLt N_3; have := p.isLt; omega
  show (dat3 V c).after 5 t (ix2 p q) = bnArr3 V c (((cfg3.win 5).blk t).view.emb (ix2 p q))
  dsimp only [dat3]
  rw [oblk3_apply, (pos3 t p q ⟨_, h⟩ rfl).2]
  rw [iblk3_0_apply V c t p q ⟨_, h⟩ rfl, iblk3_1_apply, iblk3_2_apply, iblk3_3_apply, iblk3_4_apply]
  rfl

theorem bn3_value (c : Dev nD) : (dat3 (F := Ideal) V c).arrAt 5 cfg3.N
    = GinSpec.ofMat (GinSpec.bn (GinSpec.toMat (V c main_v58_0)) (GinSpec.row1 (V c main_v60)) (GinSpec.row1 (V c main_v64))
        (GinSpec.row1 (V c main_v67)) (GinSpec.row1 (V c main_v70))) :=
  (dat3 V c).arrAt_eq_of_cover 5 (bnArr3 V c) (fun t _ => flushed3_eq V c t) (rows_covered3)

end Cert.KernelIdeal.Hand
-- ==== Proof.KI.Bn5Value.lean ====
import proofs.«137621_j4303557230930_1_alg».proof.Proof.KI.Bn5
import proofs.«137621_j4303557230930_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem spread_row5_apply (x : S1x128.Idx → EReal) (p : Fin 2000) (q : Fin 128) :
    broadcastTo S2000x128 x broadcasts_S1x128_S2000x128 (ix2 p q) = x (ix2 0 q) :=
  broadcastTo_apply x broadcasts_S1x128_S2000x128 (ix2 p q) (ix2 0 q) fun | ⟨0, _⟩ => rfl | ⟨1, _⟩ => rfl

theorem oblk5_apply (xz : S2000x128.Idx → EReal) (xm xv xg xb : S1x128.Idx → EReal) (p : Fin 2000) (q : Fin 128) :
    oblk5 (F := Ideal) xz xm xv xg xb (ix2 p q)
      = max (xg (ix2 0 q) * (xz (ix2 p q) - xm (ix2 0 q)) * Ideal.rsqrt (xv (ix2 0 q) + GinSpec.eps) + xb (ix2 0 q)) 0 := by
  unfold oblk5 k5_pay1
  rw [View.canon_unit_zero zero_off5]
  simp only [View.ld_unit_zero (S := S2000x128) zero_off5, View.ld_unit_zero (S := S1x128) zero_off5, shapeCast_self,
    maximumf_apply, addf_apply, mulf_apply, subf_apply, broadcast_apply, spread_row5_apply, Ideal.ofBits_def, Ideal.ofBits_zero_f32]
  rfl

theorem block_index5 : ∀ t : Fin cfg5.N, win5_0.index t 0 = t.val ∧ win5_5.index t 0 = t.val :=
  (by decide +kernel : ∀ t : Fin grid5.N, _)

theorem pos5 (t : Fin cfg5.N) (p : Fin 2000) (q : Fin 128) (r : Fin 100000) (hr : r.val = 2000 * t.val + p.val) :
    ((cfg5.win 0).blk t).view.emb (ix2 p q) = (ix2 r q : S100000x128.Idx)
    ∧ ((cfg5.win 5).blk t).view.emb (ix2 p q) = (ix2 r q : S100000x128.Idx) := by
  obtain ⟨e0, e5⟩ := block_index5 t
  exact ⟨Shape.idx_ext₂ (show win5_0.index t 0 * 2000 + 1 * p.val = r.val by omega) (show 0 * 128 + 1 * q.val = q.val by omega),
    Shape.idx_ext₂ (show win5_5.index t 0 * 2000 + 1 * p.val = r.val by omega) (show 0 * 128 + 1 * q.val = q.val by omega)⟩

theorem rows5 (t : Fin cfg5.N) (y : S1x128.Idx) :
    ((cfg5.win 1).blk t).view.emb y = y ∧ ((cfg5.win 2).blk t).view.emb y = y
    ∧ ((cfg5.win 3).blk t).view.emb y = y ∧ ((cfg5.win 4).blk t).view.emb y = y := by
  refine ⟨?_, ?_, ?_, ?_⟩ <;>
    exact Shape.idx_ext₂ (show 0 * 1 + 1 * (y 0).val = _ by omega) (show 0 * 128 + 1 * (y 1).val = _ by omega)

theorem rows_covered5 (i : S100000x128.Idx) :
    ∃ t : Fin cfg5.N, (cfg5.win 5).flush t = true ∧ i ∈ ((cfg5.win 5).blk t).view.set :=
  have ht : (i 0).val / 2000 < cfg5.N := by have := idx2_lt0 i; show _ < grid5.N; rw [N_5]; omega
  have key : ∀ (t : Fin cfg5.N) (p : Fin 2000), (i 0).val = 2000 * t.val + p.val → i ∈ ((cfg5.win 5).blk t).view.set :=
    fun t p h => ((pos5 t p (i 1) (i 0) h).2.trans (eq_ix2 i).symm) ▸ View.emb_mem_set _ _
  ⟨⟨_, ht⟩, flush5_5 _, key _ ⟨(i 0).val % 2000, Nat.mod_lt _ (by decide)⟩ (Nat.div_add_mod _ _).symm⟩

theorem iblk5_0_apply (c : Dev nD) (t : Fin cfg5.N) (p : Fin 2000) (q : Fin 128) (r : Fin 100000) (hr : r.val = 2000 * t.val + p.val) :
    (iblk5 V c 0 t : S2000x128.Idx → EReal) (ix2 p q) = (V c main_v92_0 : S100000x128.Idx → EReal) (ix2 r q) :=
  congrArg (V c main_v92_0 : S100000x128.Idx → EReal) (pos5 t p q r hr).1

theorem iblk5_1_apply (c : Dev nD) (t : Fin cfg5.N) (q : Fin 128) :
    (iblk5 V c 1 t : S1x128.Idx → EReal) (ix2 0 q) = (V c main_v94 : S1x128.Idx → EReal) (ix2 0 q) :=
  congrArg (V c main_v94 : S1x128.Idx → EReal) (rows5 t _).1

theorem iblk5_2_apply (c : Dev nD) (t : Fin cfg5.N) (q : Fin 128) :
    (iblk5 V c 2 t : S1x128.Idx → EReal) (ix2 0 q) = (V c main_v98 : S1x128.Idx → EReal) (ix2 0 q) :=
  congrArg (V c main_v98 : S1x128.Idx → EReal) (rows5 t _).2.1

theorem iblk5_3_apply (c : Dev nD) (t : Fin cfg5.N) (q : Fin 128) :
    (iblk5 V c 3 t : S1x128.Idx → EReal) (ix2 0 q) = (V c main_v101 : S1x128.Idx → EReal) (ix2 0 q) :=
  congrArg (V c main_v101 : S1x128.Idx → EReal) (rows5 t _).2.2.1

theorem iblk5_4_apply (c : Dev nD) (t : Fin cfg5.N) (q : Fin 128) :
    (iblk5 V c 4 t : S1x128.Idx → EReal) (ix2 0 q) = (V c main_v104 : S1x128.Idx → EReal) (ix2 0 q) :=
  congrArg (V c main_v104 : S1x128.Idx → EReal) (rows5 t _).2.2.2

def bnArr5 (c : Dev nD) : S100000x128.Idx → EReal :=
  GinSpec.ofMat (GinSpec.bn (GinSpec.toMat (V c main_v92_0)) (GinSpec.row1 (V c main_v94)) (GinSpec.row1 (V c main_v98))
    (GinSpec.row1 (V c main_v101)) (GinSpec.row1 (V c main_v104)))

theorem flushed5_eq (c : Dev nD) (t : Fin cfg5.N) :
    (dat5 V c).flushed 5 t = ((cfg5.win 5).blk t).view.read (Elt Ideal) (bnArr5 V c) := by
  funext y
  obtain ⟨p, q, rfl⟩ : ∃ (p : Fin 2000) (q : Fin 128), y = ix2 p q := ⟨y 0, y 1, eq_ix2 y⟩
  have h : 2000 * t.val + p.val < 100000 := by have := lt_of_lt_of_eq t.isLt N_5; have := p.isLt; omega
  show (dat5 V c).after 5 t (ix2 p q) = bnArr5 V c (((cfg5.win 5).blk t).view.emb (ix2 p q))
  dsimp only [dat5]
  rw [oblk5_apply, (pos5 t p q ⟨_, h⟩ rfl).2]
  rw [iblk5_0_apply V c t p q ⟨_, h⟩ rfl, iblk5_1_apply, iblk5_2_apply, iblk5_3_apply, iblk5_4_apply]
  rfl

theorem bn5_value (c : Dev nD) : (dat5 (F := Ideal) V c).arrAt 5 cfg5.N
    = GinSpec.ofMat (GinSpec.bn (GinSpec.toMat (V c main_v92_0)) (GinSpec.row1 (V c main_v94)) (GinSpec.row1 (V c main_v98))
        (GinSpec.row1 (V c main_v101)) (GinSpec.row1 (V c main_v104))) :=
  (dat5 V c).arrAt_eq_of_cover 5 (bnArr5 V c) (fun t _ => flushed5_eq V c t) (rows_covered5)

end Cert.KernelIdeal.Hand
-- ==== Proof.KI.Value.lean ====
import proofs.«137621_j4303557230930_1_alg».proof.Proof.KI.Kept
import proofs.«137621_j4303557230930_1_alg».proof.Proof.KI.HostVals
import proofs.«137621_j4303557230930_1_alg».proof.Proof.MsgReal
import proofs.«137621_j4303557230930_1_alg».proof.Proof.KI.Stats0Value
import proofs.«137621_j4303557230930_1_alg».proof.Proof.KI.Stats2Value
import proofs.«137621_j4303557230930_1_alg».proof.Proof.KI.Stats4Value
import proofs.«137621_j4303557230930_1_alg».proof.Proof.KI.Bn1Value
import proofs.«137621_j4303557230930_1_alg».proof.Proof.KI.Bn3Value
import proofs.«137621_j4303557230930_1_alg».proof.Proof.KI.Bn5Value
import proofs.«137621_j4303557230930_1_alg».proof.Proof.Spec

set_option maxRecDepth 16384

noncomputable section

namespace Cert.KernelIdeal.Hand

open Cert.KernelIdeal Cert.KernelIdeal.Gen
open Idealize.ShloMosaic Idealize.ShloMosaic.TcCoe
open GinSpec (Mat toMat ofMat ofMat_toMat sl3 sl2 row1 toWt mlp colSum bn layerK netK cnt)

theorem msgKM_toMat (e : IVec S2x800000 32) (x : S100000x128.Idx → EReal) :
    msgKM e (toMat x) = toMat (msgK (F := Ideal) e x) := by
  unfold msgKM; rw [ofMat_toMat]

variable (m : (ℓ : Loc nD τ sig) → Buf (Elt Ideal) ℓ)

section
variable (c : Dev nD)

def layerAt (l : Fin 3) (h : Mat) : Mat :=
  layerK (msgKM (m ((c : Thread nD τ).loc main_arg1))) h
    (sl3 (m ((c : Thread nD τ).loc main_arg2)) l) (sl2 (m ((c : Thread nD τ).loc main_arg3)) l)
    (sl3 (m ((c : Thread nD τ).loc main_arg4)) l) (sl2 (m ((c : Thread nD τ).loc main_arg5)) l)
    (sl2 (m ((c : Thread nD τ).loc main_arg6)) l) (sl2 (m ((c : Thread nD τ).loc main_arg7)) l)

-- The perceptron's output normalised by its column means and variances (mean of squares less squared mean) is the layer.
theorem layer_value (l : Fin 3) (Vp Vm : Valuation τ sig (Elt Ideal))
    (kp : ∀ r ∈ argRefs, Vp (Proc.devRef .tc r) = m ((c : Thread nD τ).loc r))
    (km : ∀ r ∈ argRefs, Vm (Proc.devRef .tc r) = m ((c : Thread nD τ).loc r))
    {x xh xq xz xz' out : S100000x128.Idx → EReal} {xw1 xw2 : S128x128.Idx → EReal}
    {xb1 xb2 s1 s2 xm xv xg xb : S1x128.Idx → EReal}
    (hh : xh = x) (hq : xq = msgK (F := Ideal) (m ((c : Thread nD τ).loc main_arg1)) x)
    (hw1 : toWt xw1 = sl3 (Vp (Proc.devRef .tc main_arg2)) l) (hb1 : row1 xb1 = sl2 (Vp (Proc.devRef .tc main_arg3)) l)
    (hw2 : toWt xw2 = sl3 (Vp (Proc.devRef .tc main_arg4)) l) (hb2 : row1 xb2 = sl2 (Vp (Proc.devRef .tc main_arg5)) l)
    {A : Mat} (hA : A = mlp (fun r k => toMat xh r k + toMat xq r k) (toWt xw1) (row1 xb1) (toWt xw2) (row1 xb2))
    (hz : xz = ofMat A) (hs1 : s1 = fun i => colSum A (i 1)) (hs2 : s2 = fun i => colSum (fun r k => A r k * A r k) (i 1))
    (hz' : xz' = xz) (hm : row1 xm = fun k => Ideal.div (row1 s1 k) cnt)
    (hv : row1 xv = fun k => Ideal.div (row1 s2 k) cnt - Ideal.div (row1 s1 k) cnt * Ideal.div (row1 s1 k) cnt)
    (hg : row1 xg = sl2 (Vm (Proc.devRef .tc main_arg6)) l) (hb : row1 xb = sl2 (Vm (Proc.devRef .tc main_arg7)) l)
    (hout : out = ofMat (bn (toMat xz') (row1 xm) (row1 xv) (row1 xg) (row1 xb))) :
    out = ofMat (layerAt m c l (toMat x)) := by
  subst hh hq hz' hout hz hs1 hs2 hA
  rw [hm, hv, hg, hb, hw1, hb1, hw2, hb2, kp main_arg2 (by decide), kp main_arg3 (by decide), kp main_arg4 (by decide),
    kp main_arg5 (by decide), km main_arg6 (by decide), km main_arg7 (by decide), ← msgKM_toMat]
  rfl

theorem layer0_value :
    exitVal1 (F := Ideal) m c (Proc.devRef .tc main_v37)
      = ofMat (layerAt m c 0 (toMat (m ((c : Thread nD τ).loc main_arg0)))) :=
  layer_value m c 0 (launchVal m c) (exitVal0 m c) (fun _ _ => rfl) (kept0_args m c) (host0_h _) (host0_msg _)
    (host0_w1_toWt _) (host0_b1 _) (host0_w2_toWt _) (host0_b2 _) rfl
    ((exitVal0_arr m c 6).trans (z0_value (entry0 m) c)) ((exitVal0_arr m c 7).trans (sum0_value (entry0 m) c))
    ((exitVal0_arr m c 8).trans (sumsq0_value (entry0 m) c))
    (host1_z _) (host1_mean _) (host1_var _) (host1_gamma _) (host1_beta _)
    ((exitVal1_arr m c 5).trans (bn1_value (entry1 m) c))

theorem layer1_value :
    exitVal3 (F := Ideal) m c (Proc.devRef .tc main_v71)
      = ofMat (layerAt m c 1 (toMat (exitVal1 m c (Proc.devRef .tc main_v37)))) :=
  layer_value m c 1 (exitVal1 m c) (exitVal2 m c) (kept1_args m c) (kept2_args m c) (host2_h _)
    (host2_msgK _ _ ((kept1_edges m c main_v1 (by decide)).trans (host0_src _))
      ((kept1_edges m c main_v3 (by decide)).trans (host0_dst _)))
    (host2_w1_toWt _) (host2_b1 _) (host2_w2_toWt _) (host2_b2 _) rfl
    ((exitVal2_arr m c 6).trans (z2_value (entry2 m) c)) ((exitVal2_arr m c 7).trans (sum2_value (entry2 m) c))
    ((exitVal2_arr m c 8).trans (sumsq2_value (entry2 m) c))
    (host3_z _) (host3_mean _) (host3_var _) (host3_gamma _) (host3_beta _)
    ((exitVal3_arr m c 5).trans (bn3_value (entry3 m) c))

theorem layer2_value :
    exitVal5 (F := Ideal) m c (Proc.devRef .tc main_v105)
      = ofMat (layerAt m c 2 (toMat (exitVal3 m c (Proc.devRef .tc main_v71)))) :=
  layer_value m c 2 (exitVal3 m c) (exitVal4 m c) (kept3_args m c) (kept4_args m c) (host4_h _)
    (host4_msgK _ _ ((kept3_edges m c main_v1 (by decide)).trans (host0_src _))
      ((kept3_edges m c main_v3 (by decide)).trans (host0_dst _)))
    (host4_w1_toWt _) (host4_b1 _) (host4_w2_toWt _) (host4_b2 _) rfl
    ((exitVal4_arr m c 6).trans (z4_value (entry4 m) c)) ((exitVal4_arr m c 7).trans (sum4_value (entry4 m) c))
    ((exitVal4_arr m c 8).trans (sumsq4_value (entry4 m) c))
    (host5_z _) (host5_mean _) (host5_var _) (host5_gamma _) (host5_beta _)
    ((exitVal5_arr m c 5).trans (bn5_value (entry5 m) c))

end

theorem result_value (c : Dev nD) :
    exitVal5 (F := Ideal) m c (Proc.devRef .tc main_v105)
      = ofMat (netK (msgKM (m ((c : Thread nD τ).loc main_arg1))) (toMat (m ((c : Thread nD τ).loc main_arg0)))
          (sl3 (m ((c : Thread nD τ).loc main_arg2))) (sl2 (m ((c : Thread nD τ).loc main_arg3)))
          (sl3 (m ((c : Thread nD τ).loc main_arg4))) (sl2 (m ((c : Thread nD τ).loc main_arg5)))
          (sl2 (m ((c : Thread nD τ).loc main_arg6))) (sl2 (m ((c : Thread nD τ).loc main_arg7)))) := by
  rw [layer2_value, layer1_value, layer0_value]
  rfl

end Cert.KernelIdeal.Hand

end
-- ==== Proof.Ref.Run.lean ====
import proofs.«137621_j4303557230930_1_alg».proof.Proof.Ref.Terms
import proofs.«137621_j4303557230930_1_alg».proof.Proof.Ref.Ops
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [hP : Cert.ReferenceIdeal.Facts]

abbrev ops : List (HloOp τ sig (Elt Ideal)) := opsPre (F := Ideal) ++ (opsL0 (F := Ideal) ++ (opsL1 (F := Ideal) ++ opsL2 (F := Ideal)))

set_option maxRecDepth 16384 in
set_option maxHeartbeats 8000000 in
theorem main_eq (c : Dev nD) : main (F := Ideal) c = seq ops := by
  simp only [main, main_part0, main_part1, main_part2, main_part3, fn_var.body, fn_where.body, ops, opsPre, opsL0, opsL1, opsL2,
    List.cons_append, List.nil_append, seq, bind_assoc, pure_bind]
  try rfl

theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

-- Contents a layer may start from: the eight arguments as in V₀, the two flattened edge rows computed from them.
structure Ready (V₀ V : Valuation τ sig (Elt Ideal)) : Prop where
  a0 : V (main_arg0 : DevRef τ sig) = V₀ (main_arg0 : DevRef τ sig)
  a1 : V (main_arg1 : DevRef τ sig) = V₀ (main_arg1 : DevRef τ sig)
  a2 : V (main_arg2 : DevRef τ sig) = V₀ (main_arg2 : DevRef τ sig)
  a3 : V (main_arg3 : DevRef τ sig) = V₀ (main_arg3 : DevRef τ sig)
  a4 : V (main_arg4 : DevRef τ sig) = V₀ (main_arg4 : DevRef τ sig)
  a5 : V (main_arg5 : DevRef τ sig) = V₀ (main_arg5 : DevRef τ sig)
  a6 : V (main_arg6 : DevRef τ sig) = V₀ (main_arg6 : DevRef τ sig)
  a7 : V (main_arg7 : DevRef τ sig) = V₀ (main_arg7 : DevRef τ sig)
  src : V (main_v1 : DevRef τ sig) = srcRow (V₀ (main_arg1 : DevRef τ sig))
  dst : V (main_v3 : DevRef τ sig) = dstRow (V₀ (main_arg1 : DevRef τ sig))

theorem pre_ready (V : Valuation τ sig (Elt Ideal)) : Ready V (after (opsPre (F := Ideal)) V) := by
  constructor <;> after_results_simp <;> rfl

abbrev kept : List (Ref sig .tc) :=
  [main_arg0, main_arg1, main_arg2, main_arg3, main_arg4, main_arg5, main_arg6, main_arg7, main_v1, main_v3]

set_option maxRecDepth 16384 in
set_option maxHeartbeats 8000000 in
-- No layer writes an argument or an edge row.
theorem keep {l : List (HloOp τ sig (Elt Ideal))} (hl : l ∈ [opsL0 (F := Ideal), opsL1 (F := Ideal), opsL2 (F := Ideal)])
    {b : Ref sig .tc} (hb : b ∈ kept) (V : Valuation τ sig (Elt Ideal)) : after l V (b : DevRef τ sig) = V (b : DevRef τ sig) := by
  simp only [List.mem_cons, List.not_mem_nil, or_false] at hl hb
  rcases hl with rfl | rfl | rfl <;> rcases hb with rfl | rfl | rfl | rfl | rfl | rfl | rfl | rfl | rfl | rfl <;>
    after_results_simp

theorem Ready.step {V₀ V : Valuation τ sig (Elt Ideal)} (r : Ready V₀ V) {l : List (HloOp τ sig (Elt Ideal))}
    (hl : l ∈ [opsL0 (F := Ideal), opsL1 (F := Ideal), opsL2 (F := Ideal)]) : Ready V₀ (after l V) :=
  ⟨(keep hl (by decide) V).trans r.a0, (keep hl (by decide) V).trans r.a1, (keep hl (by decide) V).trans r.a2,
    (keep hl (by decide) V).trans r.a3, (keep hl (by decide) V).trans r.a4, (keep hl (by decide) V).trans r.a5,
    (keep hl (by decide) V).trans r.a6, (keep hl (by decide) V).trans r.a7, (keep hl (by decide) V).trans r.src,
    (keep hl (by decide) V).trans r.dst⟩

-- Layer k's term of features h and edges e, its parameters read off V.
def layerAt (k : Nat) (hW : S3x128x128.Slices ![k, 0, 0] S1x128x128) (hb : S3x128.Slices ![k, 0] S1x128)
    (V : Valuation τ sig (Elt Ideal)) (h : FVec Ideal S100000x128 .f32) (e : IVec S2x800000 32) : FVec Ideal S100000x128 .f32 :=
  layerT k hW hb h e (V (main_arg2 : DevRef τ sig)) (V (main_arg3 : DevRef τ sig)) (V (main_arg4 : DevRef τ sig))
    (V (main_arg5 : DevRef τ sig)) (V (main_arg6 : DevRef τ sig)) (V (main_arg7 : DevRef τ sig))

theorem Ready.layerAt {V₀ V : Valuation τ sig (Elt Ideal)} (r : Ready V₀ V) (k : Nat) (hW : S3x128x128.Slices ![k, 0, 0] S1x128x128)
    (hb : S3x128.Slices ![k, 0] S1x128) : layerAt k hW hb V = layerAt k hW hb V₀ := by
  unfold Hand.layerAt; rw [r.a2, r.a3, r.a4, r.a5, r.a6, r.a7]

attribute [local irreducible] Host.gather Host.scatterAdd Host.reduceAdd

set_option maxRecDepth 16384 in
set_option maxHeartbeats 8000000 in
-- Each layer's operations leave its output at the layer's term of its input, once the edge rows stand computed.
theorem layers_out {V : Valuation τ sig (Elt Ideal)} {e : IVec S2x800000 32}
    (hs : V (main_v1 : DevRef τ sig) = srcRow e) (hd : V (main_v3 : DevRef τ sig) = dstRow e) :
    after (opsL0 (F := Ideal)) V (main_v57 : DevRef τ sig)
        = layerAt 0 slices_S3x128x128_S1x128x128_0_0_0 slices_S3x128_S1x128_0_0 V (V (main_arg0 : DevRef τ sig)) e
      ∧ after (opsL1 (F := Ideal)) V (main_v111 : DevRef τ sig)
        = layerAt 1 slices_S3x128x128_S1x128x128_1_0_0 slices_S3x128_S1x128_1_0 V (V (main_v57 : DevRef τ sig)) e
      ∧ after (opsL2 (F := Ideal)) V (main_v165 : DevRef τ sig)
        = layerAt 2 slices_S3x128x128_S1x128x128_2_0_0 slices_S3x128_S1x128_2_0 V (V (main_v111 : DevRef τ sig)) e := by
  refine ⟨?_, ?_, ?_⟩ <;> (after_results_simp; rw [hs, hd]; rfl)

theorem ready_ops (V : Valuation τ sig (Elt Ideal)) : Ready V (after ops V) := by
  simp only [ops, after_append]
  exact (((pre_ready V).step (.head _)).step (.tail _ (.head _))).step (.tail _ (.tail _ (.head _)))

theorem out_eq (V : Valuation τ sig (Elt Ideal)) :
    after ops V (main_v165 : DevRef τ sig) = resT (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  have r0 := pre_ready V
  have r1 := r0.step (.head _)
  have r2 := r1.step (.tail _ (.head _))
  simp only [ops, after_append]
  rw [(layers_out r2.src r2.dst).2.2, (layers_out r1.src r1.dst).2.1, (layers_out r0.src r0.dst).1, r2.layerAt, r1.layerAt,
    r0.layerAt, r0.a0]
  rfl

theorem ops_ok : ∀ op ∈ ops, op.bufs ⊆ tcRefs τ sig ∧ op.fresh = ∅ := by
  simp only [ops, List.forall_mem_append]
  refine ⟨?_, ?_, ?_, ?_⟩ <;>
    (intro _ h
     repeat (cases h with
       | head => exact ⟨by simp only [nullary_bufs_sub, unary_bufs_sub, binary_bufs_sub, ternary_bufs_sub, reshape_bufs_sub], rfl⟩
       | tail _ h => ?_)
     exact nomatch h)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v165) = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c =>
      ⟨(h c main_v165).trans (out_eq _),
       (h c main_arg0).trans (ready_ops _).a0,
       (h c main_arg1).trans (ready_ops _).a1,
       (h c main_arg2).trans (ready_ops _).a2,
       (h c main_arg3).trans (ready_ops _).a3,
       (h c main_arg4).trans (ready_ops _).a4,
       (h c main_arg5).trans (ready_ops _).a5,
       (h c main_arg6).trans (ready_ops _).a6,
       (h c main_arg7).trans (ready_ops _).a7⟩)
    (run_seq (by decide) (by decide) (defs (F := Ideal)) (main (F := Ideal)) (fun _ => ops) main_eq
      (fun _ => List.forall_iff_forall_mem.2 fun op h => (ops_ok op h).1) m ρ (fun _ op h => (ops_ok op h).2))

end Cert.ReferenceIdeal.Hand

end
-- ==== Proof.Bridge.lean ====
import proofs.«137621_j4303557230930_1_alg».proof.Proof.Spec
import proofs.«137621_j4303557230930_1_alg».proof.Proof.LibRealClosure

noncomputable section

open scoped BigOperators

namespace GinSpec

open RealClosure Idealize.ShloMosaic

theorem cnt_eq : cnt = ((100000 : ℝ) : EReal) := by
  unfold cnt
  simp [Ideal.ofBits, Ideal.ieee, -EReal.coe_mul]; norm_num

theorem eps_pos : ∃ e : ℝ, 0 < e ∧ eps = (e : EReal) := by
  have h : eps = (((10995116 : ℝ) * (2 : ℝ) ^ (-40 : ℤ) : ℝ) : EReal) := by
    unfold eps
    simp [Ideal.ofBits, Ideal.ieee, -EReal.coe_mul] <;> norm_num
  exact ⟨_, by positivity, h⟩

-- The mean of a real column is the real mean.
theorem mean_coe (f : Fin 100000 → ℝ) :
    Ideal.div (∑ r, (f r : EReal)) cnt = (((∑ r, f r) / 100000 : ℝ) : EReal) := by
  rw [cnt_eq, ← coe_finset_sum, div_coe_coe _ (by norm_num)]

-- Expand the squared deviations: the cross terms are multiples of the sum, the last is a constant.
theorem real_var (f : Fin 100000 → ℝ) :
    (∑ i, f i * f i) / 100000 - (∑ i, f i) / 100000 * ((∑ i, f i) / 100000)
      = (∑ i, (f i - (∑ i, f i) / 100000) * (f i - (∑ i, f i) / 100000)) / 100000 := by
  simp only [sub_mul, mul_sub, Finset.sum_sub_distrib, ← Finset.sum_mul, ← Finset.mul_sum, Finset.sum_const,
    Finset.card_univ, Fintype.card_fin, nsmul_eq_mul]
  push_cast; ring

-- Of a real array: each column's mean is real, its two variances agree and are a nonnegative real.
theorem stats {z : Mat} (hz : ∀ r c, IsReal (z r c)) (c : Fin 128) :
    IsReal (meanOf z c) ∧ varK z c = varR z c ∧ ∃ v : ℝ, 0 ≤ v ∧ varR z c = (v : EReal) := by
  obtain ⟨g, rfl⟩ : ∃ g : Fin 100000 → Fin 128 → ℝ, z = fun r c => ((g r c : ℝ) : EReal) :=
    ⟨fun r c => (z r c).toReal, funext fun r => funext fun c => (hz r c).coe_toReal.symm⟩
  simp only [meanOf, varK, varR, colSum, ← EReal.coe_mul, ← EReal.coe_sub, mean_coe]
  exact ⟨⟨_, rfl⟩, congrArg _ (real_var fun r => g r c), _,
    div_nonneg (Finset.sum_nonneg fun r _ => mul_self_nonneg _) (by norm_num), rfl⟩

-- Normalising a real array by its own mean and variance: either form of the variance, and the result is real.
theorem bn_stats {z : Mat} (hz : ∀ r c, IsReal (z r c)) {g b : Row} (hg : ∀ k, IsReal (g k)) (hb : ∀ k, IsReal (b k)) :
    bn z (meanOf z) (varK z) g b = bn z (meanOf z) (varR z) g b
      ∧ ∀ r c, IsReal (bn z (meanOf z) (varR z) g b r c) := by
  have e : varK z = varR z := funext fun c => (stats hz c).2.1
  refine ⟨by rw [e], fun r c => ?_⟩
  obtain ⟨e, he, hee⟩ := eps_pos
  obtain ⟨hm, -, v, hv, hve⟩ := stats hz c
  have hp := add_pos_of_nonneg_of_pos hv he
  have hr : IsReal (Ideal.rsqrt (varR z c + eps)) := by
    rw [hve, hee, ← EReal.coe_add, Ideal.rsqrt_coe, if_neg (not_lt.2 hp.le), if_neg hp.ne']
    exact isReal_coe _
  exact ((((hg c).mul ((hz r c).sub hm)).mul hr).add (hb c)).max isReal_zero

theorem net_eq (M : Mat → Mat) (x : Mat) (W1 : Fin 3 → Wt) (B1 : Fin 3 → Row) (W2 : Fin 3 → Wt) (B2 G B : Fin 3 → Row)
    (hM : ∀ h : Mat, (∀ r c, IsReal (h r c)) → ∀ r c, IsReal (M h r c)) (hx : ∀ r c, IsReal (x r c))
    (hW1 : ∀ i j k, IsReal (W1 i j k)) (hB1 : ∀ i k, IsReal (B1 i k)) (hW2 : ∀ i j k, IsReal (W2 i j k))
    (hB2 : ∀ i k, IsReal (B2 i k)) (hG : ∀ i k, IsReal (G i k)) (hB : ∀ i k, IsReal (B i k)) :
    netK M x W1 B1 W2 B2 G B = netR M x W1 B1 W2 B2 G B := by
  have L : ∀ (i : Fin 3) (h : Mat), (∀ r c, IsReal (h r c)) →
      layerK M h (W1 i) (B1 i) (W2 i) (B2 i) (G i) (B i) = layerR M h (W1 i) (B1 i) (W2 i) (B2 i) (G i) (B i)
        ∧ ∀ r c, IsReal (layerR M h (W1 i) (B1 i) (W2 i) (B2 i) (G i) (B i) r c) := fun i h hh =>
    bn_stats (fun r c => (isReal_sum_univ _ fun k => (((isReal_sum_univ _ fun j =>
      ((hh r j).add (hM h hh r j)).mul (hW1 i j k)).add (hB1 i k)).max isReal_zero).mul (hW2 i k c)).add (hB2 i c))
      (hG i) (hB i)
  obtain ⟨e0, r0⟩ := L 0 x hx
  obtain ⟨e1, r1⟩ := L 1 _ r0
  unfold netK netR
  rw [e0, e1, (L 2 _ r1).1]

end GinSpec

end
-- ==== Proof.Fin.lean ====
import proofs.«137621_j4303557230930_1_alg».proof.Defs
import proofs.«137621_j4303557230930_1_alg».proof.Proof.Gen.Pre_finite_inputs
import proofs.«137621_j4303557230930_1_alg».proof.Proof.LibRealClosure
import Idealize.ShloMosaic.Lib.ReduceAll
import Idealize.ShloMosaic.PureOps.Ideal

noncomputable section

namespace Cert.KernelIdeal.Hand

open Idealize.ShloMosaic Idealize.SL.Sem RealClosure

instance : Subsingleton Cert.Pre_finite_inputs.S_.Idx := ⟨fun a b => funext fun d => d.elim0⟩

-- all(|x| < +∞) into a single result: at every entry max x (-x) < ⊤, so x ≠ ⊤ and -x ≠ ⊤, and x is real.
theorem real_of_all {s : Shape} {axes : List (Fin s.rank)} {x : FVec Ideal s .f32}
    {hb : Cert.Pre_finite_inputs.S_.BroadcastsInDim s (![] : Fin 0 → Fin s.rank)}
    {hr : s.ReducesTo axes Cert.Pre_finite_inputs.S_} {hu : 0 < Cert.Pre_finite_inputs.S_.numel}
    {init : IVec Cert.Pre_finite_inputs.S_ 1} {j : Cert.Pre_finite_inputs.S_.Idx}
    (e : Host.reduce IntOp.andi
          (cmpf .olt (Host.absf x)
            (broadcastInDim s ![] hb (constant (F := Ideal) Cert.Pre_finite_inputs.S_ .f32 0x7F800000#32)))
          init hr hu j = 1#1) (i : s.Idx) : IsReal (x i) := by
  have h : Ideal.cmp .olt (max (x i) (-x i)) (Ideal.ofBits .f32 0x7F800000#32) = 1#1 :=
    Host.reduce_andi_all _ init hr hu j e i
  rw [ofBits_pos_inf_f32] at h
  obtain ⟨hx, hnx⟩ := max_lt_iff.1 ((@cmp_ogt_eq_one_iff ⊤ _).1 h)
  exact isReal_of_ne (fun e => hnx.ne (by rw [e, EReal.neg_bot])) hx.ne

theorem real_of_pre [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, RealClosure.IsReal (m ((c.tc : Thread Cert.KernelIdeal.nD Cert.KernelIdeal.τ).loc Cert.KernelIdeal.main_arg0) i))
    ∧ (∀ i, RealClosure.IsReal (m ((c.tc : Thread Cert.KernelIdeal.nD Cert.KernelIdeal.τ).loc Cert.KernelIdeal.main_arg2) i))
    ∧ (∀ i, RealClosure.IsReal (m ((c.tc : Thread Cert.KernelIdeal.nD Cert.KernelIdeal.τ).loc Cert.KernelIdeal.main_arg3) i))
    ∧ (∀ i, RealClosure.IsReal (m ((c.tc : Thread Cert.KernelIdeal.nD Cert.KernelIdeal.τ).loc Cert.KernelIdeal.main_arg4) i))
    ∧ (∀ i, RealClosure.IsReal (m ((c.tc : Thread Cert.KernelIdeal.nD Cert.KernelIdeal.τ).loc Cert.KernelIdeal.main_arg5) i))
    ∧ (∀ i, RealClosure.IsReal (m ((c.tc : Thread Cert.KernelIdeal.nD Cert.KernelIdeal.τ).loc Cert.KernelIdeal.main_arg6) i))
    ∧ (∀ i, RealClosure.IsReal (m ((c.tc : Thread Cert.KernelIdeal.nD Cert.KernelIdeal.τ).loc Cert.KernelIdeal.main_arg7) i)) := by
  have hall := congrFun (h c) ValueIdx.ix0
  dsimp only [Cert.Pre_finite_inputs.fn, Cert.Pre_finite_inputs.fn_part1] at hall
  obtain ⟨h, e7⟩ := IntOp.andi_eq_one.1 hall
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨e0, e2⟩ := IntOp.andi_eq_one.1 h
  exact ⟨real_of_all e0, real_of_all e2, real_of_all e3, real_of_all e4, real_of_all e5, real_of_all e6,
    real_of_all e7⟩

end Cert.KernelIdeal.Hand

end
-- ==== Proof.lean ====
import proofs.«137621_j4303557230930_1_alg».proof.Defs
import proofs.«137621_j4303557230930_1_alg».proof.Proof.Gen.Kernel
import proofs.«137621_j4303557230930_1_alg».proof.Proof.Gen.KernelIdeal
import proofs.«137621_j4303557230930_1_alg».proof.Proof.Gen.ReferenceIdeal
import proofs.«137621_j4303557230930_1_alg».proof.Proof.Gen.Pre_finite_inputs
import proofs.«137621_j4303557230930_1_alg».proof.Proof.K.Run
import proofs.«137621_j4303557230930_1_alg».proof.Proof.K.Kept
import proofs.«137621_j4303557230930_1_alg».proof.Proof.KI.Run
import proofs.«137621_j4303557230930_1_alg».proof.Proof.KI.Kept
import proofs.«137621_j4303557230930_1_alg».proof.Proof.KI.Value
import proofs.«137621_j4303557230930_1_alg».proof.Proof.Ref.Run
import proofs.«137621_j4303557230930_1_alg».proof.Proof.Ref.Value
import proofs.«137621_j4303557230930_1_alg».proof.Proof.MsgReal
import proofs.«137621_j4303557230930_1_alg».proof.Proof.Bridge
import proofs.«137621_j4303557230930_1_alg».proof.Proof.Fin
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts]
  [hPre_finite_inputs : Cert.Pre_finite_inputs.Facts]

theorem frame_kernel : Cert.frame_Kernel := fun m ρ _ =>
  (θ_run Cert.Kernel.defs _ _).mono (fun r h c =>
    have k : ∀ b ∈ Cert.Kernel.Hand.argRefs, r.2.mem (c.tc.loc b) = m (c.tc.loc b) := fun b hb => (h c _ (Cert.Kernel.Hand.mem_unscoped b
      ((by decide : ∀ b ∈ Cert.Kernel.Hand.argRefs, ¬ (Proc.devRef .tc b : DevRef Cert.Kernel.τ Cert.Kernel.sig).isScoped) b hb))).trans
      (Cert.Kernel.Hand.kept5_args m c b hb)
    ⟨k _ (by decide), k _ (by decide), k _ (by decide), k _ (by decide),
      k _ (by decide), k _ (by decide), k _ (by decide), k _ (by decide)⟩)
    (Cert.Kernel.Hand.run_all m ρ)

theorem frame_kernel_ideal : Cert.frame_KernelIdeal := fun m ρ _ =>
  (θ_run Cert.KernelIdeal.defs _ _).mono (fun r h c =>
    have k : ∀ b ∈ Cert.KernelIdeal.Hand.argRefs, r.2.mem (c.tc.loc b) = m (c.tc.loc b) := fun b hb => (h c _ (Cert.KernelIdeal.Hand.mem_unscoped b
      ((by decide : ∀ b ∈ Cert.KernelIdeal.Hand.argRefs, ¬ (Proc.devRef .tc b : DevRef Cert.KernelIdeal.τ Cert.KernelIdeal.sig).isScoped) b hb))).trans
      (Cert.KernelIdeal.Hand.kept5_args m c b hb)
    ⟨k _ (by decide), k _ (by decide), k _ (by decide), k _ (by decide),
      k _ (by decide), k _ (by decide), k _ (by decide), k _ (by decide)⟩)
    (Cert.KernelIdeal.Hand.run_all m ρ)

theorem frame_reference : Cert.frame_ReferenceIdeal := fun m ρ _ =>
  (θ_run Cert.ReferenceIdeal.defs _ _).mono (fun _ h c => (h c).2) (Cert.ReferenceIdeal.Hand.run m ρ)

-- Both idealized programs end with the network's output; the two forms of the variance agree on real entries.
theorem algebraic : Cert.algebraic_KernelIdeal_ReferenceIdeal := by
  intro m ρ m' ρ' hpre hagree
  refine ⟨_, (θ_run Cert.KernelIdeal.defs _ _).mono (fun r h c =>
    have k : ∀ b ∈ Cert.KernelIdeal.Hand.argRefs, r.2.mem (c.tc.loc b) = m (c.tc.loc b) := fun b hb => (h c _ (Cert.KernelIdeal.Hand.mem_unscoped b
      ((by decide : ∀ b ∈ Cert.KernelIdeal.Hand.argRefs, ¬ (Proc.devRef .tc b : DevRef Cert.KernelIdeal.τ Cert.KernelIdeal.sig).isScoped) b hb))).trans
      (Cert.KernelIdeal.Hand.kept5_args m c b hb)
    ⟨(h c _ (Cert.KernelIdeal.Hand.mem_unscoped Cert.KernelIdeal.main_v105 (by decide))).trans
        (Cert.KernelIdeal.Hand.result_value m c),
      k _ (by decide), k _ (by decide), k _ (by decide), k _ (by decide),
      k _ (by decide), k _ (by decide), k _ (by decide), k _ (by decide)⟩)
    (Cert.KernelIdeal.Hand.run_all m ρ), ?_⟩
  refine (θ_run Cert.ReferenceIdeal.defs _ _).mono (fun r h c => ⟨(h c).1.trans ?_, (h c).2⟩)
    (Cert.ReferenceIdeal.Hand.run m' ρ')
  obtain ⟨e0, e1, e2, e3, e4, e5, e6, e7⟩ := hagree c
  obtain ⟨r0, r2, r3, r4, r5, r6, r7⟩ := Cert.KernelIdeal.Hand.real_of_pre m hpre c
  rw [e0, e1, e2, e3, e4, e5, e6, e7, Cert.ReferenceIdeal.Hand.resT_eq, Cert.ReferenceIdeal.Hand.msgR_eq]
  exact congrArg GinSpec.ofMat (GinSpec.net_eq _ _ _ _ _ _ _ _
    (fun h hh => Cert.KernelIdeal.Hand.msgKM_real _ h hh) (fun r c => r0 _) (fun i j k => r2 _) (fun i k => r3 _)
    (fun i j k => r4 _) (fun i k => r5 _) (fun i k => r6 _) (fun i k => r7 _)).symm

end

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
